-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S512x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10240x128 : Shape := ⟨2, ![10240, 128]⟩
abbrev S10240x1 : Shape := ⟨2, ![10240, 1]⟩
abbrev S512x10000 : Shape := ⟨2, ![512, 10000]⟩
abbrev S512x1 : Shape := ⟨2, ![512, 1]⟩
abbrev S512x128 : Shape := ⟨2, ![512, 128]⟩
abbrev S512x2560 : Shape := ⟨2, ![512, 2560]⟩
abbrev S2560x128 : Shape := ⟨2, ![2560, 128]⟩
abbrev S512x2320 : Shape := ⟨2, ![512, 2320]⟩
abbrev S2320x128 : Shape := ⟨2, ![2320, 128]⟩
abbrev S512x126 : Shape := ⟨2, ![512, 126]⟩
abbrev S512x512 : Shape := ⟨2, ![512, 512]⟩
abbrev S10000x1 : Shape := ⟨2, ![10000, 1]⟩

abbrev nBuf : Space → Nat
  | .hbm => 18
  | .vmem => 29
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x128, .f32⟩
  | .hbm, ⟨9, _⟩ => ⟨S1x1, .f32⟩
  | .hbm, ⟨10, _⟩ => ⟨S10000x128, .bf16⟩
  | .hbm, ⟨11, _⟩ => ⟨S128x1, .f32⟩
  | .hbm, ⟨12, _⟩ => ⟨S1x1, .f32⟩
  | .hbm, ⟨13, _⟩ => ⟨S1x128, .f32⟩
  | .hbm, ⟨14, _⟩ => ⟨S10240x128, .bf16⟩
  | .hbm, ⟨15, _⟩ => ⟨S10240x1, .f32⟩
  | .hbm, ⟨16, _⟩ => ⟨S10240x1, .f32⟩
  | .hbm, ⟨17, _⟩ => ⟨S10000x1, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S10000x128, .bf16⟩
  | .local _ .vmem, ⟨7, _⟩ => ⟨S128x1, .f32⟩
  | .local _ .vmem, ⟨8, _⟩ => ⟨S1x1, .f32⟩
  | .local _ .vmem, ⟨9, _⟩ => ⟨S512x10000, .f32⟩
  | .local _ .vmem, ⟨10, _⟩ => ⟨S512x10000, .f32⟩
  | .local _ .vmem, ⟨11, _⟩ => ⟨S10000x128, .bf16⟩
  | .local _ .vmem, ⟨12, _⟩ => ⟨S1x128, .f32⟩
  | .local _ .vmem, ⟨13, _⟩ => ⟨S128x1, .f32⟩
  | .local _ .vmem, ⟨14, _⟩ => ⟨S1x1, .f32⟩
  | .local _ .vmem, ⟨15, _⟩ => ⟨S10240x128, .bf16⟩
  | .local _ .vmem, ⟨16, _⟩ => ⟨S512x1, .f32⟩
  | .local _ .vmem, ⟨17, _⟩ => ⟨S512x1, .f32⟩
  | .local _ .vmem, ⟨18, _⟩ => ⟨S512x128, .f32⟩
  | .local _ .vmem, ⟨19, _⟩ => ⟨S512x128, .f32⟩
  | .local _ .vmem, ⟨20, _⟩ => ⟨S512x2560, .f32⟩
  | .local _ .vmem, ⟨21, _⟩ => ⟨S512x2560, .f32⟩
  | .local _ .vmem, ⟨22, _⟩ => ⟨S2560x128, .bf16⟩
  | .local _ .vmem, ⟨23, _⟩ => ⟨S2560x128, .bf16⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![20], ![false]⟩

def k1_off1 (i : grid1.Coords) : Fin 2 → Nat :=
  let arg0 : BitVec 32 := BitVec.ofNat 32 (i 0).val
  let c512_i32_75 : BitVec 32 := 512#32
  let v105 : BitVec 32 := Scalar.muli arg0 c512_i32_75
  let v106 : Index := Scalar.indexCast v105
  let c0_76 : Index := 0#32
  ![v106.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10240x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![20, 4], ![false, false]⟩

def k2_cond12 (i : grid2.Coords) : BitVec 1 :=
  let arg1 : BitVec 32 := BitVec.ofNat 32 (i 1).val
  let c3_i32_19 : BitVec 32 := 3#32
  let v47 : BitVec 1 := Scalar.cmpi .eq arg1 c3_i32_19
  let v48 : BitVec 32 := Scalar.extui v47
  let c0_i32_20 : BitVec 32 := 0#32
  let v49 : BitVec 1 := Scalar.cmpi .ne v48 c0_i32_20
  v49

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg1 v16
  let c3_i32 : BitVec 32 := 3#32
  let v18 : BitVec 32 := Scalar.minsi v17 c3_i32
  let c0_i32_4 : BitVec 32 := 0#32
  ![arg0.toNat, v18.toNat]

def cc2_transform_1 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg1 v16
  let c3_i32 : BitVec 32 := 3#32
  let v18 : BitVec 32 := Scalar.minsi v17 c3_i32
  let c0_i32_4 : BitVec 32 := 0#32
  let c0_i32_5 : BitVec 32 := 0#32
  ![v18.toNat, c0_i32_4.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2560 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2560x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S128x1_S128x1_0_0 : ∀ a, (![0, 0] : Fin 2 → Nat) a + S128x1.size a ≤ S128x1.size a
  h_S128x1 : 0 < S128x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10240x128_S10240x128_0_0 : ∀ a, (![0, 0] : Fin 2 → Nat) a + S10240x128.size a ≤ S10240x128.size a
  h_S10240x128 : 0 < S10240x128.numel
  packedbf16_S10240x128_S10240x128_0_0 : (Rect.unit (s := S10240x128) ![0, 0] S10240x128.size inb_S10240x128_S10240x128_0_0).PackedRows (EltTy.packing .bf16)
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x10000_S512x2560_0_0 : ∀ a, (![0, 0] : Fin 2 → Nat) a + S512x2560.size a ≤ S512x10000.size a
  h_S512x2560 : 0 < S512x2560.numel
  inb_S10000x128_S2560x128_0_0 : ∀ a, (![0, 0] : Fin 2 → Nat) a + S2560x128.size a ≤ S10000x128.size a
  h_S2560x128 : 0 < S2560x128.numel
  shapeCasts_S2560x128_S2560x128 : S2560x128.ShapeCasts S2560x128
  inb_S10240x128_S2560x128_0_0 : ∀ a, (![0, 0] : Fin 2 → Nat) a + S2560x128.size a ≤ S10240x128.size a
  inb_S512x10000_S512x2560_0_2560 : ∀ a, (![0, 2560] : Fin 2 → Nat) a + S512x2560.size a ≤ S512x10000.size a
  inb_S10000x128_S2560x128_2560_0 : ∀ a, (![2560, 0] : Fin 2 → Nat) a + S2560x128.size a ≤ S10000x128.size a
  inb_S10240x128_S2560x128_2560_0 : ∀ a, (![2560, 0] : Fin 2 → Nat) a + S2560x128.size a ≤ S10240x128.size a
  inb_S512x10000_S512x2560_0_5120 : ∀ a, (![0, 5120] : Fin 2 → Nat) a + S512x2560.size a ≤ S512x10000.size a
  inb_S10000x128_S2560x128_5120_0 : ∀ a, (![5120, 0] : Fin 2 → Nat) a + S2560x128.size a ≤ S10000x128.size a
  inb_S10240x128_S2560x128_5120_0 : ∀ a, (![5120, 0] : Fin 2 → Nat) a + S2560x128.size a ≤ S10240x128.size a
  inb_S512x10000_S512x2320_0_7680 : ∀ a, (![0, 7680] : Fin 2 → Nat) a + S512x2320.size a ≤ S512x10000.size a
  h_S512x2320 : 0 < S512x2320.numel
  inb_S10000x128_S2320x128_7680_0 : ∀ a, (![7680, 0] : Fin 2 → Nat) a + S2320x128.size a ≤ S10000x128.size a
  h_S2320x128 : 0 < S2320x128.numel
  shapeCasts_S2320x128_S2320x128 : S2320x128.ShapeCasts S2320x128
  inb_S10240x128_S2320x128_7680_0 : ∀ a, (![7680, 0] : Fin 2 → Nat) a + S2320x128.size a ≤ S10240x128.size a
  shapeCasts_S128x1_S128x1 : S128x1.ShapeCasts S128x1
  iota_S512x1_d0_w32 : S512x1.Iotas .tc 32 [0]
  concatenates_S512x1_S512x1_S512x126_S512x128_d1 : Shape.Concatenates [S512x1, S512x1, S512x126] S512x128 1
  slices_S512x128_o0_0_S512x1 : S512x128.Slices ![0, 0] S512x1
  slices_S512x128_o0_1_S512x1 : S512x128.Slices ![0, 1] S512x1
  broadcasts_S1x1_S512x1 : S1x1.Broadcasts S512x1
  inb_S512x1_S512x1_0_0 : ∀ a, (![0, 0] : Fin 2 → Nat) a + S512x1.size a ≤ S512x1.size a
  h_S512x1 : 0 < S512x1.numel
  inb_S512x2560_S512x512_0_0 : ∀ a, (![0, 0] : Fin 2 → Nat) a + S512x512.size a ≤ S512x2560.size a
  h_S512x512 : 0 < S512x512.numel
  inb_S2560x128_S512x128_0_0 : ∀ a, (![0, 0] : Fin 2 → Nat) a + S512x128.size a ≤ S2560x128.size a
  inb_S512x2560_S512x512_0_512 : ∀ a, (![0, 512] : Fin 2 → Nat) a + S512x512.size a ≤ S512x2560.size a
  inb_S2560x128_S512x128_512_0 : ∀ a, (![512, 0] : Fin 2 → Nat) a + S512x128.size a ≤ S2560x128.size a
  inb_S512x2560_S512x512_0_1024 : ∀ a, (![0, 1024] : Fin 2 → Nat) a + S512x512.size a ≤ S512x2560.size a
  inb_S2560x128_S512x128_1024_0 : ∀ a, (![1024, 0] : Fin 2 → Nat) a + S512x128.size a ≤ S2560x128.size a
  inb_S512x2560_S512x512_0_1536 : ∀ a, (![0, 1536] : Fin 2 → Nat) a + S512x512.size a ≤ S512x2560.size a
  inb_S2560x128_S512x128_1536_0 : ∀ a, (![1536, 0] : Fin 2 → Nat) a + S512x128.size a ≤ S2560x128.size a
  inb_S512x2560_S512x512_0_2048 : ∀ a, (![0, 2048] : Fin 2 → Nat) a + S512x512.size a ≤ S512x2560.size a
  inb_S2560x128_S512x128_2048_0 : ∀ a, (![2048, 0] : Fin 2 → Nat) a + S512x128.size a ≤ S2560x128.size a
  iota_S512x512_d1_w32 : S512x512.Iotas .tc 32 [1]
  shapeCasts_S512x1_S512x1 : S512x1.ShapeCasts S512x1
  slices_S10240x1_S10000x1_0_0 : S10240x1.Slices ![0, 0] S10000x1
  dot_S10000x128_S128x128_S10000x128_1_0_0_1_n_n_wf : DotDims.WF S10000x128 S128x128 S10000x128 [1] [0] [0] [1] [] []
  dot_S128x128_S128x1_S128x1_1_0_0_1_n_n_wf : DotDims.WF S128x128 S128x1 S128x1 [1] [0] [0] [1] [] []
  dot_S1x128_S128x1_S1x1_1_0_0_1_n_n_wf : DotDims.WF S1x128 S128x1 S1x1 [1] [0] [0] [1] [] []
  dot_S512x2560_S2560x128_S512x128_1_0_0_1_n_n_wf : DotDims.WF S512x2560 S2560x128 S512x128 [1] [0] [0] [1] [] []
  dot_S512x2320_S2320x128_S512x128_1_0_0_1_n_n_wf : DotDims.WF S512x2320 S2320x128 S512x128 [1] [0] [0] [1] [] []
  dot_S512x128_S128x1_S512x1_1_0_0_1_n_n_wf : DotDims.WF S512x128 S128x1 S512x1 [1] [0] [0] [1] [] []
  dot_S512x512_S512x128_S512x128_1_0_0_1_n_n_wf : DotDims.WF S512x512 S512x128 S512x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hrank1 : 0 < grid1.rank
  k1_off1_inb : ∀ i : grid1.Coords, ∀ a, (k1_off1 i) a + S512x128.size a ≤ S10240x128.size a
  k1_off1_packedbf16 : ∀ i : grid1.Coords, (Rect.unit (s := S10240x128) (k1_off1 i) S512x128.size (k1_off1_inb i)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S512x10000.size a < S10000x10000.size a
  hwx1_0 : ∀ i : grid1.Coords, EltTy.bits .f32 = 32 ∨ (Rect.unit (s := S10000x10000) (fun a => cc1_transform_0 i a * S512x10000.size a) (fun a => (Pipeline.Clip.of (cc1_transform_0 i a) (S512x10000.size a) (S10000x10000.size a)).extent (S512x10000.size a)) fun a => Pipeline.Clip.inb (Pipeline.Clip.ok_of (hstart1_0 i a))).WholeWords (EltTy.packing .f32)
  hwxs1_0 : ∀ i : grid1.Coords, EltTy.bits .f32 = 32 ∨ (Rect.unit (s := S512x10000) (fun _ => 0) (fun a => (Pipeline.Clip.of (cc1_transform_0 i a) (S512x10000.size a) (S10000x10000.size a)).extent (S512x10000.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10240x128.size a ≤ S10240x128.size a
  hwx1_5 : ∀ i : grid1.Coords, EltTy.bits .bf16 = 32 ∨ (Rect.block (s := S10240x128) S10240x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S10240x1.size a
  hwx1_6 : ∀ i : grid1.Coords, EltTy.bits .f32 = 32 ∨ (Rect.block (s := S10240x1) S512x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S512x2560.size a < S10000x10000.size a
  hwx2_0 : ∀ i : grid2.Coords, EltTy.bits .f32 = 32 ∨ (Rect.unit (s := S10000x10000) (fun a => cc2_transform_0 i a * S512x2560.size a) (fun a => (Pipeline.Clip.of (cc2_transform_0 i a) (S512x2560.size a) (S10000x10000.size a)).extent (S512x2560.size a)) fun a => Pipeline.Clip.inb (Pipeline.Clip.ok_of (hstart2_0 i a))).WholeWords (EltTy.packing .f32)
  hwxs2_0 : ∀ i : grid2.Coords, EltTy.bits .f32 = 32 ∨ (Rect.unit (s := S512x2560) (fun _ => 0) (fun a => (Pipeline.Clip.of (cc2_transform_0 i a) (S512x2560.size a) (S10000x10000.size a)).extent (S512x2560.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x128.size a ≤ S10240x128.size a
  hwx2_1 : ∀ i : grid2.Coords, EltTy.bits .bf16 = 32 ∨ (Rect.block (s := S10240x128) S2560x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S10240x1.size a
  hwx2_2 : ∀ i : grid2.Coords, EltTy.bits .f32 = 32 ∨ (Rect.block (s := S10240x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S10240x1.size a
  hwx2_3 : ∀ i : grid2.Coords, EltTy.bits .f32 = 32 ∨ (Rect.block (s := S10240x1) S512x1.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf
def dot_S512x2560_S2560x128_S512x128_1_0_0_1_n_n : DotDims S512x2560 S2560x128 S512x128 where
  lhsContracting := [1]
  rhsContracting := [0]
  lhsNonContracting := [0]
  rhsNonContracting := [1]
  lhsBatch := []
  rhsBatch := []
  wf := dot_S512x2560_S2560x128_S512x128_1_0_0_1_n_n_wf
def dot_S512x2320_S2320x128_S512x128_1_0_0_1_n_n : DotDims S512x2320 S2320x128 S512x128 where
  lhsContracting := [1]
  rhsContracting := [0]
  lhsNonContracting := [0]
  rhsNonContracting := [1]
  lhsBatch := []
  rhsBatch := []
  wf := dot_S512x2320_S2320x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg6) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2_0) true false (stage0_6 0) (sem0_6 0) (Memref.isWhole_whole _) (hstage0_6 0)

abbrev win0_7 : Pipeline.Window sig grid0 :=
  Pipeline.Window.whole (Memref.whole main_v2_1) true false (stage0_7 0) (sem0_7 0) (Memref.isWhole_whole _) (hstage0_7 0)

abbrev win0_8 : Pipeline.Window sig grid0 :=
  Pipeline.Window.whole (Memref.whole main_v2_2) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpecClip (Memref.whole main_arg0) S512x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S10240x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpecClip (Memref.whole main_arg0) S512x2560.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v4_0) S2560x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_1) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond12 i == 1#1) | ⟨_ + 4, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x1, .f32⟩
  | .hbm, ⟨22, _⟩ => ⟨S1x1, .f32⟩
  | .hbm, ⟨23, _⟩ => ⟨S10000x1, .f32⟩
  | .hbm, ⟨24, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.Launch.lean ====
import proofs.«121951_g22909355557424_cont_8to1_1761_16_alg».proof.Proof.Gen.KernelIdeal.Launch
import proofs.«121951_g22909355557424_cont_8to1_1761_16_alg».proof.Proof.Gen.KernelIdeal.Points
import proofs.«121951_g22909355557424_cont_8to1_1761_16_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

abbrev UU : Type := UR sig nD τ × UR sig nD τ

local notation "𝕄" => MT nD τ sig Unit (Elt F) ℕ UU ℕ

abbrev EP2 : Emb (UR sig nD τ) (MT nD τ sig Unit (Elt F) ℕ UU ℕ) := embR

abbrev 𝒱₀ : Variants := Variants.none
abbrev L : GSem nD τ sig → Finset Unit := fun _ => ∅
abbrev lv : GSem nD τ sig → Unit → ℕ := fun _ _ => 0
abbrev adm : (p : Fin 3) → (pcfgs (F := F) p).Adm := fun p => (cfgs p).toPCfg_adm

abbrev Rg (c : Dev nD) : sProp (MT nD τ sig Unit (Elt F) ℕ UU ℕ) := iprop(∃ r, prngReg c r)

abbrev Ow (c : Dev nD) : sProp (MT nD τ sig Unit (Elt F) ℕ UU ℕ) := iprop(∃ W, owes (c : Thread nD τ) (0 : CellTallies nD τ sig Unit) W)

def liftV (c : Dev nD) (W₀ : Valuation τ sig (Elt F)) (V : (b : Ref sig .tc) → Buf (Elt F) ((c : Thread nD τ).loc b)) :
    Valuation τ sig (Elt F) := fun d =>
  if h : ∃ b : Ref sig .tc, (Proc.devRef .tc b : DevRef τ sig) = d then
    cast (congrArg (fun d' : DevRef τ sig => d'.ty.Contents (Elt F)) h.choose_spec) (V h.choose)
  else W₀ d

theorem liftV_tc (c : Dev nD) (W₀ : Valuation τ sig (Elt F)) (V : (b : Ref sig .tc) → Buf (Elt F) ((c : Thread nD τ).loc b))
    (b : Ref sig .tc) : liftV c W₀ V (Proc.devRef .tc b) = V b := by
  unfold liftV
  have h : ∃ b' : Ref sig .tc, (Proc.devRef .tc b' : DevRef τ sig) = Proc.devRef .tc b := ⟨b, rfl⟩
  rw [dif_pos h]
  suffices ∀ (b' : Ref sig .tc) (e : (Proc.devRef .tc b' : DevRef τ sig) = Proc.devRef .tc b),
      cast (congrArg (fun d' : DevRef τ sig => d'.ty.Contents (Elt F)) e) (V b') = V b from this _ h.choose_spec
  intro b' e
  obtain rfl : b' = b := Proc.devRef_injective _ e
  rfl

/-- What enters a region's invariant before its first point, and what the invariant gives back after its last. -/
abbrev Gin (p : Fin 3) (c : Dev nD) : sProp (MT nD τ sig Unit (Elt F) ℕ UU ℕ) :=
  iprop(Rg c ∗ Pipeline.prefHeld (pcfgs (F := F) p).pre c (fun _ => fullShare) (adm (F := F) p).1
    ∗ Pipeline.scopedRest (Ix := Unit) (Name := ℕ) (U := UU) (Lvl := ℕ) (Val := Elt F) (cfgs p).spec c)
abbrev Gout (p : Fin 3) (c : Dev nD) : sProp (MT nD τ sig Unit (Elt F) ℕ UU ℕ) :=
  iprop(Rg c ∗ Pipeline.ownSems0 (fun k : PEmpty => k.elim) c
    ∗ Pipeline.scopedRest (Ix := Unit) (Name := ℕ) (U := UU) (Lvl := ℕ) (Val := Elt F) (cfgs p).spec c)

/-- `ΦA` is the scoped rest beside the generator register, and these kernels have neither tables nor semaphores of their own. -/
theorem hinA (p : Fin 3) (c : Dev nD) {Φ : sProp 𝕄} (h : Φ = Pipeline.ΦA (cfgs p).spec c) : Gin (F := F) p c ⊢ Φ := by
  subst h; unfold Pipeline.ΦA
  iintro ⟨Hp, -, Hr⟩
  iframe
theorem houtA (p : Fin 3) (c : Dev nD) {Φ : sProp 𝕄} (h : Φ = Pipeline.ΦA (cfgs p).spec c) : Φ ⊢ Gout (F := F) p c := by
  subst h; unfold Gout Pipeline.ΦA; rw [Pipeline.ownSems0_none]
  iintro ⟨Hr, Hp⟩
  iframe
  iempintro

section Region

variable (rds : (p : Fin 3) → (c : Dev nD) → RDat τ (Elt F) Unit ℕ UU ℕ (Pipeline.pin (pcfgs (F := F)) adm p) c)
  (p : Fin 3) (kit : Pipeline.LaunchFacts (nD := nD) (τ := τ) cfgs p)

/-- What is known of the unscoped buffers after region `p`, entered at `V`: the shape of `P4` and `P5`, for any region. -/
def Exits (c : Dev nD) (V V' : (b : Ref sig .tc) → Buf (Elt F) ((c : Thread nD τ).loc b)) : Prop :=
  (∀ w, (rds p c).ArrAt w (cfgs p).N (V' (Pipeline.arrRef (cfgs p).spec w)))
    ∧ ∀ b, b ∉ Finset.univ.image (Pipeline.arrRef (cfgs p).spec) → V' b = V b

include kit in
/-- True because the arrays are distinct whole unscoped buffers: `V'` is `V` updated at them. -/
theorem unscopedBufs_of_arraysAt (c : Dev nD) (hq : ∀ w, (rds p c).q w = fullShare) (W₀ : Valuation τ sig (Elt F))
    (V : (b : Ref sig .tc) → Buf (Elt F) ((c : Thread nD τ).loc b)) :
    iprop((rds p c).arraysAt (cfgs p).N ∗ Pipeline.unscopedRest (cfgs p).spec c V)
      ⊢ (iprop(∃ V', ⌜Exits rds p c V V'⌝ ∗ unscopedBufs c V') : sProp 𝕄) := by
  classical
  unfold RDat.arraysAt
  iintro ⟨Ha, Hrest⟩
  ihave ⟨%Fs, Ha⟩ := (BI.bigSep_exists_pi Finset.univ _) $$ Ha
  ihave ⟨%hFs, Ha⟩ := (BI.bigSep_pure_sep Finset.univ _ _) $$ Ha
  obtain ⟨V', hV', hne⟩ : ∃ V' : (b : Ref sig .tc) → Buf (Elt F) ((c : Thread nD τ).loc b),
      (∀ w, V' (Pipeline.arrRef (cfgs p).spec w) = Fs w) ∧ ∀ b, b ∉ Finset.univ.image (Pipeline.arrRef (cfgs p).spec) → V' b = V b :=
    ⟨fun b => Pipeline.withArrays (cfgs p).spec c (liftV c W₀ V) Fs (Proc.devRef .tc b),
      Pipeline.withArrays_arr (cfgs p).spec kit.win.arr_inj c _ Fs, fun b hb =>
      (Pipeline.withArrays_of_ne (cfgs p).spec c _ Fs b fun w e => hb (Finset.mem_image.mpr ⟨w, Finset.mem_univ _, e⟩)).trans (liftV_tc c W₀ V b)⟩
  have close : iprop((rds p c).arrays Fs ∗ Pipeline.unscopedRest (cfgs p).spec c V) ⊢ (unscopedBufs c V' : sProp 𝕄) := by
    rw [Pipeline.unscopedBufs_split (Pipeline.pin (pcfgs (F := F)) adm) p kit.win.arr_unscoped kit.win.arr_inj c,
      Pipeline.RDat.arrays_eq (pcfgs (F := F)) adm rds p c kit.arr_whole ((rds p c).share_full hq) Fs]
    refine sep_mono (Entails.of_eq (bigSep_congr fun w _ => by rw [hV' w])) (Entails.of_eq ?_)
    unfold Pipeline.unscopedRest
    exact bigSep_congr fun b hb => by rw [hne b (Finset.mem_sdiff.mp hb).2]
  unfold RDat.arrays at close
  iexists V'
  isplitr
  · ipureintro; exact ⟨fun w => by rw [hV' w]; exact hFs w (Finset.mem_univ w), hne⟩
  iapply close
  iframe

variable (V : (c : Dev nD) → (b : Ref sig .tc) → Buf (Elt F) ((c : Thread nD τ).loc b)) (R : Dev nD → sProp (MT nD τ sig Unit (Elt F) ℕ UU ℕ))
  (W₀ : Dev nD → Valuation τ sig (Elt F))
  (hA : ∀ c w, (rds p c).A w = V c (Pipeline.arrRef (cfgs p).spec w))
  (hq : ∀ c w, (rds p c).q w = fullShare) (howed : ∀ c t, (rds p c).owed t = 0)
  (hrec : ∀ c t, (rds p c).recorded t = Set.univ)
  (hin : ∀ c, Gin p c ⊢ (rds p c).Φ 0) (hout : ∀ c, (rds p c).Φ (Fin.last (cfgs p).N) ⊢ Gout p c)
  (hbody : ∀ c, (rds p c).BodyObligation (defs₀ (F := F)) 𝒱₀ () Set.univ)

set_option backward.isDefEq.respectTransparency.types false in
/-- One record for the three kernels: they differ only in the index, the entry contents `V` and what rides beside (`R`). -/
def reg : Pipeline.RDat.RegionSeg (pcfgs (F := F)) adm rds () defs₀ 𝒱₀ L lv p where
  win := kit.win.to₀
  block_pos := kit.block_pos
  stage_whole := kit.stage_whole
  K := PEmpty
  osem k := k.elim
  ho := Pipeline.OwnSemFacts.none _
  hbody := hbody
  hwaits := Pipeline.RDat.hwaits_of_owed_zero _ _ _ _ L lv p howed
  pre c := iprop(unscopedBufs c (V c) ∗ Rg c ∗ Ow c ∗ R c)
  post c := iprop(∃ V', ⌜Exits rds p c (V c) V'⌝ ∗ unscopedBufs c V' ∗ Rg c ∗ Ow c ∗ R c)
  X := Rg
  Y := Rg
  Z c := iprop(Pipeline.unscopedRest (Ix := Unit) (Name := ℕ) (U := UU) (Lvl := ℕ) (cfgs p).spec c (V c) ∗ R c)
  hentry c := by
    have hsplit := Pipeline.RDat.arrays_of_unscopedBufs (p := p) (pcfgs (F := F)) adm rds kit.win kit.arr_whole c
      ((rds p c).share_full (hq c)) (V c) (hA c)
    iintro ⟨⟨Hub, Hp, ⟨%W, HO⟩, HR⟩, -, -⟩
    ihave ⟨Ha, Hrest⟩ := hsplit $$ Hub
    imodintro
    iframe Ha Hp Hrest HR
    isplitr; · unfold Pipeline.prefHeld; rw [show (Finset.univ : Finset (Fin 0)) = ∅ from rfl, BI.bigSep_empty]; iempintro
    unfold Pipeline.RDat.owesAt Pipeline.owesWithin
    iexists W; isplitr; · ipureintro; exact fun _ _ => Or.inl (by rw [hrec c 0]; trivial)
    rw [howed c 0]
    iexact HO
  hin := hin
  hout := hout
  hexit c := by
    have hjoin := unscopedBufs_of_arraysAt rds p kit c (hq c) (W₀ c) (V c)
    unfold Pipeline.RDat.owesAt Pipeline.owesWithin
    rw [howed c _]
    iintro ⟨Ha, ⟨%W, -, HO⟩, HY, Hrest, HR⟩
    ihave ⟨%V', %hV', Hub⟩ := hjoin $$ [Ha Hrest]
    · iframe
    imodintro
    iexists V'
    iframe Hub HY HR
    isplitr; · ipureintro; exact hV'
    iexists W; iexact HO

end Region

section Run

variable (m : (ℓ : Loc nD τ sig) → Buf (Elt F) ℓ) (ρ : Dev nD → PrngReg)

abbrev W0 (c : Dev nD) : Valuation τ sig (Elt F) := fun b => m (c, b)

abbrev W1 (c : Dev nD) : Valuation τ sig (Elt F) := StableHlo.after hostOps0 (W0 m c)
abbrev V1 (c : Dev nD) (b : Ref sig .tc) : Buf (Elt F) ((c : Thread nD τ).loc b) := W1 m c b

variable (dat0 : (c : Dev nD) → Dat τ (Elt F) Unit ℕ UU ℕ cfg0 c)
  (hA0 : ∀ c w, (dat0 c).A w = V1 m c (Pipeline.arrRef spec0 w))
  (hq0 : ∀ c w, (dat0 c).q w = fullShare) (howed0 : ∀ c t, (dat0 c).owed t = 0)
  (hΦ0 : ∀ c t, (dat0 c).Φ t = Pipeline.ΦA spec0 c) (hrec0 : ∀ c t, (dat0 c).recorded t = Set.univ)
  (hbody0 : ∀ c, Pipeline.BodyObligation (dat0 c) (defs₀ (F := F)) 𝒱₀ () Set.univ)

def W2 (c : Dev nD) : Valuation τ sig (Elt F) :=
  Pipeline.withArrays spec0 c (W1 m c) fun w => (dat0 c).arrAt w cfg0.N
abbrev V2 (c : Dev nD) (b : Ref sig .tc) : Buf (Elt F) ((c : Thread nD τ).loc b) := W2 m dat0 c b

abbrev W3 (c : Dev nD) : Valuation τ sig (Elt F) := StableHlo.after hostOps1 (W2 m dat0 c)
abbrev V3 (c : Dev nD) (b : Ref sig .tc) : Buf (Elt F) ((c : Thread nD τ).loc b) := W3 m dat0 c b

theorem W2_arr (c : Dev nD) (w : Fin cfg0.W) :
    W2 m dat0 c (Proc.devRef .tc (Pipeline.arrRef spec0 w)) = (dat0 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb

variable (rd1 : (c : Dev nD) → RDat τ (Elt F) Unit ℕ UU ℕ cfg1 c)
  (hA1 : ∀ c w, (rd1 c).A w = V3 m dat0 c (Pipeline.arrRef spec1 w))
  (hq1 : ∀ c w, (rd1 c).q w = fullShare) (howed1 : ∀ c t, (rd1 c).owed t = 0)
  (hΦ1 : ∀ c t, (rd1 c).Φ t = Pipeline.ΦA spec1 c) (hrec1 : ∀ c t, (rd1 c).recorded t = Set.univ)
  (hbody1 : ∀ c, (rd1 c).BodyObligation (defs₀ (F := F)) 𝒱₀ () Set.univ)

def P4 (c : Dev nD) (V4 : (b : Ref sig .tc) → Buf (Elt F) ((c : Thread nD τ).loc b)) : Prop :=
  (∀ w, (rd1 c).ArrAt w cfg1.N (V4 (Pipeline.arrRef spec1 w)))
    ∧ ∀ b, b ∉ Finset.univ.image (Pipeline.arrRef spec1) → V4 b = V3 m dat0 c b

variable (rd2 : (c : Dev nD) → ((b : Ref sig .tc) → Buf (Elt F) ((c : Thread nD τ).loc b)) → RDat τ (Elt F) Unit ℕ UU ℕ cfg2 c)

def rdatsOf (r2 : (c : Dev nD) → RDat τ (Elt F) Unit ℕ UU ℕ cfg2 c) :
    (p : Fin 3) → (c : Dev nD) → RDat τ (Elt F) Unit ℕ UU ℕ (Pipeline.pin (pcfgs (F := F)) adm p) c
  | ⟨0, _⟩ => fun c => (dat0 c).toR
  | ⟨1, _⟩ => fun c => rd1 c
  | ⟨2, _⟩ => fun c => r2 c

abbrev rdats : (p : Fin 3) → (c : Dev nD) → RDat τ (Elt F) Unit ℕ UU ℕ (Pipeline.pin (pcfgs (F := F)) adm p) c :=
  rdatsOf dat0 rd1 (fun c => rd2 c (V3 m dat0 c))

abbrev Gh2 (c : Dev nD) : sProp (MT nD τ sig Unit (Elt F) ℕ UU ℕ) :=
  iprop(Pipeline.cellsGhost (Pipeline.pin (pcfgs (F := F)) adm) EP2 2 c ∗ Pipeline.toksInit (Pipeline.pin (pcfgs (F := F)) adm) EP2 2 c)

abbrev Rr (c : Dev nD) : sProp (MT nD τ sig Unit (Elt F) ℕ UU ℕ) := iprop(Rg c ∗ Ow c ∗ Gh2 c)

abbrev hseg (R : Dev nD → sProp (MT nD τ sig Unit (Elt F) ℕ UU ℕ)) (ops : List (HloOp τ sig (Elt F)))
    (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

variable (hA2 : ∀ c V4 w, (rd2 c V4).A w = V4 (Pipeline.arrRef spec2 w))
  (hq2 : ∀ c V4 w, (rd2 c V4).q w = fullShare) (howed2 : ∀ c V4 t, (rd2 c V4).owed t = 0)
  (hrec2 : ∀ c V4 t, (rd2 c V4).recorded t = Set.univ)
  (hin2 : ∀ c V4, (iprop(Rg c ∗ Pipeline.prefHeld (pcfgs (F := F) 2).pre c (fun _ => fullShare) (adm (F := F) 2).1
      ∗ Pipeline.scopedRest (Ix := Unit) (Name := ℕ) (U := UU) (Lvl := ℕ) (Val := Elt F) spec2 c) : sProp (MT nD τ sig Unit (Elt F) ℕ UU ℕ)) ⊢ (rd2 c V4).Φ 0)
  (hout2 : ∀ c V4, (rd2 c V4).Φ (Fin.last cfg2.N) ⊢ (iprop(Rg c ∗ Pipeline.ownSems0 (fun k : PEmpty => k.elim) c
      ∗ Pipeline.scopedRest (Ix := Unit) (Name := ℕ) (U := UU) (Lvl := ℕ) (Val := Elt F) spec2 c) : sProp (MT nD τ sig Unit (Elt F) ℕ UU ℕ)))
  (hbody2 : ∀ c V4, P4 m dat0 rd1 c V4 → (rd2 c V4).BodyObligation (defs₀ (F := F)) 𝒱₀ () Set.univ)

def P5 (c : Dev nD) (V4 V5 : (b : Ref sig .tc) → Buf (Elt F) ((c : Thread nD τ).loc b)) : Prop :=
  (∀ w, (rd2 c V4).ArrAt w cfg2.N (V5 (Pipeline.arrRef spec2 w)))
    ∧ ∀ b, b ∉ Finset.univ.image (Pipeline.arrRef spec2) → V5 b = V4 b

def Tn (c : Dev nD) : sProp (MT nD τ sig Unit (Elt F) ℕ UU ℕ) :=
  iprop(∃ V4 V5, ⌜P4 m dat0 rd1 c V4 ∧ P5 rd2 c V4 V5⌝
    ∗ StableHlo.held (c : Thread nD τ) (Pipeline.ucRefs τ sig) (StableHlo.after hostOps3 (liftV c (W0 m c) V5)) ∗ Rg c)

/-- Well typed because the mesh has one device. -/
def spread (c : Dev nD) (V : (b : Ref sig .tc) → Buf (Elt F) ((c : Thread nD τ).loc b)) :
    (c' : Dev nD) → (b : Ref sig .tc) → Buf (Elt F) ((c' : Thread nD τ).loc b) :=
  fun c' => (Subsingleton.elim c c' : c = c') ▸ V

set_option backward.isDefEq.respectTransparency.types false in
/-- The second pass's data depends on contents only the run fixes, so they are opened before its region rule is applied. -/
def seg2 : Pipeline.HostSeg (Name := ℕ) (U := UU) (pcfgs (F := F)) defs₀ 𝒱₀ L lv where
  prog := Prog.lift (.customCall (Pipeline.entry 2) ()) >>= fun _ => StableHlo.seq hostOps3
  pre c := iprop(∃ V4, ⌜P4 m dat0 rd1 c V4⌝ ∗ unscopedBufs c V4 ∗ Rr c)
  post c := iprop(Tn m dat0 rd1 rd2 c ∗ Ow c)
  run c {β} k K := by
    simp only [Prog.lift, Prog.bind_op, Prog.bind_ret, Prog.bind_assoc]
    iintro ⟨Hk, Hbd, ⟨%V4, %hV4, Hub, Hg, HO, Hgc, Hgt⟩, #Hla⟩
    have hP : ∀ c', P4 m dat0 rd1 c' (spread c V4 c') := fun c' => by cases Subsingleton.elim c c'; exact hV4
    have hwp := Pipeline.RDat.RegionSeg.wp (pcfgs (F := F)) adm (rdatsOf dat0 rd1 (fun c' => rd2 c' (spread c V4 c'))) () cellOf_inj EP2 defs₀ 𝒱₀ L lv
      (reg _ 2 launch2 (spread c V4) (fun _ => iprop(emp)) (W0 m) (fun c' => hA2 c' _) (fun c' => hq2 c' _) (fun c' => howed2 c' _)
        (fun c' => hrec2 c' _) (fun c' => hin2 c' _) (fun c' => hout2 c' _) fun c' => hbody2 c' _ (hP c')) c none (fun u hu => by cases hu)
      (fun _ => StableHlo.seq hostOps3 >>= k) K
    dsimp only [reg] at hwp
    rw [show spread c V4 c = V4 from rfl] at hwp
    iapply hwp
    iframe Hbd Hub Hg HO Hla Hgc Hgt
    iintro ⟨Hbd, %V5, %hV5, Hub, Hg, HO, -⟩
    have hH := (hseg (fun c => iprop(Rg c ∗ Ow c)) hostOps3 hostOps3_sub hostOps3_fresh (fun _ => liftV c (W0 m c) V5)).run c k K
    dsimp only [hseg, Pipeline.HostSeg.ofOps] at hH
    rw [← Pipeline.unscopedBufs_held c (liftV c (W0 m c) V5), funext (liftV_tc c (W0 m c) V5)] at hH
    iapply hH
    iframe Hbd Hub Hg HO Hla
    iintro ⟨Hbd, Hh, Hg, HO⟩
    iapply Hk
    unfold Tn
    iframe Hbd HO
    iexists V4; iexists V5
    iframe Hh Hg
    ipureintro; exact ⟨hV4, hV5⟩

abbrev u0 : UR sig nD τ :=
  initOf (Pipeline.cells (Pipeline.pin (pcfgs (F := F)) adm) cellOf_inj) (Pipeline.launchToks (Pipeline.pin (pcfgs (F := F)) adm) cellOf_inj)

theorem ghost2_of_own : (BI.own (EP2 (F := F) (u0 (F := F))) : sProp 𝕄) ⊢ iprop(|==> bigSep Finset.univ (Gh2 (F := F))) := by
  refine (Pipeline.fund_ghost (Pipeline.pin (pcfgs (F := F)) adm) EP2 cellOf_inj).trans (BI.bupd_mono ?_)
  rw [← bigSep_sep']
  exact bigSep_mono fun c _ => sep_mono (BI.bigSep_elim (Finset.mem_univ (2 : Fin 3))) (BI.bigSep_elim (Finset.mem_univ (2 : Fin 3)))

theorem ub (c : Dev nD) (W : Valuation τ sig (Elt F)) (R : sProp 𝕄) :
    iprop(StableHlo.held (c : Thread nD τ) (Pipeline.ucRefs τ sig) W ∗ R) ⊢ iprop(unscopedBufs c (fun b => W b) ∗ R) :=
  Entails.of_eq (by rw [Pipeline.unscopedBufs_held])

/-- Exact data names what its arrays hold, so what the preparation kernel leaves is `W2`. -/
theorem post0 (c : Dev nD) : (iprop(∃ V', ⌜Exits (rdats m dat0 rd1 rd2) 0 c (V1 m c) V'⌝ ∗ unscopedBufs c V' ∗ Rr c) : sProp 𝕄)
    ⊢ iprop(StableHlo.held (c : Thread nD τ) (Pipeline.ucRefs τ sig) (W2 m dat0 c) ∗ Rr c) := by
  rw [← Pipeline.unscopedBufs_held c (W2 m dat0 c)]
  iintro ⟨%V', %h, H⟩
  obtain rfl : V' = V2 m dat0 c := funext fun b => by
    by_cases hb : ∃ w, Pipeline.arrRef spec0 w = b
    · obtain ⟨w, rfl⟩ := hb
      exact ((dat0 c).toR_arrAt w _ _ (h.1 w)).trans (W2_arr m dat0 c w).symm
    · exact (h.2 b fun hm => hb (by obtain ⟨w, -, e⟩ := Finset.mem_image.mp hm; exact ⟨w, e⟩)).trans
        (W2_of_ne m dat0 c b fun w e => hb ⟨w, e⟩).symm
  iexact H

include hA0 hq0 howed0 hΦ0 hrec0 hbody0 hA1 hq1 howed1 hΦ1 hrec1 hbody1 hA2 hq2 howed2 hrec2 hin2 hout2 hbody2 in
set_option backward.isDefEq.respectTransparency.types false in
theorem run_main : θ_run defs (onTc (τ := τ) (main (F := F))) ⟨m, fun _ => 0, ρ⟩ (fun r => ∀ c : Dev nD,
      ∃ V4 V5, P4 m dat0 rd1 c V4 ∧ P5 rd2 c V4 V5
        ∧ ∀ b ∈ Pipeline.ucRefs τ sig, r.2.mem (((c : Thread nD τ)).1, b) = StableHlo.after hostOps3 (liftV c (W0 m c) V5) b) :=
  Pipeline.RDat.θ_run_regions_kit (pcfgs (F := F)) adm (rdats m dat0 rd1 rd2) () cellOf_inj embL defs₀ 𝒱₀ L lv m ρ main
    [ .host (hseg Rr hostOps0 hostOps0_sub hostOps0_fresh (W0 m)),
      .region (reg _ 0 launch0 (V1 m) Gh2 (W0 m) hA0 hq0 howed0 hrec0 (fun c => hinA 0 c (hΦ0 c 0)) (fun c => houtA 0 c (hΦ0 c _))
        fun c => ((hbody0 c).loose).toR),
      .host (hseg Rr hostOps1 hostOps1_sub hostOps1_fresh (W2 m dat0)),
      .region (reg _ 1 launch1 (V3 m dat0) Gh2 (W0 m) hA1 hq1 howed1 hrec1 (fun c => hinA 1 c (hΦ1 c 0)) (fun c => houtA 1 c (hΦ1 c _)) hbody1),
      .host (seg2 m dat0 rd1 rd2 hA2 hq2 howed2 hrec2 hin2 hout2 hbody2) ]
    (fun c Q => Entails.of_eq (by rw [main_chain c]; chain_rfl))
    (by simp only [Pipeline.RDat.Seg.pipes_host, Pipeline.RDat.Seg.pipes_region, Pipeline.RDat.Seg.pipes_nil]; decide)
    (O₀ := 0) (hL := fun _ _ => rfl) (G := Gh2) (u₀ := (u0 (F := F), u0 (F := F)))
    (hu₀ := by
      iintro Hu
      ihave ⟨H1, H2⟩ := (ownU_pair _ _) $$ Hu
      imod (ghost2_of_own (F := F)) $$ H2 with HG
      imodintro
      iframe)
    (T₀ := fun c => iprop(StableHlo.held (c : Thread nD τ) (Pipeline.ucRefs τ sig) (W0 m c) ∗ Rr c))
    (hch := ⟨fun _ => .rfl, fun c => ub c _ _, post0 m dat0 rd1 rd2, fun c => ub c _ _, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitl [Hp]; · iexists _; iexact Hp
      isplitl [HO]; · iexists ∅; iexact HO
      iexact HG)
    (hfin := fun c s' => by
      unfold Tn
      iintro ⟨⟨%V4, %V5, %hP, Hh, -⟩, HSI⟩
      unfold StableHlo.held
      ihave Hr := (pointsTo_read_all (Pipeline.ucRefs τ sig) (fun b => (((c : Thread nD τ)).1, b)) (StableHlo.after hostOps3 (liftV c (W0 m c) V5)) s') $$ [Hh HSI]
      · iframe
      icases Hr with ⟨%h, HSI⟩
      imodintro
      iframe
      ipureintro; exact ⟨V4, V5, hP.1, hP.2, h⟩)
    (hQ := fun s h c => h c)

end Run

end Cert.KernelIdeal.Launch

end
-- ==== Proof.R0.lean ====
import proofs.«121951_g22909355557424_cont_8to1_1761_16_alg».proof.Proof.Gen.KernelIdeal.Launch
import proofs.«121951_g22909355557424_cont_8to1_1761_16_alg».proof.Proof.Gen.KernelIdeal.Skeleton
import proofs.«121951_g22909355557424_cont_8to1_1761_16_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] {U : Type} [URA U]

local notation "𝕄" => MT nD τ sig Unit (Elt F) ℕ U ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0

def outS1 (x : Vec F S10000x128 .f32) (w1 : Vec F S128x128 .f32) : Vec F S10000x128 .bf16 :=
  View.canon [⟨rX, k0_pay1 (View.ld x rX) (View.ld w1 rW)⟩]

def outWv (w2 : Vec F S128x128 .f32) (wl : Vec F S128x1 .f32) : Vec F S128x1 .f32 :=
  View.canon [⟨rCol, k0_pay2 (View.ld w2 rW) (View.ld wl rCol)⟩]

def outC (b2 : Vec F S1x128 .f32) (wl : Vec F S128x1 .f32) (bl : Vec F S1x1 .f32) : Vec F S1x1 .f32 :=
  View.canon [⟨rOne, k0_pay3 (View.ld b2 rRow) (View.ld wl rCol) (View.ld bl rOne)⟩]

theorem hz : (![0, 0] : Fin 2 → Nat) = fun _ => 0 := funext fun a => by fin_cases a <;> rfl

/-- The whole rectangle of a shape holds every index of it. -/
theorem cover {n : Fin 2 → ℕ} {e : EltTy} (inb) (p : Vec F ⟨2, n⟩ e) (y : (⟨2, n⟩ : Shape).Idx) :
    ∃ pc ∈ ([⟨Rect.unit ![0, 0] _ inb, p⟩] : List (View.Piece (Elt F) ⟨2, n⟩ e)), y ∈ pc.1.set :=
  ⟨_, List.mem_singleton_self _, View.mem_set_unit_zero hz inb y⟩

def dat0 (c : Dev nD) : Dat τ (Elt F) Unit ℕ U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outS1 (iblk V c 0 t) (iblk V c 1 t)
    | ⟨7, _⟩ => outWv (iblk V c 2 t) (iblk V c 4 t)
    | ⟨8, _⟩ => outC (iblk V c 3 t) (iblk V c 4 t) (iblk V c 5 t)
  Φ _ := Pipeline.ΦA spec0 c
  q _ := fullShare
  owed _ := 0

theorem A_eq0 (c : Dev nD) (w : Fin cfg0.W) : (dat0 (U := U) V c).A w = V c (Pipeline.arrRef spec0 w) := by
  dsimp only [dat0]

/-- Cutting a filled block back to the filled part returns what filled it. -/
theorem before0 (c : Dev nD) (w : Fin cfg0.W) (t : Fin cfg0.N) (hf : (cfg0.win w).fetch t = true) (d) :
    (cfg0.win w).cut (cfg0.grid.coords t) ((dat0 (U := U) V c).before w t d) = iblk V c w t := by
  rw [(dat0 (U := U) V c).before_fetched w t hf d]
  exact (cfg0.win w).cut_fill _ _ _

theorem body_obligation0 (c : Dev nD) : BodyObligation (dat0 (F := F) (U := U) V c) (defs₀ (F := F)) Variants.none () Set.univ := fun t => by
  rw [bigSep_W0, bigSep_W0]
  show _ ⊢ wp _ _ _ (bodyAt0 t) _
  unfold bodyAt0
  dsimp only [dat0]
  simp only [cc0_body_eq_skeleton]; unfold cc0_body_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, -, H6⟩, ⟨%d7, %f7, -, H7⟩, ⟨%d8, %f8, -, H8⟩⟩
  have e0 := hf0.trans (before0 V c 0 t (fetch0_0 t) d0)
  have e1 := hf1.trans (before0 V c 1 t (fetch0_1 t) d1)
  have e2 := hf2.trans (before0 V c 2 t (fetch0_2 t) d2)
  have e3 := hf3.trans (before0 V c 3 t (fetch0_3 t) d3)
  have e4 := hf4.trans (before0 V c 4 t (fetch0_4 t) d4)
  have e5 := hf5.trans (before0 V c 5 t (fetch0_5 t) d5)
  sl_exec
  sl_step
  isplitl [HΦ]; · iexact HΦ
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists _; isplitr
    swap; · iexact H6
    ipureintro
    rw [← e0, ← e1]
    exact View.read_writes_eq_canon _ _ _ (cover _ _)
  isplitl [H7]
  · iexists _; isplitr
    swap; · iexact H7
    ipureintro
    rw [← e2, ← e4]
    exact View.read_writes_eq_canon _ _ _ (cover _ _)
  iexists _; isplitr
  swap; · iexact H8
  ipureintro
  rw [← e3, ← e4, ← e5]
  exact View.read_writes_eq_canon _ _ _ (cover _ _)

/-- At offset zero and unit stride on every axis, an index of the block is the same index of the array. -/
theorem emb0 (w : Fin cfg0.W) (t : Fin cfg0.N) (y : ((cfg0.win w).xblock (cfg0.grid.coords t)).Idx) (a : Fin (cfg0.win w).shape.rank) :
    (((cfg0.win w).rect t).emb y a : ℕ) = y a :=
  (cfg0.win w).rect_emb_val_of_index_zero t a (((cfg0.win w).whole_of_rank_zero rfl).2 _ a) y

theorem iblk_main_arg1 (c : Dev nD) (t : Fin cfg0.N) : iblk V c 0 t = V c main_arg1 :=
  funext fun y => congrArg (V c main_arg1) (funext fun a => Fin.ext (emb0 0 t y a))
theorem iblk_main_arg2 (c : Dev nD) (t : Fin cfg0.N) : iblk V c 1 t = V c main_arg2 :=
  funext fun y => congrArg (V c main_arg2) (funext fun a => Fin.ext (emb0 1 t y a))
theorem iblk_main_arg4 (c : Dev nD) (t : Fin cfg0.N) : iblk V c 2 t = V c main_arg4 :=
  funext fun y => congrArg (V c main_arg4) (funext fun a => Fin.ext (emb0 2 t y a))
theorem iblk_main_v0 (c : Dev nD) (t : Fin cfg0.N) : iblk V c 3 t = V c main_v0 :=
  funext fun y => congrArg (V c main_v0) (funext fun a => Fin.ext (emb0 3 t y a))
theorem iblk_main_arg6 (c : Dev nD) (t : Fin cfg0.N) : iblk V c 4 t = V c main_arg6 :=
  funext fun y => congrArg (V c main_arg6) (funext fun a => Fin.ext (emb0 4 t y a))
theorem iblk_main_v1 (c : Dev nD) (t : Fin cfg0.N) : iblk V c 5 t = V c main_v1 :=
  funext fun y => congrArg (V c main_v1) (funext fun a => Fin.ext (emb0 5 t y a))

/-- There is one point, so two distinct points are absurd. -/
theorem disj0 (w : Fin cfg0.W) (t t' : Fin cfg0.N) (_ : (cfg0.win w).flush t = true) (_ : (cfg0.win w).flush t' = true) (h : t ≠ t') :
    Disjoint ((cfg0.win w).blk t).view.set ((cfg0.win w).blk t').view.set :=
  absurd ((fin_N0 t).trans (fin_N0 t').symm) h

theorem arr0_6 (c : Dev nD) : (dat0 (U := U) V c).arrAt 6 cfg0.N = k0_pay1 (V c main_arg1) (V c main_arg2) := funext fun i => by
  have h := (dat0 (U := U) V c).arrAt_emb_eq_flushed 6 (disj0 6) t0_0 (flush0_6 _) i
  rw [show ((cfg0.win 6).blk t0_0).view.emb i = i from funext fun a => Fin.ext (emb0 6 t0_0 i a)] at h
  rw [h]
  show (dat0 (U := U) V c).after 6 t0_0 i = _
  dsimp only [dat0, outS1]
  rw [View.canon_unit_zero hz, View.ld_unit_zero hz, View.ld_unit_zero hz, iblk_main_arg1, iblk_main_arg2]

theorem arr0_7 (c : Dev nD) : (dat0 (U := U) V c).arrAt 7 cfg0.N = k0_pay2 (V c main_arg4) (V c main_arg6) := funext fun i => by
  have h := (dat0 (U := U) V c).arrAt_emb_eq_flushed 7 (disj0 7) t0_0 (flush0_7 _) i
  rw [show ((cfg0.win 7).blk t0_0).view.emb i = i from funext fun a => Fin.ext (emb0 7 t0_0 i a)] at h
  rw [h]
  show (dat0 (U := U) V c).after 7 t0_0 i = _
  dsimp only [dat0, outWv]
  rw [View.canon_unit_zero hz, View.ld_unit_zero hz, View.ld_unit_zero hz, iblk_main_arg4, iblk_main_arg6]

theorem arr0_8 (c : Dev nD) : (dat0 (U := U) V c).arrAt 8 cfg0.N = k0_pay3 (V c main_v0) (V c main_arg6) (V c main_v1) := funext fun i => by
  have h := (dat0 (U := U) V c).arrAt_emb_eq_flushed 8 (disj0 8) t0_0 (flush0_8 _) i
  rw [show ((cfg0.win 8).blk t0_0).view.emb i = i from funext fun a => Fin.ext (emb0 8 t0_0 i a)] at h
  rw [h]
  show (dat0 (U := U) V c).after 8 t0_0 i = _
  dsimp only [dat0, outC]
  rw [View.canon_unit_zero hz, View.ld_unit_zero hz, View.ld_unit_zero hz, View.ld_unit_zero hz, iblk_main_v0, iblk_main_arg6, iblk_main_v1]

end Cert.KernelIdeal.R0

end
-- ==== Proof.Spec.lean ====
import Mathlib.Algebra.BigOperators.Ring.Finset
import Mathlib.Algebra.Order.BigOperators.Group.Finset
import Mathlib.Data.EReal.Basic
import Mathlib.Tactic.Ring

namespace Cert.Spec

open Finset

-- The coercion of reals into the extended reals commutes with finite sums and with the maximum.
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_max (a b : ℝ) : ((max a b : ℝ) : EReal) = max (a : EReal) (b : EReal) :=
  EReal.coe_strictMono.monotone.map_max

-- A sum of products of coercions is the coercion of the real sum of products.
theorem sum_mul_coe {ι : Type*} [Fintype ι] (a b : ι → EReal) (f g : ι → ℝ) (ha : ∀ i, a i = (f i : EReal))
    (hb : ∀ i, b i = (g i : EReal)) : ∑ i, a i * b i = ((∑ i, f i * g i : ℝ) : EReal) := by
  rw [coe_sum]
  exact sum_congr rfl fun i _ => by rw [ha, hb, EReal.coe_mul]

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

def s1 (k : Fin 10000) (l : Fin 128) : ℝ := ∑ f : Fin 128, x k f * W1 f l

def h (r : Fin 10000) (l : Fin 128) : ℝ := b1 l + ∑ k : Fin 10000, adj r k * s1 x W1 k l

def wv (l : Fin 128) : ℝ := ∑ j : Fin 128, W2 l j * Wlin j

def c0 : ℝ := (∑ j : Fin 128, b2 j * Wlin j) + blin

def v (k : Fin 10000) : ℝ := ∑ l : Fin 128, max (h adj x W1 b1 k l) 0 * wv W2 Wlin l

def outK (r : Fin 10000) : ℝ := (∑ k : Fin 10000, adj r k * v adj x W1 b1 W2 Wlin k) + c0 b2 Wlin blin

def outRef (r : Fin 10000) : ℝ :=
  (∑ j : Fin 128, ((∑ k : Fin 10000, adj r k * (∑ l : Fin 128, max (h adj x W1 b1 k l) 0 * W2 l j)) + b2 j) * Wlin j) + blin

-- A head distributes over a weighted sum of rows: distributivity and two exchanges of finite sums.
theorem head_commutes {ι κ μ : Type} [Fintype ι] [Fintype κ] [Fintype μ]
    (a : ι → ℝ) (g : ι → κ → ℝ) (M : κ → μ → ℝ) (b w : μ → ℝ) (β : ℝ) :
    (∑ k, a k * (∑ l, g k l * (∑ j, M l j * w j))) + ((∑ j, b j * w j) + β)
      = (∑ j, ((∑ k, a k * (∑ l, g k l * M l j)) + b j) * w j) + β := by
  simp only [add_mul, sum_add_distrib, sum_mul, mul_sum, ← add_assoc]
  refine congrArg (· + _ + β) ((sum_congr rfl fun k _ => ?_).trans sum_comm)
  exact sum_comm.trans (sum_congr rfl fun j _ => sum_congr rfl fun l _ => by ring)

theorem outK_eq_outRef (r : Fin 10000) :
    outK adj x W1 b1 W2 b2 Wlin blin r = outRef adj x W1 b1 W2 b2 Wlin blin r :=
  head_commutes (fun k => adj r k) (fun k l => max (h adj x W1 b1 k l) 0) W2 b2 Wlin blin

end Cert.Spec
-- ==== Proof.Shared.lean ====
import proofs.«121951_g22909355557424_cont_8to1_1761_16_alg».proof.KernelIdeal
import proofs.«121951_g22909355557424_cont_8to1_1761_16_alg».proof.Proof.Spec
import Idealize.ShloMosaic.PureOps.Ideal
import Idealize.ShloMosaic.Lib.ValueIdx

noncomputable section

namespace Cert.KernelIdeal.Shared

open Cert.KernelIdeal Idealize.ShloMosaic

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

def vwAt (n : ℕ) : Vec Ideal S10240x128 .bf16 := fun j =>
  if h : (j 0).val < 10000 then
    (if (j 0).val < 512 * n ∧ (j 1).val = 0 then ((Spec.v adj x W1 b1 W2 Wlin ⟨(j 0).val, h⟩ : ℝ) : EReal) else 0)
  else 0

def partRow (n : ℕ) (r : Fin 10000) : ℝ :=
  (∑ k : Fin 10000, if k.val < 512 * n then adj r k * Spec.v adj x W1 b1 W2 Wlin k else 0) + Spec.c0 b2 Wlin blin

end Cert.KernelIdeal.Shared

end
-- ==== Proof.R1DatDefs.lean ====
import proofs.«121951_g22909355557424_cont_8to1_1761_16_alg».proof.Proof.Gen.KernelIdeal.Launch
import proofs.«121951_g22909355557424_cont_8to1_1761_16_alg».proof.Proof.Gen.KernelIdeal.Skeleton
import proofs.«121951_g22909355557424_cont_8to1_1761_16_alg».proof.Proof.Gen.KernelIdeal.Points
import proofs.«121951_g22909355557424_cont_8to1_1761_16_alg».proof.Proof.Spec
import proofs.«121951_g22909355557424_cont_8to1_1761_16_alg».proof.Proof.Shared
import Idealize.ShloMosaic.Lib.ValueIdx
import Idealize.ShloMosaic.PureOps.Ideal
import Idealize.ShloMosaic.Lib.Pipeline.FrameBody
import Idealize.ShloMosaic.Lib.Pipeline.Kit
import Idealize.ShloMosaic.Lib.Tactic

set_option maxRecDepth 16384

noncomputable section

namespace Cert.KernelIdeal.R1Dat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Idealize.ShloMosaic.ValueIdx
open scoped BigOperators

variable {U : Type} [URA U]

local notation "𝕄" => MT nD τ sig Unit (Elt Ideal) ℕ U ℕ

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

open Cert.KernelIdeal.Shared (vwAt partRow)

structure Good1 (c : Dev nD) (V : (b : Ref sig .tc) → Buf (Elt Ideal) ((c : Thread nD τ).loc b)) : Prop where
  adj : ∀ (i j : Fin 10000), (V main_arg0 : Vec Ideal S10000x10000 .f32) (ix2 i j) = ((adj i j : ℝ) : EReal)
  s1 : ∀ (k : Fin 10000) (l : Fin 128), (V main_v2_0 : Vec Ideal S10000x128 .bf16) (ix2 k l) = ((Spec.s1 x W1 k l : ℝ) : EReal)
  b1 : ∀ l : Fin 128, (V main_v3 : Vec Ideal S1x128 .f32) (ix2 0 l) = ((b1 l : ℝ) : EReal)
  wv : ∀ l : Fin 128, (V main_v2_1 : Vec Ideal S128x1 .f32) (ix2 l 0) = ((Spec.wv W2 Wlin l : ℝ) : EReal)
  c0 : (V main_v2_2 : Vec Ideal S1x1 .f32) (ix2 0 0) = ((Spec.c0 b2 Wlin blin : ℝ) : EReal)

variable (V : (c : Dev nD) → (b : Ref sig .tc) → Buf (Elt Ideal) ((c : Thread nD τ).loc b))

def after1 : (w : Fin cfg1.W) → Fin cfg1.N → (Y X : (cfg1.win w).block.Idx → Elt Ideal (cfg1.win w).elt) → Prop
  | 0, _, Y, X => X = Y
  | 1, _, Y, X => X = Y
  | 2, _, Y, X => X = Y
  | 3, _, Y, X => X = Y
  | 4, _, Y, X => X = Y
  | 5, t, Y, X => (t.val = 0 ∨ Y = vwAt adj x W1 b1 W2 Wlin t.val) → X = vwAt adj x W1 b1 W2 Wlin (t.val + 1)
  | 6, t, _, X => ∀ (r : Fin 512) (hr : 512 * t.val + r.val < 10000),
      (X : Vec Ideal S512x1 .f32) (ix2 r 0) = ((partRow adj x W1 b1 W2 b2 Wlin blin t.val ⟨512 * t.val + r.val, hr⟩ : ℝ) : EReal)
  | ⟨_ + 7, h⟩, _, _, _ => absurd h (Nat.not_lt.2 (Nat.le_add_left _ _))

def rd1 (c : Dev nD) : Pipeline.RDat τ (Elt Ideal) Unit ℕ U ℕ cfg1 c where
  A w := V c (Pipeline.arrRef spec1 w)
  after := after1 adj x W1 b1 W2 b2 Wlin blin
  Φ _ := Pipeline.ΦA spec1 c
  q _ := fullShare
  owed _ := 0

end Cert.KernelIdeal.R1Dat

end
-- ==== Proof.R1DatFinds.lean ====
import proofs.«121951_g22909355557424_cont_8to1_1761_16_alg».proof.Proof.R1DatDefs
import Idealize.ShloMosaic.Lib.Pipeline.FrameBody
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.R1Dat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Idealize.ShloMosaic.ValueIdx
open Cert.KernelIdeal.Shared (vwAt partRow)
open scoped BigOperators

variable {U : Type} [URA U]

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

variable (V : (c : Dev nD) → (b : Ref sig .tc) → Buf (Elt Ideal) ((c : Thread nD τ).loc b))

theorem coords1 : ∀ t : Fin cfg1.N, (grid1.coords t 0).val = t.val := by decide +kernel

theorem index0 : ∀ t : Fin cfg1.N, win1_0.index t = ![t.val, 0] := by decide +kernel
theorem xsize0_0 : ∀ t : Fin cfg1.N, win1_0.xsize (grid1.coords t) 0 = min 512 (10000 - 512 * t.val) := by decide +kernel
theorem xsize0_1 : ∀ t : Fin cfg1.N, win1_0.xsize (grid1.coords t) 1 = 10000 := by decide +kernel

/-- Every window but the adjacency block and the partial result sits at block index zero on every axis. -/
theorem index_zero : ∀ w : Fin cfg1.W, w ≠ 0 → w ≠ 6 → ∀ (t : Fin cfg1.N) a, (cfg1.win w).index t a = 0 := by decide +kernel

theorem fetch1_5 : ∀ t : Fin cfg1.N, (cfg1.win 5).fetch t = false :=
  (by decide +kernel : ∀ t : Fin grid1.N, win1_5.fetch t = false)

theorem lt20 (t : Fin cfg1.N) : t.val < 20 := N_1 ▸ t.isLt

abbrev RD (c : Dev nD) : Pipeline.RDat τ (Elt Ideal) Unit ℕ U ℕ cfg1 c := rd1 (U := U) adj x W1 b1 W2 b2 Wlin blin V c

theorem fetched0 (c : Dev nD) (t : Fin cfg1.N) (d) (r : Fin 512) (hr : 512 * t.val + r.val < 10000) (k : Fin 10000) :
    ((RD (U := U) adj x W1 b1 W2 b2 Wlin blin V c).fetched 0 t d : Vec Ideal S512x10000 .f32) (ix2 r k)
      = (V c main_arg0 : Vec Ideal S10000x10000 .f32) (ix2 ⟨512 * t.val + r.val, hr⟩ k) := by
  have hm : win1_0.moved (grid1.coords t) (ix2 r k) = true := by
    rw [Window.moved_iff]
    intro a
    match a with
    | ⟨0, _⟩ => show r.val < win1_0.xsize (grid1.coords t) 0; rw [xsize0_0 t]; omega
    | ⟨1, _⟩ => show k.val < win1_0.xsize (grid1.coords t) 1; rw [xsize0_1 t]; exact k.isLt
  unfold RDat.fetched Window.fill
  rw [dif_pos hm]
  show (V c main_arg0 : Vec Ideal S10000x10000 .f32) ((win1_0.rect t).emb (fun a => ⟨((ix2 r k : S512x10000.Idx) a).val, _⟩)) = _
  congr 1; funext a; apply Fin.ext
  show win1_0.index t a * win1_0.size a + 1 * ((ix2 r k : S512x10000.Idx) a).val = _
  rw [index0 t]
  match a with
  | ⟨0, _⟩ => show t.val * 512 + 1 * r.val = 512 * t.val + r.val; omega
  | ⟨1, _⟩ => show 0 * _ + 1 * k.val = k.val; omega

/-- The four small inputs' blocks are the whole arrays at every point: their block index is zero. -/
theorem finds_small (c : Dev nD) (t : Fin cfg1.N) (Y : (w : Fin cfg1.W) → (cfg1.win w).block.Idx → Elt Ideal (cfg1.win w).elt)
    (hY : ∀ w, (RD (U := U) adj x W1 b1 W2 b2 Wlin blin V c).Finds w t (Y w)) :
    Y 1 = V c main_v2_0 ∧ Y 2 = V c main_v3 ∧ Y 3 = V c main_v2_1 ∧ Y 4 = V c main_v2_2 := by
  refine ⟨?_, ?_, ?_, ?_⟩ <;>
  · refine (RDat.finds_in_eq_fetched _ _ (by rfl) (by intros; rfl) (by exact fun _ _ _ h => h) t _ (hY _)).elim fun d h => h.trans ?_
    funext j
    refine congrArg (V c _) (funext fun a => Fin.ext ?_)
    show _ * _ + 1 * (j a).val = _
    rw [index_zero _ (by decide) (by decide)]; omega

theorem finds0 (c : Dev nD) (t : Fin cfg1.N) (Y) (h : (RD (U := U) adj x W1 b1 W2 b2 Wlin blin V c).Finds 0 t Y)
    (r : Fin 512) (hr : 512 * t.val + r.val < 10000) (k : Fin 10000) :
    (Y : Vec Ideal S512x10000 .f32) (ix2 r k) = (V c main_arg0 : Vec Ideal S10000x10000 .f32) (ix2 ⟨512 * t.val + r.val, hr⟩ k) := by
  obtain ⟨d, rfl⟩ := ((RD (U := U) adj x W1 b1 W2 b2 Wlin blin V c).finds_of_fetch (fetch1_0 t) Y).mp h
  exact fetched0 adj x W1 b1 W2 b2 Wlin blin V c t d r hr k

theorem finds5 (c : Dev nD) : ∀ (t : Fin cfg1.N) (Y), (RD (U := U) adj x W1 b1 W2 b2 Wlin blin V c).Finds 5 t Y →
    t.val = 0 ∨ Y = vwAt adj x W1 b1 W2 Wlin t.val := by
  intro t
  induction hn : t.val using Nat.strong_induction_on generalizing t with
  | _ n ih =>
    subst hn; intro Y hY
    by_cases ht : t.val = 0
    · exact .inl ht
    · refine .inr ?_
      have h20 := lt20 t
      rcases ((RD (U := U) adj x W1 b1 W2 b2 Wlin blin V c).finds_of_pos (fetch1_5 t) ht Y).mp hY with hfl | ⟨Y', hY', hR⟩
      · have := (flush1_5 _).mp hfl
        simp only at this; omega
      · have hprev := ih (t.val - 1) (by omega) ⟨t.val - 1, Nat.lt_of_le_of_lt (Nat.sub_le _ _) t.isLt⟩ rfl Y' hY'
        have hX : Y = vwAt adj x W1 b1 W2 Wlin (t.val - 1 + 1) := hR hprev
        rw [show t.val - 1 + 1 = t.val by omega] at hX
        exact hX

end Cert.KernelIdeal.R1Dat

end
-- ==== Proof.R1RunA.lean ====
import proofs.«121951_g22909355557424_cont_8to1_1761_16_alg».proof.Proof.Gen.KernelIdeal.Skeleton
import Idealize.ShloMosaic.Lib.Pipeline.Value

noncomputable section

namespace Cert.KernelIdeal.R1Run

open Cert.KernelIdeal Cert.KernelIdeal.Gen Idealize.ShloMosaic

abbrev cond1 (i : grid1.Coords) : Prop :=
  (Scalar.cmpi .ne (Scalar.extui (Scalar.cmpi .eq (BitVec.ofNat 32 (i 0).val) 0#32)) 0#32) = 1#1

theorem cond1_iff : ∀ i : grid1.Coords, cond1 i ↔ (i 0).val = 0 := by decide +kernel

abbrev rA0 : Rect S512x10000 := Rect.unit ![0, 0] S512x2560.size inb_S512x10000_S512x2560_0_0
abbrev rA1 : Rect S512x10000 := Rect.unit ![0, 2560] S512x2560.size inb_S512x10000_S512x2560_0_2560
abbrev rA2 : Rect S512x10000 := Rect.unit ![0, 5120] S512x2560.size inb_S512x10000_S512x2560_0_5120
abbrev rA3 : Rect S512x10000 := Rect.unit ![0, 7680] S512x2320.size inb_S512x10000_S512x2320_0_7680
abbrev rS0 : Rect S10000x128 := Rect.unit ![0, 0] S2560x128.size inb_S10000x128_S2560x128_0_0
abbrev rS1 : Rect S10000x128 := Rect.unit ![2560, 0] S2560x128.size inb_S10000x128_S2560x128_2560_0
abbrev rS2 : Rect S10000x128 := Rect.unit ![5120, 0] S2560x128.size inb_S10000x128_S2560x128_5120_0
abbrev rS3 : Rect S10000x128 := Rect.unit ![7680, 0] S2320x128.size inb_S10000x128_S2320x128_7680_0
abbrev rV0 : Rect S10240x128 := Rect.unit ![0, 0] S2560x128.size inb_S10240x128_S2560x128_0_0
abbrev rV1 : Rect S10240x128 := Rect.unit ![2560, 0] S2560x128.size inb_S10240x128_S2560x128_2560_0
abbrev rV2 : Rect S10240x128 := Rect.unit ![5120, 0] S2560x128.size inb_S10240x128_S2560x128_5120_0
abbrev rV3 : Rect S10240x128 := Rect.unit ![7680, 0] S2320x128.size inb_S10240x128_S2320x128_7680_0
abbrev rVW : Rect S10240x128 := Rect.unit ![0, 0] S10240x128.size inb_S10240x128_S10240x128_0_0
abbrev rVS (i : grid1.Coords) : Rect S10240x128 := Rect.unit (k1_off1 i) S512x128.size (k1_off1_inb i)

variable {F : FTy → Type} [FloatOps F] (i : grid1.Coords)
  (X1 : Vec F S512x10000 .f32) (X2 : Vec F S10000x128 .bf16) (X3 : Vec F S1x128 .f32) (X4 : Vec F S128x1 .f32) (X5 : Vec F S1x1 .f32)
  (V : Vec F S10240x128 .bf16)

def hAcc : FVec F S512x128 .f32 :=
  k1_pay17 (View.ld X1 rA3)
    (k1_pay14 (View.ld X1 rA2)
      (k1_pay11 (View.ld X1 rA1)
        (k1_pay7 (View.ld X1 rA0) (k1_pay4 X3) (View.ld X2 rS0))
        (View.ld X2 rS1))
      (View.ld X2 rS2))
    (View.ld X2 rS3)

def oAcc : FVec F S512x128 .f32 :=
  k1_pay18 (View.ld X1 rA3)
    (k1_pay15 (k1_pay13 (View.ld X1 rA2))
      (k1_pay12 (View.ld X1 rA1)
        (k1_pay9 (k1_pay8 (View.ld X1 rA0) (k1_pay5 (F := F)) (View.ld V rV0)))
        (View.ld V rV1))
      (View.ld V rV2))
    (View.ld V rV3)

def vwSlice : FVec F S512x128 .bf16 :=
  k1_pay1 (BitVec.ofNat 32 (i 0).val) (k1_pay19 (hAcc X1 X2 X3)) X4

def partOf : FVec F S512x1 .f32 :=
  k1_pay2 (oAcc X1 V) X5

def vwFirst : Vec F S10240x128 .bf16 :=
  View.canon [(⟨rVS i, vwSlice i X1 X2 X3 X4⟩ : View.Piece (Elt F) S10240x128 .bf16), ⟨rVW, k1_pay3 (F := F)⟩]

def vwLater (X6 : Vec F S10240x128 .bf16) : Vec F S10240x128 .bf16 :=
  View.canon [(⟨rVS i, vwSlice i X1 X2 X3 X4⟩ : View.Piece (Elt F) S10240x128 .bf16), ⟨rVW, X6⟩]

end Cert.KernelIdeal.R1Run

end
-- ==== Proof.R1Run.lean ====
import proofs.«121951_g22909355557424_cont_8to1_1761_16_alg».proof.Proof.R1RunA
import Idealize.ShloMosaic.Lib.Pipeline.TableIdle

noncomputable section

namespace Cert.KernelIdeal.R1Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

theorem hz2 : (![0, 0] : Fin 2 → ℕ) = fun _ => 0 := by funext a; fin_cases a <;> rfl

section Pieces

variable {sig' : RefSig} {κ : Kind} {sp : Space} {S : Shape} {e : EltTy} {Val : EltTy → Type} [∀ e, Nonempty (Val e)]

/-- After one write over the whole shape, reading through a rectangle gives the payload through that rectangle. -/
theorem readCov_whole_piece (v : View sig' κ sp S e) {off : Fin S.rank → ℕ} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon', View.canon_unit_zero h]

/-- If the last write covers the whole shape, what is read back is its payload. -/
theorem read_writes_head_whole (v : View sig' κ sp S e) (f : v.ty.Contents Val) {off : Fin S.rank → ℕ} (h : off = fun _ => 0)
    (inb : ∀ a, off a + S.size a ≤ S.size a) (w : S.Idx → Val e) (T : List (View.Piece Val S e)) :
    v.read Val (v.writes Val f ((⟨Rect.unit off S.size inb, w⟩ : View.Piece Val S e) :: T)) = w := by
  rw [View.read_writes_eq_canon _ _ _ (fun y => ⟨_, List.mem_cons_self, View.mem_set_unit_zero h inb y⟩),
    View.canon_cons_unit_zero h]

/-- One write over contents `f` reads back as that piece laid over what `f` read. -/
theorem read_writes_one_over (v : View sig' κ sp S e) (f : v.ty.Contents Val) (p : View.Piece Val S e) {off : Fin S.rank → ℕ}
    (h : off = fun _ => 0) (inb : ∀ a, off a + S.size a ≤ S.size a) :
    v.read Val (v.writes Val f [p]) = View.canon [p, (⟨Rect.unit off S.size inb, v.read Val f⟩ : View.Piece Val S e)] := by
  funext y
  by_cases hy : y ∈ p.1.set
  · obtain ⟨r, w⟩ := p
    obtain ⟨x, rfl⟩ : ∃ x, r.emb x = y := r.exists_idx_of_mem hy
    rw [View.read_writes_cons_emb, View.canon_cons_emb]
  · have hy' : y ∉ Finset.univ.map p.1.emb := by rwa [Rect.map_emb_univ]
    rw [View.writes_cons, View.read_slice_write_of_not_mem p.1 _ _ _ hy', View.canon_cons_of_not_mem p _ hy,
      View.writes_nil, View.canon_unit_zero h]

end Pieces

variable (c : Dev nD) (i : grid1.Coords)
    (arg1 : Memref sig .tc .vmem S512x10000 .f32) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S10240x128 .bf16) (harg6 : arg6.IsWhole)
    (arg7 : Memref sig .tc .vmem S512x1 .f32) (harg7 : arg7.IsWhole) (arg8 : Memref sig .tc .vmem S512x128 .f32) (harg8 : arg8.IsWhole)
    (arg9 : Memref sig .tc .vmem S512x128 .f32) (harg9 : arg9.IsWhole)

/-- At the first grid point the zero write comes first, so every result is the general one taken at the zero contents. -/
theorem run_first (hc : (i 0).val = 0) (X1 : Vec F S512x10000 .f32) (X2 : Vec F S10000x128 .bf16) (X3 : Vec F S1x128 .f32) (X4 : Vec F S128x1 .f32) (X5 : Vec F S1x1 .f32) (E : Set ℕ) (K : PUnit → sProp 𝕄) :
    iprop(owns c.tc arg1 fullShare X1 ∗ owns c.tc arg2 fullShare X2 ∗ owns c.tc arg3 fullShare X3
            ∗ owns c.tc arg4 fullShare X4 ∗ owns c.tc arg5 fullShare X5
        ∗ (∃ d, owns c.tc arg6 fullShare d) ∗ (∃ d, owns c.tc arg7 fullShare d)
        ∗ (∃ d, owns c.tc arg8 fullShare d) ∗ (∃ d, owns c.tc arg9 fullShare d)
        ∗ (iprop(owns c.tc arg1 fullShare X1 ∗ owns c.tc arg2 fullShare X2 ∗ owns c.tc arg3 fullShare X3
            ∗ owns c.tc arg4 fullShare X4 ∗ owns c.tc arg5 fullShare X5
            ∗ owns c.tc arg6 fullShare (vwFirst i X1 X2 X3 X4)
            ∗ owns c.tc arg7 fullShare (partOf X1 X5 (k1_pay3 (F := F)))
            ∗ owns c.tc arg8 fullShare (hAcc X1 X2 X3)
            ∗ owns c.tc arg9 fullShare (oAcc X1 (k1_pay3 (F := F)))) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  rw [owns_eq_rep c.tc arg1, owns_eq_rep c.tc arg2, owns_eq_rep c.tc arg3, owns_eq_rep c.tc arg4, owns_eq_rep c.tc arg5]
  unfold owns
  iintro ⟨H1, H2, H3, H4, H5, ⟨%d6, %f6, -, H6⟩, ⟨%d7, %f7, -, H7⟩, ⟨%d8, %f8, -, H8⟩, ⟨%d9, %f9, -, H9⟩, Hk⟩
  sl_exec (disch := first | exact (cond1_iff i).mpr hc)
  sl_step
  iapply Hk
  iframe H1 H2 H3 H4 H5
  isplitl [H6]; iexists _; isplitr; swap; iexact H6; ipureintro
  refine (View.read_writes_eq_canon _ _ _ (fun y => ⟨_, List.mem_cons_of_mem _ List.mem_cons_self, View.mem_set_unit_zero hz2 inb_S10240x128_S10240x128_0_0 y⟩)).trans ?_; rotate_left
  isplitl [H7]; iexists _; isplitr; swap; iexact H7; ipureintro
  refine (read_writes_head_whole _ _ hz2 _ _ _).trans ?_; rotate_left
  isplitl [H8]; iexists _; isplitr; swap; iexact H8; ipureintro
  refine (read_writes_head_whole _ _ hz2 _ _ _).trans ?_; rotate_left
  iexists _; isplitr; swap; iexact H9; ipureintro
  refine (read_writes_head_whole _ _ hz2 _ _ _).trans ?_; rotate_left
  all_goals
    sl_unfold_run_names
    simp only [View.readCov_cons_toLoadRect, readCov_whole_piece (S := S10240x128) arg6.view hz2, View.readAt_eq_ld,
    View.read_rep, View.ld_unit_zero (S := S1x128) hz2, View.ld_unit_zero (S := S128x1) hz2, View.ld_unit_zero (S := S1x1) hz2]
    rfl

/-- At a later grid point the results are functions of the contents `X6` found, 512 of its rows replaced. -/
theorem run_later (hc : (i 0).val ≠ 0) (X1 : Vec F S512x10000 .f32) (X2 : Vec F S10000x128 .bf16) (X3 : Vec F S1x128 .f32) (X4 : Vec F S128x1 .f32) (X5 : Vec F S1x1 .f32) (X6 : Vec F S10240x128 .bf16) (E : Set ℕ) (K : PUnit → sProp 𝕄) :
    iprop(owns c.tc arg1 fullShare X1 ∗ owns c.tc arg2 fullShare X2 ∗ owns c.tc arg3 fullShare X3
            ∗ owns c.tc arg4 fullShare X4 ∗ owns c.tc arg5 fullShare X5
        ∗ owns c.tc arg6 fullShare X6 ∗ (∃ d, owns c.tc arg7 fullShare d)
        ∗ (∃ d, owns c.tc arg8 fullShare d) ∗ (∃ d, owns c.tc arg9 fullShare d)
        ∗ (iprop(owns c.tc arg1 fullShare X1 ∗ owns c.tc arg2 fullShare X2 ∗ owns c.tc arg3 fullShare X3
            ∗ owns c.tc arg4 fullShare X4 ∗ owns c.tc arg5 fullShare X5
            ∗ owns c.tc arg6 fullShare (vwLater i X1 X2 X3 X4 X6)
            ∗ owns c.tc arg7 fullShare (partOf X1 X5 X6)
            ∗ owns c.tc arg8 fullShare (hAcc X1 X2 X3)
            ∗ owns c.tc arg9 fullShare (oAcc X1 X6)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  rw [owns_eq_rep c.tc arg1, owns_eq_rep c.tc arg2, owns_eq_rep c.tc arg3, owns_eq_rep c.tc arg4, owns_eq_rep c.tc arg5, owns_eq_rep c.tc arg6 _ X6]
  unfold owns
  iintro ⟨H1, H2, H3, H4, H5, H6, ⟨%d7, %f7, -, H7⟩, ⟨%d8, %f8, -, H8⟩, ⟨%d9, %f9, -, H9⟩, Hk⟩
  sl_exec (disch := first | exact (cond1_iff i).not.mpr hc)
  sl_step
  iapply Hk
  iframe H1 H2 H3 H4 H5
  isplitl [H6]; iexists _; isplitr; swap; iexact H6; ipureintro
  refine (read_writes_one_over _ _ _ hz2 inb_S10240x128_S10240x128_0_0).trans ?_; rotate_left
  isplitl [H7]; iexists _; isplitr; swap; iexact H7; ipureintro
  refine (read_writes_head_whole _ _ hz2 _ _ _).trans ?_; rotate_left
  isplitl [H8]; iexists _; isplitr; swap; iexact H8; ipureintro
  refine (read_writes_head_whole _ _ hz2 _ _ _).trans ?_; rotate_left
  iexists _; isplitr; swap; iexact H9; ipureintro
  refine (read_writes_head_whole _ _ hz2 _ _ _).trans ?_; rotate_left
  all_goals
    sl_unfold_run_names
    simp only [View.readCov_cons_toLoadRect, View.readAt_eq_ld,
    View.read_rep, View.ld_unit_zero (S := S1x128) hz2, View.ld_unit_zero (S := S128x1) hz2, View.ld_unit_zero (S := S1x1) hz2]
    rfl

end Cert.KernelIdeal.R1Run

end
-- ==== Proof.R1Pay.lean ====
import proofs.«121951_g22909355557424_cont_8to1_1761_16_alg».proof.Proof.Gen.KernelIdeal.Skeleton
import Idealize.ShloMosaic.Lib.ValueLayout
import Idealize.ShloMosaic.Lib.StackMember
import Idealize.ShloMosaic.Lib.IdealHost

noncomputable section

namespace Cert.KernelIdeal.R1Value

open Cert.KernelIdeal Cert.KernelIdeal.Gen
open Idealize.ShloMosaic Idealize.ShloMosaic.ValueIdx Idealize.SL.Sem

/-- A plain [M, K] by [K, N] product from zero, read at (p, q), is the sum over the contracted coordinate. -/
theorem prod_apply {M K N : ℕ} {φ₁ φ₂ : FTy} (L : FVec Ideal ⟨2, ![M, K]⟩ φ₁) (R : FVec Ideal ⟨2, ![K, N]⟩ φ₂) (p : Fin M) (q : Fin N) :
    matmul (DotDims.plain M K N) none L R (constant ⟨2, ![M, N]⟩ .f32 0x00000000#32) (ix2 p q) = ∑ k : Fin K, L (ix2 p k) * R (ix2 k q) :=
  (Ideal.matmul_constant_zero_apply _ none L R _).trans
    ((Ideal.dotGeneral_apply _ none .single L R _).symm.trans (StackMember.dotGeneral_plain_apply none L R p q))

/-- A sum of two arrays read at an index, each summand read by its own lemma. -/
theorem addf_congr {s : Shape} {a b : FVec Ideal s .f32} {i : s.Idx} {u v : EReal} (ha : a i = u) (hb : b i = v) : addf a b i = u + v :=
  congrArg₂ (· + ·) ha hb

theorem pay3_apply (p : Fin 10240) (q : Fin 128) : k1_pay3 (F := Ideal) (ix2 p q) = 0 := Ideal.ofBits_zero_bf16

theorem pay19_apply (H : Vec Ideal S512x128 .f32) (p : Fin 512) (q : Fin 128) : k1_pay19 H (ix2 p q) = max (H (ix2 p q)) 0 :=
  congrArg (max (H (ix2 p q))) Ideal.ofBits_zero_f32

theorem pay2_apply (O : Vec Ideal S512x128 .f32) (C : Vec Ideal S1x1 .f32) (p : Fin 512) :
    k1_pay2 O C (ix2 p (0 : Fin 1))
      = O (ix2 p (0 : Fin 128)) + O (ix2 p (1 : Fin 128)) + C (ix2 (0 : Fin 1) (0 : Fin 1)) := by
  unfold k1_pay2
  simp only [shapeCast_self]
  exact addf_congr (addf_congr (slice2_axis1_apply 0 O _ p 0 0 rfl) (slice2_axis1_apply 1 O _ p 0 1 rfl)) (broadcastTo_1b_ab_apply C _ p 0)

/-- The bit of the comparison `p < 10000 − 512·ib` on signed 32-bit integers. -/
def rowBit (ib : ℕ) (p : Fin 512) : BitVec 1 :=
  Scalar.cmpi .slt (BitVec.ofNat 32 p.val) (Scalar.subi 10000#32 (Scalar.muli (BitVec.ofNat 32 ib) 512#32))

/-- For the 20 row blocks the comparison holds exactly when `512·ib + p < 10000`. -/
theorem rowBit_iff : ∀ (ib : Fin 20) (p : Fin 512), rowBit ib.val p = 1#1 ↔ 512 * ib.val + p.val < 10000 := by
  decide +kernel

/-- Each row's product with the weight column where the row's bit is set, zero elsewhere. -/
def masked (ib : ℕ) (R : FVec Ideal S512x128 .f32) (W : FVec Ideal S128x1 .f32) : FVec Ideal S512x1 .f32 :=
  select (cmpi .slt (iota .tc S512x1 32 [0] iota_S512x1_d0_w32)
      (broadcast S512x1 (Scalar.subi 10000#32 (Scalar.muli (BitVec.ofNat 32 ib) 512#32))))
    (matmul dot_S512x128_S128x1_S512x1_1_0_0_1_n_n none R (shapeCast S128x1 W shapeCasts_S128x1_S128x1) (constant S512x1 .f32 0x00000000#32))
    (broadcast S512x1 (Scalar.ofBits (F := Ideal) .f32 0x00000000#32))

theorem masked_apply (ib : ℕ) (R : FVec Ideal S512x128 .f32) (W : FVec Ideal S128x1 .f32) (p : Fin 512) :
    masked ib R W (ix2 p (0 : Fin 1)) = Scalar.select (rowBit ib p) (∑ l : Fin 128, R (ix2 p l) * W (ix2 l (0 : Fin 1))) 0 := by
  unfold masked
  rw [select_apply, shapeCast_self]
  refine congr (congr (congrArg Scalar.select ?_) (prod_apply R W p 0)) Ideal.ofBits_zero_f32
  show IntOp.cmpi .slt (iota .tc S512x1 32 [0] iota_S512x1_d0_w32 (ix2 p (0 : Fin 1))) _ = _
  rw [iota_single_apply]
  rfl

/-- A column widened to 128 columns: itself in column 0, itself minus itself in column 1, zero in the others. -/
theorem widen_apply (m : FVec Ideal S512x1 .f32) (p : Fin 512) (q : Fin 128) :
    concatenate S512x128 1 [⟨S512x1, truncf .bf16 m bitsLt_bf16_f32⟩, ⟨S512x1, truncf .bf16 (subf m m) bitsLt_bf16_f32⟩,
        ⟨S512x126, broadcast S512x126 (Scalar.ofBits (F := Ideal) .bf16 0x0000#16)⟩] concatenates_S512x1_S512x1_S512x126_S512x128_d1 (ix2 p q)
      = if q.val = 0 then m (ix2 p 0) else if q.val = 1 then m (ix2 p 0) - m (ix2 p 0) else 0 := by
  obtain ⟨qv, hq⟩ := q
  match qv, hq with
  | 0, hq =>
    exact (concatenate_apply_piece (1 : Fin S512x128.rank) _ _ _ 0 (by show 0 < 3; omega) S512x1 _ rfl rfl 0 rfl (ix2 p 0)
      (fun b hb => by match b with | ⟨0, _⟩ => rfl | ⟨1, _⟩ => exact absurd (Fin.ext rfl) hb) rfl).trans (if_pos rfl).symm
  | 1, hq =>
    exact (concatenate_apply_piece (1 : Fin S512x128.rank) _ _ _ 1 (by show 1 < 3; omega) S512x1 _ rfl rfl 1 rfl (ix2 p 0)
      (fun b hb => by match b with | ⟨0, _⟩ => rfl | ⟨1, _⟩ => exact absurd (Fin.ext rfl) hb) rfl).trans
      ((if_neg Nat.one_ne_zero).trans (if_pos rfl)).symm
  | n + 2, hq =>
    exact (concatenate_apply_piece (1 : Fin S512x128.rank) _ _ _ 2 (by show 2 < 3; omega) S512x126 _ rfl rfl 2 rfl (ix2 p (⟨n, by omega⟩ : Fin 126))
      (fun b hb => by match b with | ⟨0, _⟩ => rfl | ⟨1, _⟩ => exact absurd (Fin.ext rfl) hb) (by show 2 + n = n + 2; omega)).trans
      (Ideal.ofBits_zero_bf16.trans ((if_neg (by show ¬n + 2 = 0; omega)).trans (if_neg (by show ¬n + 2 = 1; omega))).symm)

/-- The stored value: the masked column widened. -/
theorem pay1_apply (ib : ℕ) (R : FVec Ideal S512x128 .f32) (W : FVec Ideal S128x1 .f32) (p : Fin 512) (q : Fin 128) :
    k1_pay1 (BitVec.ofNat 32 ib) R W (ix2 p q)
      = if q.val = 0 then masked ib R W (ix2 p 0) else if q.val = 1 then masked ib R W (ix2 p 0) - masked ib R W (ix2 p 0) else 0 :=
  widen_apply (masked ib R W) p q

end Cert.KernelIdeal.R1Value
-- ==== Proof.R1Value.lean ====
import proofs.«121951_g22909355557424_cont_8to1_1761_16_alg».proof.Proof.R1Pay
import proofs.«121951_g22909355557424_cont_8to1_1761_16_alg».proof.Proof.R1RunA
import proofs.«121951_g22909355557424_cont_8to1_1761_16_alg».proof.Proof.Shared

noncomputable section

namespace Cert.KernelIdeal.R1Value

open Cert.KernelIdeal Cert.KernelIdeal.Gen
open Idealize.ShloMosaic Idealize.ShloMosaic.ValueIdx Idealize.SL.Sem

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

/-- `Fin 10000` splits as 2560 + 2560 + 2560 + 2320. -/
theorem sum_chunks {M : Type} [AddCommMonoid M] (f : Fin 10000 → M) :
    ∑ k, f k = (((∑ k : Fin 2560, f ⟨k.val, by omega⟩) + ∑ k : Fin 2560, f ⟨2560 + k.val, by omega⟩)
        + ∑ k : Fin 2560, f ⟨5120 + k.val, by omega⟩) + ∑ k : Fin 2320, f ⟨7680 + k.val, by omega⟩ :=
  (Fin.sum_univ_add (a := 7680) (b := 2320) f).trans (congrArg (· + _) ((Fin.sum_univ_add (a := 5120) (b := 2560) _).trans
    (congrArg (· + _) (Fin.sum_univ_add (a := 2560) (b := 2560) _))))

/-- A unit-stride rectangle of a rank-2 array sends (p, q) to its offsets plus (p, q). -/
theorem emb2 {n0 n1 m0 m1 : ℕ} (off : Fin 2 → ℕ) (inb)
    (p : Fin m0) (q : Fin m1) (P : Fin n0) (Q : Fin n1) (hP : P.val = off 0 + p.val) (hQ : Q.val = off 1 + q.val) :
    (Rect.unit (s := ⟨2, ![n0, n1]⟩) off (⟨2, ![m0, m1]⟩ : Shape).size inb).emb (ix2 p q) = ix2 P Q :=
  funext fun a => Fin.ext (by
    match a with
    | ⟨0, _⟩ => show off 0 + 1 * p.val = P.val; omega
    | ⟨1, _⟩ => show off 1 + 1 * q.val = Q.val; omega)

section
variable {n : ℕ} (X : Vec Ideal S512x10000 .f32) (Y : Vec Ideal (⟨2, ![n, 128]⟩ : Shape) .bf16) (r : Fin 512) (c : Fin 128)
  (arow bcol : Fin 10000 → ℝ) (hX : ∀ k, X (ix2 r k) = (arow k : EReal))
  (hY : ∀ (k : Fin n) (hk : k.val < 10000), Y (ix2 k c) = (bcol ⟨k.val, hk⟩ : EReal))
include hX hY

/-- Over the `K` columns from `o`, row `r` of `X` times column `c` of `Y`, both real there, sums to the real sum. -/
theorem chunk_sum {K : ℕ} (o : ℕ) (iX) (iY) (f : Fin K → Fin 10000) (hf : ∀ k, (f k).val = o + k.val) :
    ∑ k : Fin K, View.ld X (Rect.unit ![0, o] (⟨2, ![512, K]⟩ : Shape).size iX) (ix2 r k)
        * View.ld Y (Rect.unit ![o, 0] (⟨2, ![K, 128]⟩ : Shape).size iY) (ix2 k c)
      = ((∑ k, arow (f k) * bcol (f k) : ℝ) : EReal) :=
  Spec.sum_mul_coe _ _ _ _ (fun k => (congrArg X (emb2 _ iX r k r (f k) (Nat.zero_add _).symm (hf k))).trans (hX _))
    fun k => (congrArg Y (emb2 _ iY k c ⟨(f k).val, by have h : o + K ≤ n := iY 0; have := hf k; have := k.isLt; omega⟩ c (hf k)
      (Nat.zero_add _).symm)).trans (hY _ (f k).isLt)

/-- A real start value plus the four chunk sums is the real `a0 + Σ_k arow k · bcol k`. -/
theorem four_chunks (iX0 iX1 iX2 iX3 iY0 iY1 iY2 iY3) (a0 : ℝ) :
    ((((a0 : EReal)
      + ∑ k : Fin 2560, View.ld X (Rect.unit ![0, 0] S512x2560.size iX0) (ix2 r k)
          * View.ld Y (Rect.unit ![0, 0] S2560x128.size iY0) (ix2 k c))
      + ∑ k : Fin 2560, View.ld X (Rect.unit ![0, 2560] S512x2560.size iX1) (ix2 r k)
          * View.ld Y (Rect.unit ![2560, 0] S2560x128.size iY1) (ix2 k c))
      + ∑ k : Fin 2560, View.ld X (Rect.unit ![0, 5120] S512x2560.size iX2) (ix2 r k)
          * View.ld Y (Rect.unit ![5120, 0] S2560x128.size iY2) (ix2 k c))
      + ∑ k : Fin 2320, View.ld X (Rect.unit ![0, 7680] S512x2320.size iX3) (ix2 r k)
          * View.ld Y (Rect.unit ![7680, 0] S2320x128.size iY3) (ix2 k c)
      = ((a0 + ∑ k, arow k * bcol k : ℝ) : EReal) := by
  refine (congrArg₂ (· + ·) (congrArg₂ (· + ·) (congrArg₂ (· + ·) (congrArg₂ (· + ·) rfl
    (chunk_sum X Y r c arow bcol hX hY 0 iX0 iY0 (fun k => ⟨k.val, by omega⟩) fun k => (Nat.zero_add _).symm))
    (chunk_sum X Y r c arow bcol hX hY 2560 iX1 iY1 (fun k => ⟨2560 + k.val, by omega⟩) fun k => rfl))
    (chunk_sum X Y r c arow bcol hX hY 5120 iX2 iY2 (fun k => ⟨5120 + k.val, by omega⟩) fun k => rfl))
    (chunk_sum X Y r c arow bcol hX hY 7680 iX3 iY3 (fun k => ⟨7680 + k.val, by omega⟩) fun k => rfl)).trans ?_
  rw [sum_chunks fun k => arow k * bcol k, ← EReal.coe_add, ← EReal.coe_add, ← EReal.coe_add, ← EReal.coe_add]
  exact congrArg _ (by ring)

end

/-- Entry (k, c) of the carried array after `n` row blocks, as a real. -/
def vwReal (n : ℕ) (k : Fin 10000) (c : Fin 128) : ℝ :=
  if k.val < 512 * n ∧ c.val = 0 then Spec.v adj x W1 b1 W2 Wlin k else 0

section
variable {adj x W1 b1 W2 b2 Wlin blin}

theorem vwAt_apply (n : ℕ) (k : Fin 10240) (c : Fin 128) :
    Shared.vwAt adj x W1 b1 W2 Wlin n (ix2 k c)
      = if h : k.val < 10000 then
          (if k.val < 512 * n ∧ c.val = 0 then ((Spec.v adj x W1 b1 W2 Wlin ⟨k.val, h⟩ : ℝ) : EReal) else 0)
        else 0 := rfl

theorem vwAt_row (n : ℕ) (K : Fin 10240) (hK : K.val < 10000) (c : Fin 128) :
    Shared.vwAt adj x W1 b1 W2 Wlin n (ix2 K c) = ((vwReal adj x W1 b1 W2 Wlin n ⟨K.val, hK⟩ c : ℝ) : EReal) :=
  (dif_pos hK).trans (apply_ite Real.toEReal _ _ _).symm

/-- The second accumulator at (r, c): row `512·ib + r` of `adj` times column `c` of the carried array. -/
theorem oAcc_value (ib : ℕ) (X1 : Vec Ideal S512x10000 .f32) (r : Fin 512) (hr : 512 * ib + r.val < 10000)
    (h1 : ∀ k : Fin 10000, X1 (ix2 r k) = ((adj ⟨512 * ib + r.val, hr⟩ k : ℝ) : EReal)) (c : Fin 128) :
    R1Run.oAcc X1 (Shared.vwAt adj x W1 b1 W2 Wlin ib) (ix2 r c)
      = ((0 + ∑ k : Fin 10000, adj ⟨512 * ib + r.val, hr⟩ k * vwReal adj x W1 b1 W2 Wlin ib k c : ℝ) : EReal) := by
  unfold R1Run.oAcc k1_pay18 k1_pay15 k1_pay12 k1_pay9 k1_pay8 k1_pay5
  simp only [shapeCast_self]
  exact (addf_congr (addf_congr (addf_congr (addf_congr Ideal.ofBits_zero_f32 (prod_apply _ _ r c)) (prod_apply _ _ r c))
    (prod_apply _ _ r c)) (prod_apply _ _ r c)).trans
    (four_chunks X1 _ r c _ (fun k => vwReal adj x W1 b1 W2 Wlin ib k c) h1 (fun k hk => vwAt_row ib k hk c) _ _ _ _ _ _ _ _ 0)

variable {i : grid1.Coords} {X1 : Vec Ideal S512x10000 .f32} {X2 : Vec Ideal S10000x128 .bf16} {X3 : Vec Ideal S1x128 .f32}
  {X4 : Vec Ideal S128x1 .f32}
  (h3 : ∀ l : Fin 128, X3 (ix2 (0 : Fin 1) l) = ((b1 l : ℝ) : EReal))
  (h2 : ∀ (k : Fin 10000) (l : Fin 128), X2 (ix2 k l) = ((Spec.s1 x W1 k l : ℝ) : EReal))
  (h1 : ∀ (r : Fin 512) (hr : 512 * (i 0).val + r.val < 10000) (k : Fin 10000),
    X1 (ix2 r k) = ((adj ⟨512 * (i 0).val + r.val, hr⟩ k : ℝ) : EReal))
  (h4 : ∀ l : Fin 128, X4 (ix2 l (0 : Fin 1)) = ((Spec.wv W2 Wlin l : ℝ) : EReal))
include h3 h2 h1

/-- The first accumulator at (r, l) is `Spec.h` at row `512·ib + r`. -/
theorem hAcc_value (r : Fin 512) (hr : 512 * (i 0).val + r.val < 10000) (l : Fin 128) :
    R1Run.hAcc X1 X2 X3 (ix2 r l) = ((Spec.h adj x W1 b1 ⟨512 * (i 0).val + r.val, hr⟩ l : ℝ) : EReal) := by
  unfold R1Run.hAcc k1_pay17 k1_pay14 k1_pay11 k1_pay7 k1_pay4
  simp only [shapeCast_self]
  refine (addf_congr (addf_congr (addf_congr (addf_congr ((broadcastTo_1b_ab_apply _ _ r l).trans (h3 l)) (prod_apply _ _ r l))
    (prod_apply _ _ r l)) (prod_apply _ _ r l)) (prod_apply _ _ r l)).trans ?_
  exact four_chunks X1 X2 r l _ (fun k => Spec.s1 x W1 k l) (h1 r hr) (fun k _ => h2 k l) _ _ _ _ _ _ _ _ (b1 l)

include h4

/-- The masked column at row `r`: `Spec.v` at row `512·ib + r` when that row is below 10000, else zero. -/
theorem masked_value (r : Fin 512) :
    masked (i 0).val (k1_pay19 (R1Run.hAcc X1 X2 X3)) X4 (ix2 r (0 : Fin 1))
      = if hr : 512 * (i 0).val + r.val < 10000 then ((Spec.v adj x W1 b1 W2 Wlin ⟨512 * (i 0).val + r.val, hr⟩ : ℝ) : EReal) else 0 := by
  have hbit := rowBit_iff ⟨(i 0).val, (i 0).isLt⟩ r
  rw [masked_apply]
  split
  · next hr =>
    rw [hbit.mpr hr, select_one]
    exact Spec.sum_mul_coe _ _ (fun l => max (Spec.h adj x W1 b1 ⟨512 * (i 0).val + r.val, hr⟩ l) 0) (Spec.wv W2 Wlin)
      (fun l => by rw [pay19_apply, hAcc_value h3 h2 h1 r hr l, Spec.coe_max, EReal.coe_zero]) h4
  · next hr => rw [eq_zero_of_ne_one fun h => hr (hbit.mp h), select_zero]

/-- The stored block agrees with the next carried array on the block's rows. -/
theorem vwSlice_value (r : Fin 512) (c : Fin 128) :
    R1Run.vwSlice i X1 X2 X3 X4 (ix2 r c)
      = Shared.vwAt adj x W1 b1 W2 Wlin ((i 0).val + 1)
          (ix2 (⟨512 * (i 0).val + r.val, by have : (i 0).val < 20 := (i 0).isLt; have := r.isLt; omega⟩ : Fin 10240) c) := by
  unfold R1Run.vwSlice
  rw [pay1_apply, masked_value h3 h2 h1 h4 r, vwAt_apply]
  dsimp only
  by_cases hr : 512 * (i 0).val + r.val < 10000
  · rw [dif_pos hr, dif_pos hr, ← EReal.coe_sub, sub_self, EReal.coe_zero, ite_self]
    exact if_congr ⟨fun h => ⟨by omega, h⟩, fun h => h.2⟩ rfl rfl
  · rw [dif_neg hr, dif_neg hr, sub_zero, ite_self, ite_self]

/-- Overwriting the block's rows of the carried array gives the next carried array. -/
theorem canon_value (X6 : Vec Ideal S10240x128 .bf16) (h6 : X6 = Shared.vwAt adj x W1 b1 W2 Wlin (i 0).val) :
    View.canon [(⟨R1Run.rVS i, R1Run.vwSlice i X1 X2 X3 X4⟩ : View.Piece (Elt Ideal) S10240x128 .bf16), ⟨R1Run.rVW, X6⟩]
      = Shared.vwAt adj x W1 b1 W2 Wlin ((i 0).val + 1) := by
  subst h6
  have hi : (i 0).val < 20 := (i 0).isLt
  funext j
  obtain ⟨K, c, rfl⟩ : ∃ (K : Fin 10240) (c : Fin 128), j = ix2 K c := ⟨j 0, j 1, eq_ix2 j⟩
  by_cases hK : 512 * (i 0).val ≤ K.val ∧ K.val < 512 * (i 0).val + 512
  · have e : (R1Run.rVS i).emb (ix2 (⟨K.val - 512 * (i 0).val, by omega⟩ : Fin 512) c) = ix2 K c :=
      emb2 _ _ _ c K c (by rw [k1_off1_eq]; show K.val = 512 * (i 0).val + (K.val - 512 * (i 0).val); omega)
        (by rw [k1_off1_eq]; exact (Nat.zero_add _).symm)
    have hc := View.canon_cons_emb (Val := Elt Ideal) (R1Run.rVS i) (R1Run.vwSlice i X1 X2 X3 X4)
      [⟨R1Run.rVW, Shared.vwAt adj x W1 b1 W2 Wlin (i 0).val⟩] (ix2 (⟨K.val - 512 * (i 0).val, by omega⟩ : Fin 512) c)
    rw [e] at hc
    exact hc.trans ((vwSlice_value h3 h2 h1 h4 _ c).trans (congrArg (fun k : Fin 10240 => Shared.vwAt adj x W1 b1 W2 Wlin ((i 0).val + 1) (ix2 k c))
      (Fin.ext (by show 512 * (i 0).val + (K.val - 512 * (i 0).val) = K.val; omega))))
  · have hz : (![0, 0] : Fin 2 → ℕ) = fun _ => 0 := funext fun a => by match a with | ⟨0, _⟩ => rfl | ⟨1, _⟩ => rfl
    have hnm : ix2 K c ∉ (R1Run.rVS i).set := fun hmem => by
      have h0 := (Rect.mem_set_unit.mp hmem) 0
      rw [k1_off1_eq] at h0
      exact hK h0
    have hc1 := View.canon_cons_of_not_mem (Val := Elt Ideal)
      (⟨R1Run.rVS i, R1Run.vwSlice i X1 X2 X3 X4⟩ : View.Piece (Elt Ideal) S10240x128 .bf16)
      [⟨R1Run.rVW, Shared.vwAt adj x W1 b1 W2 Wlin (i 0).val⟩] hnm
    have hc2 := View.canon_unit_zero (Val := Elt Ideal) (S := S10240x128) (e := .bf16) hz inb_S10240x128_S10240x128_0_0
      (Shared.vwAt adj x W1 b1 W2 Wlin (i 0).val)
    refine hc1.trans ((congrFun hc2 _).trans ?_)
    rw [vwAt_apply, vwAt_apply]
    split
    · exact if_congr ⟨fun h => ⟨by omega, h.2⟩, fun h => ⟨by omega, h.2⟩⟩ rfl rfl
    · rfl

end

/-- Before any row block the carried array is zero. -/
theorem vwAt_zero : Shared.vwAt adj x W1 b1 W2 Wlin 0 = k1_pay3 (F := Ideal) := by
  funext j
  obtain ⟨k, c, rfl⟩ : ∃ (k : Fin 10240) (c : Fin 128), j = ix2 k c := ⟨j 0, j 1, eq_ix2 j⟩
  rw [vwAt_apply, pay3_apply]
  split
  · exact if_neg (fun h => by omega)
  · rfl

theorem vwLater_value (i : grid1.Coords) (X1 : Vec Ideal S512x10000 .f32) (X2 : Vec Ideal S10000x128 .bf16) (X3 : Vec Ideal S1x128 .f32)
    (X4 : Vec Ideal S128x1 .f32)
    (h3 : ∀ l : Fin 128, X3 (ix2 (0 : Fin 1) l) = ((b1 l : ℝ) : EReal))
    (h2 : ∀ (k : Fin 10000) (l : Fin 128), X2 (ix2 k l) = ((Spec.s1 x W1 k l : ℝ) : EReal))
    (h1 : ∀ (r : Fin 512) (hr : 512 * (i 0).val + r.val < 10000) (k : Fin 10000),
      X1 (ix2 r k) = ((adj ⟨512 * (i 0).val + r.val, hr⟩ k : ℝ) : EReal))
    (h4 : ∀ l : Fin 128, X4 (ix2 l (0 : Fin 1)) = ((Spec.wv W2 Wlin l : ℝ) : EReal)) :
    R1Run.vwLater (F := Ideal) i X1 X2 X3 X4 (Shared.vwAt adj x W1 b1 W2 Wlin (i 0).val)
      = Shared.vwAt adj x W1 b1 W2 Wlin ((i 0).val + 1) :=
  canon_value h3 h2 h1 h4 _ rfl

theorem vwFirst_value (i : grid1.Coords) (hi : (i 0).val = 0) (X1 : Vec Ideal S512x10000 .f32) (X2 : Vec Ideal S10000x128 .bf16)
    (X3 : Vec Ideal S1x128 .f32) (X4 : Vec Ideal S128x1 .f32)
    (h3 : ∀ l : Fin 128, X3 (ix2 (0 : Fin 1) l) = ((b1 l : ℝ) : EReal))
    (h2 : ∀ (k : Fin 10000) (l : Fin 128), X2 (ix2 k l) = ((Spec.s1 x W1 k l : ℝ) : EReal))
    (h1 : ∀ (r : Fin 512) (hr : 512 * (i 0).val + r.val < 10000) (k : Fin 10000),
      X1 (ix2 r k) = ((adj ⟨512 * (i 0).val + r.val, hr⟩ k : ℝ) : EReal))
    (h4 : ∀ l : Fin 128, X4 (ix2 l (0 : Fin 1)) = ((Spec.wv W2 Wlin l : ℝ) : EReal)) :
    R1Run.vwFirst (F := Ideal) i X1 X2 X3 X4 = Shared.vwAt adj x W1 b1 W2 Wlin ((i 0).val + 1) :=
  canon_value h3 h2 h1 h4 (k1_pay3 (F := Ideal))
    (by rw [hi]; exact (vwAt_zero adj x W1 b1 W2 Wlin).symm)

theorem partOf_value (ib : ℕ) (X1 : Vec Ideal S512x10000 .f32) (X5 : Vec Ideal S1x1 .f32)
    (h5 : X5 (ix2 (0 : Fin 1) (0 : Fin 1)) = ((Spec.c0 b2 Wlin blin : ℝ) : EReal))
    (r : Fin 512) (hr : 512 * ib + r.val < 10000)
    (h1 : ∀ k : Fin 10000, X1 (ix2 r k) = ((adj ⟨512 * ib + r.val, hr⟩ k : ℝ) : EReal)) :
    R1Run.partOf (F := Ideal) X1 X5 (Shared.vwAt adj x W1 b1 W2 Wlin ib) (ix2 r (0 : Fin 1))
      = ((Shared.partRow adj x W1 b1 W2 b2 Wlin blin ib ⟨512 * ib + r.val, hr⟩ : ℝ) : EReal) := by
  unfold R1Run.partOf
  refine (pay2_apply _ _ r).trans ?_
  rw [oAcc_value ib X1 r hr h1 0, oAcc_value ib X1 r hr h1 1, h5,
    ← EReal.coe_add, ← EReal.coe_add]
  refine congrArg _ ?_
  have s0 : ∑ k : Fin 10000, adj ⟨512 * ib + r.val, hr⟩ k * vwReal adj x W1 b1 W2 Wlin ib k (0 : Fin 128)
      = ∑ k : Fin 10000, if k.val < 512 * ib then adj ⟨512 * ib + r.val, hr⟩ k * Spec.v adj x W1 b1 W2 Wlin k else 0 :=
    Finset.sum_congr rfl fun k _ => by
      unfold vwReal
      by_cases h : k.val < 512 * ib
      · rw [if_pos ⟨h, rfl⟩, if_pos h]
      · rw [if_neg (fun hh => h hh.1), if_neg h, mul_zero]
  have s1 : ∑ k : Fin 10000, adj ⟨512 * ib + r.val, hr⟩ k * vwReal adj x W1 b1 W2 Wlin ib k (1 : Fin 128) = 0 :=
    Finset.sum_eq_zero fun k _ => by
      unfold vwReal
      rw [if_neg (fun hh => absurd hh.2 (by decide)), mul_zero]
  unfold Shared.partRow
  rw [s0, s1]
  ring

end Cert.KernelIdeal.R1Value
-- ==== Proof.R1Dat.lean ====
import proofs.«121951_g22909355557424_cont_8to1_1761_16_alg».proof.Proof.R1DatDefs
import proofs.«121951_g22909355557424_cont_8to1_1761_16_alg».proof.Proof.R1DatFinds
import proofs.«121951_g22909355557424_cont_8to1_1761_16_alg».proof.Proof.R1Run
import proofs.«121951_g22909355557424_cont_8to1_1761_16_alg».proof.Proof.R1Value
import Idealize.ShloMosaic.Lib.Pipeline.FrameBody
import Idealize.ShloMosaic.Lib.Pipeline.Kit
import Idealize.ShloMosaic.Lib.ValueIdx
import Idealize.ShloMosaic.Lib.Tactic

set_option maxRecDepth 16384

noncomputable section

namespace Cert.KernelIdeal.R1Dat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Idealize.ShloMosaic.ValueIdx
open Cert.KernelIdeal.Shared (vwAt partRow)
open scoped BigOperators

variable {U : Type} [URA U]

local notation "𝕄" => MT nD τ sig Unit (Elt Ideal) ℕ U ℕ

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

variable (V : (c : Dev nD) → (b : Ref sig .tc) → Buf (Elt Ideal) ((c : Thread nD τ).loc b))

theorem scopedRest1_split (c : Dev nD) :
    (Pipeline.scopedRest (Ix := Unit) (Name := ℕ) (U := U) (Lvl := ℕ) (Val := Elt Ideal) spec1 c : sProp 𝕄)
      = iprop(((∃ f : Buf (Elt Ideal) ((c : Thread nD τ).loc cc1_scratch0), ((c : Thread nD τ).loc cc1_scratch0) ↦{fullShare} f)
            ∗ (∃ f : Buf (Elt Ideal) ((c : Thread nD τ).loc cc1_scratch1), ((c : Thread nD τ).loc cc1_scratch1) ↦{fullShare} f))
          ∗ Pipeline.scopedRestBut (Ix := Unit) (Name := ℕ) (U := U) (Lvl := ℕ) (Val := Elt Ideal) spec1 c [cc1_scratch0, cc1_scratch1]) :=
  Pipeline.scopedRest_split_of_list (Ix := Unit) (Name := ℕ) (U := U) (Lvl := ℕ) (Val := Elt Ideal) spec1 c [cc1_scratch0, cc1_scratch1]
    (by decide) (by decide)

theorem owns_whole_some (c : Dev nD) (b : Ref sig .tc) (f : Buf (Elt Ideal) ((c : Thread nD τ).loc b)) :
    (owns (c : Thread nD τ) (Memref.whole b) fullShare f : sProp 𝕄)
      ⊢ iprop(∃ g : Buf (Elt Ideal) ((c : Thread nD τ).loc b), ((c : Thread nD τ).loc b) ↦{fullShare} g) := by
  rw [owns_whole]
  iintro H
  iexists f
  iexact H

theorem body_obligation1 (hV : ∀ c, Good1 adj x W1 b1 W2 b2 Wlin blin c (V c)) (c : Dev nD) :
    (rd1 (U := U) adj x W1 b1 W2 b2 Wlin blin V c).BodyObligation (defs₀ (F := Ideal)) Variants.none () Set.univ := fun t Y hY => by
  rw [bigSep_W1, bigSep_W1]
  show iprop(Pipeline.ΦA (Val := Elt Ideal) (U := U) spec1 c ∗ _) ⊢ wp _ _ _ (bodyAt1 (F := Ideal) t) fun _ =>
    iprop(Pipeline.ΦA (Val := Elt Ideal) (U := U) spec1 c ∗ (rd1 (U := U) adj x W1 b1 W2 b2 Wlin blin V c).owesAt () t.castSucc ∗ _)
  have hv := hV c

  obtain ⟨e1, e2, e3, e4⟩ := finds_small adj x W1 b1 W2 b2 Wlin blin V c t Y hY
  have h0 := finds0 adj x W1 b1 W2 b2 Wlin blin V c t (Y 0) (hY 0)
  have h5 := finds5 adj x W1 b1 W2 b2 Wlin blin V c t (Y 5) (hY 5)
  have hco := coords1 t
  have g2 := e1 ▸ hv.s1
  have g3 := e2 ▸ hv.b1
  have g4 := e3 ▸ hv.wv
  have g5 := e4 ▸ hv.c0
  have g1 : ∀ (n : ℕ) (hn : n = t.val) (r : Fin 512) (hr : 512 * n + r.val < 10000) (k : Fin 10000),
      (Y 0 : Vec Ideal S512x10000 .f32) (ix2 r k) = ((adj ⟨512 * n + r.val, hr⟩ k : ℝ) : EReal) := by
    intro n hn; subst hn; intro r hr k; rw [h0 r hr k]; exact hv.adj _ k
  have p6 : ∀ X6, X6 = vwAt adj x W1 b1 W2 Wlin t.val →
      after1 adj x W1 b1 W2 b2 Wlin blin 6 t (Y 6) (R1Run.partOf (F := Ideal) (Y 0) (Y 4) X6) := by
    rintro _ rfl r hr
    exact R1Value.partOf_value adj x W1 b1 W2 b2 Wlin blin t.val (Y 0) (Y 4) g5 r hr (g1 t.val rfl r hr)
  unfold Pipeline.ΦA
  rw [scopedRest1_split (U := U) c]
  iintro ⟨⟨⟨⟨⟨%f8, Hs0⟩, ⟨%f9, Hs1⟩⟩, Hrest⟩, Hprng⟩, Ho, H0, H1, H2, H3, H4, H5, H6⟩
  by_cases hc : (grid1.coords t 0).val = 0
  on_goal 1 =>
    have q6 := p6 _ (show k1_pay3 (F := Ideal) = _ by
      rw [show t.val = 0 from hco ▸ hc]; exact (R1Value.vwAt_zero adj x W1 b1 W2 Wlin).symm)
    have q5 : after1 adj x W1 b1 W2 b2 Wlin blin 5 t (Y 5) (R1Run.vwFirst (F := Ideal) (grid1.coords t) (Y 0) (Y 1) (Y 2) (Y 3)) :=
      fun _ => hco ▸ R1Value.vwFirst_value adj x W1 b1 W2 Wlin (grid1.coords t) hc (Y 0) (Y 1) (Y 2) (Y 3) g3 g2
        (g1 (grid1.coords t 0).val hco) g4
    iapply (R1Run.run_first (F := Ideal) (U := U) c _ _ _ _ _ _ _ _ _ _ _ _ _ _ _ _ _ _ _
      hc (Y 0) (Y 1) (Y 2) (Y 3) (Y 4) Set.univ _)
  on_goal 2 =>
    have e5 : Y 5 = vwAt adj x W1 b1 W2 Wlin t.val := h5.resolve_left fun h => hc (hco.trans h)
    have q6 := p6 _ e5
    have q5 : after1 adj x W1 b1 W2 b2 Wlin blin 5 t (Y 5) (R1Run.vwLater (F := Ideal) (grid1.coords t) (Y 0) (Y 1) (Y 2) (Y 3) (Y 5)) :=
      fun _ => e5 ▸ hco ▸ R1Value.vwLater_value adj x W1 b1 W2 Wlin (grid1.coords t) (Y 0) (Y 1) (Y 2) (Y 3) g3 g2
        (g1 (grid1.coords t 0).val hco) g4
    iapply (R1Run.run_later (F := Ideal) (U := U) c _ _ _ _ _ _ _ _ _ _ _ _ _ _ _ _ _ _ _
      hc (Y 0) (Y 1) (Y 2) (Y 3) (Y 4) (Y 5) Set.univ _)
  all_goals
    iframe H0 H1 H2 H3 H4
    isplitl [H5]
    · first | iexact H5 | (iexists (Y 5); iexact H5)
    isplitl [H6]
    · iexists (Y 6); iexact H6
    isplitl [Hs0]
    · iexists f8; rw [owns_whole]; iexact Hs0
    isplitl [Hs1]
    · iexists f9; rw [owns_whole]; iexact Hs1
    iintro ⟨H0, H1, H2, H3, H4, H5, H6, Hs0, Hs1⟩
    iframe Hrest Hprng Ho
    isplitl [Hs0 Hs1]
    · isplitl [Hs0]
      · iapply (owns_whole_some (U := U) c cc1_scratch0 _); iexact Hs0
      · iapply (owns_whole_some (U := U) c cc1_scratch1 _); iexact Hs1
    isplitl [H0]
    · iexists (Y 0); isplitr
      · ipureintro; exact rfl
      iexact H0
    isplitl [H1]
    · iexists (Y 1); isplitr
      · ipureintro; exact rfl
      iexact H1
    isplitl [H2]
    · iexists (Y 2); isplitr
      · ipureintro; exact rfl
      iexact H2
    isplitl [H3]
    · iexists (Y 3); isplitr
      · ipureintro; exact rfl
      iexact H3
    isplitl [H4]
    · iexists (Y 4); isplitr
      · ipureintro; exact rfl
      iexact H4
    isplitl [H5]
    · iexists _; isplitr
      swap; · iexact H5
      ipureintro; exact q5
    · iexists _; isplitr
      swap; · iexact H6
      ipureintro; exact q6

end Cert.KernelIdeal.R1Dat

end
-- ==== Proof.R2DatDefs.lean ====
import proofs.«121951_g22909355557424_cont_8to1_1761_16_alg».proof.Proof.Gen.KernelIdeal.Launch
import proofs.«121951_g22909355557424_cont_8to1_1761_16_alg».proof.Proof.Gen.KernelIdeal.Skeleton
import proofs.«121951_g22909355557424_cont_8to1_1761_16_alg».proof.Proof.Gen.KernelIdeal.Points
import proofs.«121951_g22909355557424_cont_8to1_1761_16_alg».proof.Proof.Shared
import Idealize.ShloMosaic.Lib.Pipeline.FrameBody
import Idealize.ShloMosaic.Lib.Pipeline.Kit
import Idealize.ShloMosaic.Lib.ValueIdx
import Idealize.ShloMosaic.Lib.Tactic

set_option maxRecDepth 16384

noncomputable section

namespace Cert.KernelIdeal.R2Dat

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {U : Type} [URA U]

local notation "𝕄" => MT nD τ sig Unit (Elt Ideal) ℕ U ℕ

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

def accRow (ib jc : ℕ) (r : Fin 10000) : ℝ :=
  ∑ k : Fin 10000, if 512 * ib ≤ k.val ∧ k.val < min (2560 * jc) 10000 then adj r k * Spec.v adj x W1 b1 W2 Wlin k else 0

def Inv (n : ℕ) (S : Vec Ideal S512x128 .f32) : Prop :=
  n % 4 = 0 ∨ ∀ (r : Fin 512) (h : 512 * (n / 4) + r.val < 10000),
    S (ix2 r (0 : Fin 128)) = ((accRow adj x W1 b1 W2 Wlin (n / 4) (n % 4) ⟨512 * (n / 4) + r.val, h⟩ : ℝ) : EReal)
      ∧ S (ix2 r (1 : Fin 128)) = 0

structure Good2 {c : Dev nD} (V : (b : Ref sig .tc) → Buf (Elt Ideal) ((c : Thread nD τ).loc b)) : Prop where
  hadj : ∀ i j : Fin 10000, (V main_arg0 : Vec Ideal S10000x10000 .f32) (ix2 i j) = ((adj i j : ℝ) : EReal)
  hvw : (V main_v4_0 : Vec Ideal S10240x128 .bf16) = Shared.vwAt adj x W1 b1 W2 Wlin 20
  hpart : ∀ r : Fin 10000, (V main_v4_1 : Vec Ideal S10240x1 .f32) (ix2 (⟨r.val, by omega⟩ : Fin 10240) (0 : Fin 1))
    = ((Shared.partRow adj x W1 b1 W2 b2 Wlin blin (r.val / 512) r : ℝ) : EReal)

variable (c : Dev nD) (V : (b : Ref sig .tc) → Buf (Elt Ideal) ((c : Thread nD τ).loc b))

def rd2 : Pipeline.RDat τ (Elt Ideal) Unit ℕ U ℕ cfg2 c where
  A w := V (Pipeline.arrRef spec2 w)
  after w t := match w with
    | ⟨0, _⟩ => fun Y X => X = Y
    | ⟨1, _⟩ => fun Y X => X = Y
    | ⟨2, _⟩ => fun Y X => X = Y
    | ⟨3, _⟩ => fun Y X =>
      if t.val % 4 = 3 then
        ∀ (r : Fin 512) (h : 512 * (t.val / 4) + r.val < 10000),
          X (ix2 r (0 : Fin 1)) = ((Spec.outK adj x W1 b1 W2 b2 Wlin blin ⟨512 * (t.val / 4) + r.val, h⟩ : ℝ) : EReal)
      else X = Y
  Φ t := iprop(∃ S : Vec Ideal S512x128 .f32, ⌜Inv adj x W1 b1 W2 Wlin t.val S⌝
      ∗ (((c : Thread nD τ).loc cc2_scratch0) ↦{fullShare} S)
      ∗ Pipeline.scopedRestBut (Ix := Unit) (Name := ℕ) (U := U) (Lvl := ℕ) (Val := Elt Ideal) spec2 c [cc2_scratch0]
      ∗ ∃ r, prngReg c r)
  q _ := fullShare
  owed _ := 0

theorem scopedRest2_split :
    (Pipeline.scopedRest (Ix := Unit) (Name := ℕ) (U := U) (Lvl := ℕ) (Val := Elt Ideal) spec2 c : sProp 𝕄)
      = iprop((∃ f : Buf (Elt Ideal) ((c : Thread nD τ).loc cc2_scratch0), ((c : Thread nD τ).loc cc2_scratch0) ↦{fullShare} f)
          ∗ Pipeline.scopedRestBut (Ix := Unit) (Name := ℕ) (U := U) (Lvl := ℕ) (Val := Elt Ideal) spec2 c [cc2_scratch0]) :=
  Pipeline.scopedRest_split_of_list (Ix := Unit) (Name := ℕ) (U := U) (Lvl := ℕ) (Val := Elt Ideal) spec2 c [cc2_scratch0]
    (by decide) (by decide)

theorem hin2 (v : (pcfgs (F := Ideal) 2).pre.Contents (Elt Ideal)) :
    (iprop((∃ r, prngReg c r) ∗ Pipeline.prefHeld (pcfgs (F := Ideal) 2).pre c (fun _ => fullShare) v
        ∗ Pipeline.scopedRest (Ix := Unit) (Name := ℕ) (U := U) (Lvl := ℕ) (Val := Elt Ideal) spec2 c) : sProp 𝕄)
      ⊢ (rd2 (U := U) adj x W1 b1 W2 b2 Wlin blin c V).Φ 0 := by
  rw [scopedRest2_split (U := U) c]
  dsimp only [rd2]
  iintro ⟨Hp, -, ⟨%f, Hs⟩, Hr⟩
  iexists f
  isplitr
  · ipureintro; exact Or.inl (by rw [Fin.val_zero])
  isplitl [Hs]; · iexact Hs
  isplitl [Hr]; · iexact Hr
  iexact Hp

theorem hout2 :
    (rd2 (U := U) adj x W1 b1 W2 b2 Wlin blin c V).Φ (Fin.last _)
      ⊢ (iprop((∃ r, prngReg c r) ∗ Pipeline.ownSems0 (fun k : PEmpty => k.elim) c
        ∗ Pipeline.scopedRest (Ix := Unit) (Name := ℕ) (U := U) (Lvl := ℕ) (Val := Elt Ideal) spec2 c) : sProp 𝕄) := by
  rw [Pipeline.ownSems0_none, scopedRest2_split (U := U) c]
  dsimp only [rd2]
  iintro ⟨%S, -, Hs, Hr, Hp⟩
  isplitl [Hp]; · iexact Hp
  isplitr; · iempintro
  isplitl [Hs]; · iexists S; iexact Hs
  iexact Hr

end Cert.KernelIdeal.R2Dat

end
-- ==== Proof.R2Pay.lean ====
import proofs.«121951_g22909355557424_cont_8to1_1761_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.R2Value

open Cert.KernelIdeal Cert.KernelIdeal.Gen Idealize.ShloMosaic Idealize.ShloMosaic.ValueIdx
open scoped BigOperators

/-- The product of a 512 × 512 block and a 512 × 128 block at row `p`, column `q`: the sum over the 512 inner positions. -/
theorem mm_apply (A : FVec Ideal S512x512 .bf16) (B : FVec Ideal S512x128 .bf16) (p : Fin 512) (q : Fin 128) :
    matmul (F := Ideal) dot_S512x512_S512x128_S512x128_1_0_0_1_n_n none A B (constant (F := Ideal) S512x128 .f32 0x00000000#32) (ix2 p q)
      = ∑ k : Fin 512, A (ix2 p k) * B (ix2 k q) := by
  simp only [matmul]
  rw [Ideal.matmul_constant_zero_apply, ← Equiv.sum_comp (contrEquiv1 _ 512 rfl rfl).symm]
  refine Finset.sum_congr rfl fun k _ => ?_
  have hk := contrEquiv1_symm_val dot_S512x512_S512x128_S512x128_1_0_0_1_n_n 512 rfl rfl k
  congr 2 <;> refine Shape.idx_ext₂ ?_ ?_
  · simp [DotDims.lhsIdx, dot_S512x512_S512x128_S512x128_1_0_0_1_n_n]; rfl
  · exact (dot_S512x512_S512x128_S512x128_1_0_0_1_n_n.lhsIdx_val_of_single rfl _ _).trans hk
  · exact (dot_S512x512_S512x128_S512x128_1_0_0_1_n_n.rhsIdx_val_of_single rfl _ _).trans hk
  · simp [DotDims.rhsIdx, dot_S512x512_S512x128_S512x128_1_0_0_1_n_n]; rfl

theorem k2_pay7_apply (v75 : Vec Ideal S512x512 .f32) (p k : Fin 512) :
    k2_pay7 (F := Ideal) v75 (ix2 p k) = if k.val < 272 then v75 (ix2 p k) else 0 := by
  unfold k2_pay7
  show Scalar.select (IntOp.cmpi .slt (iota .tc S512x512 32 [1] Facts₀.iota_S512x512_d1_w32 (ix2 p k)) 272#32) (v75 (ix2 p k)) (Ideal.ofBits .f32 0x00000000#32) = _
  rw [iota_single_apply, Ideal.ofBits_zero_f32]
  show Scalar.select (IntOp.cmpi .slt (BitVec.ofNat 32 k.val) 272#32) _ _ = _
  have hk := k.isLt
  have hm : (BitVec.ofNat 32 k.val).toNat = k.val := Nat.mod_eq_of_lt (by omega)
  have e := StableHlo.Predicate.slt_iff_toNat (a := BitVec.ofNat 32 k.val) (b := 272#32) (by omega) (by decide)
  rw [hm] at e
  by_cases h : k.val < 272
  · rw [if_pos h, e.2 h]; exact select_one _ _
  · rw [if_neg h, eq_zero_of_ne_one (mt e.1 h)]; exact select_zero _ _

theorem k2_pay9_apply (p : Fin 512) (q : Fin 128) : (k2_pay9 (F := Ideal)) (ix2 p q) = 0 := by
  unfold k2_pay9
  simp only [shapeCast_self]
  show Ideal.ofBits .f32 0x00000000#32 = 0
  exact Ideal.ofBits_zero_f32

theorem k2_pay4_apply (v50 : Vec Ideal S512x1 .f32) (v52 : Vec Ideal S512x128 .f32) (p : Fin 512) :
    k2_pay4 (F := Ideal) v50 v52 (ix2 p (0 : Fin 1)) = v50 (ix2 p (0 : Fin 1)) + (v52 (ix2 p (0 : Fin 128)) + v52 (ix2 p (1 : Fin 128))) := by
  unfold k2_pay4
  simp only [shapeCast_self]
  rw [addf_apply, addf_apply,
    slice2_axis1_apply 0 v52 Facts₀.slices_S512x128_o0_0_S512x1 p (0 : Fin 1) (0 : Fin 128) rfl,
    slice2_axis1_apply 1 v52 Facts₀.slices_S512x128_o0_1_S512x1 p (0 : Fin 1) (1 : Fin 128) rfl]

end Cert.KernelIdeal.R2Value

end
-- ==== Proof.R2Value.lean ====
import proofs.«121951_g22909355557424_cont_8to1_1761_16_alg».proof.Proof.R2Pay
import proofs.«121951_g22909355557424_cont_8to1_1761_16_alg».proof.Proof.Shared
import Mathlib.Algebra.BigOperators.Fin
import Mathlib.Algebra.BigOperators.Intervals
import Mathlib.Data.EReal.Operations

noncomputable section

namespace Cert.KernelIdeal.R2Value

open Cert.KernelIdeal Cert.KernelIdeal.Gen Idealize.ShloMosaic Idealize.ShloMosaic.ValueIdx
open scoped BigOperators

def extN (f : Fin 10000 → ℝ) (n : ℕ) : ℝ := if h : n < 10000 then f ⟨n, h⟩ else 0

theorem extN_val (f : Fin 10000 → ℝ) (k : Fin 10000) : extN f k.val = f k := by
  unfold extN; rw [dif_pos k.isLt]

theorem extN_of_lt (f : Fin 10000 → ℝ) (n : ℕ) (h : n < 10000) : extN f n = f ⟨n, h⟩ := dif_pos h

def rs (a v : ℕ → ℝ) (lo hi : ℕ) : ℝ := ∑ k : Fin 10000, if lo ≤ k.val ∧ k.val < hi then a k.val * v k.val else 0

theorem rs_add (a v : ℕ → ℝ) (lo mid hi : ℕ) (h1 : lo ≤ mid) (h2 : mid ≤ hi) :
    rs a v lo mid + rs a v mid hi = rs a v lo hi := by
  unfold rs
  rw [← Finset.sum_add_distrib]
  refine Finset.sum_congr rfl fun k _ => ?_
  split_ifs with c1 c2 c3 <;> first | (exfalso; omega) | simp

theorem rs_empty (a v : ℕ → ℝ) (lo hi : ℕ) (h : hi ≤ lo) : rs a v lo hi = 0 := by
  unfold rs
  exact Finset.sum_eq_zero fun k _ => if_neg (by omega)

theorem rs_eq_Ico (a v : ℕ → ℝ) (lo hi : ℕ) (hhi : hi ≤ 10000) :
    rs a v lo hi = ∑ n ∈ Finset.Ico lo hi, a n * v n := by
  unfold rs
  rw [Fin.sum_univ_eq_sum_range (fun n => if lo ≤ n ∧ n < hi then a n * v n else 0) 10000, ← Finset.sum_filter]
  refine Finset.sum_congr ?_ fun _ _ => rfl
  ext n
  simp only [Finset.mem_filter, Finset.mem_range, Finset.mem_Ico]
  omega

theorem slice_sum (A : Vec Ideal S512x512 .f32) (B : Vec Ideal S512x128 .bf16) (p : Fin 512) (a v : ℕ → ℝ) (off w : ℕ)
    (hw : w ≤ 512)
    (hA : ∀ k : Fin 512, k.val < w → A (ix2 p k) = ((a (off + k.val) : ℝ) : EReal))
    (hB : ∀ k : Fin 512, k.val < w → B (ix2 k (0 : Fin 128)) = ((v (off + k.val) : ℝ) : EReal)) :
    (∑ k : Fin 512, (if k.val < w then A (ix2 p k) else 0) * B (ix2 k (0 : Fin 128)))
      = ((∑ n ∈ Finset.Ico off (off + w), a n * v n : ℝ) : EReal) := by
  have step : ∀ k : Fin 512, (if k.val < w then A (ix2 p k) else 0) * B (ix2 k (0 : Fin 128))
      = (((fun n : ℕ => if n < w then a (off + n) * v (off + n) else 0) k.val : ℝ) : EReal) := by
    intro k
    by_cases h : k.val < w
    · simp only [if_pos h]; rw [hA k h, hB k h, EReal.coe_mul]
    · simp only [if_neg h]; rw [zero_mul, EReal.coe_zero]
  rw [Finset.sum_congr rfl fun k _ => step k, ← Spec.coe_sum,
    Fin.sum_univ_eq_sum_range (fun n : ℕ => if n < w then a (off + n) * v (off + n) else 0) 512,
    ← Finset.sum_filter, Finset.sum_Ico_eq_sum_range, Nat.add_sub_cancel_left]
  congr 1
  refine Finset.sum_congr ?_ fun _ _ => rfl
  ext n
  simp only [Finset.mem_filter, Finset.mem_range]
  omega

/-- One accumulating step: `S + A · B` for a 512 × 512 block `A` and a 512 × 128 block `B`. -/
def accStep (S : FVec Ideal S512x128 .f32) (A : FVec Ideal S512x512 .bf16) (B : Vec Ideal S512x128 .bf16) : FVec Ideal S512x128 .f32 :=
  addf S (matmul (F := Ideal) dot_S512x512_S512x128_S512x128_1_0_0_1_n_n none A (shapeCast S512x128 B Facts₀.shapeCasts_S512x128_S512x128 : FVec Ideal S512x128 .bf16) (constant (F := Ideal) S512x128 .f32 0x00000000#32))

theorem accStep_apply (S : FVec Ideal S512x128 .f32) (A : FVec Ideal S512x512 .bf16) (B : Vec Ideal S512x128 .bf16) (p : Fin 512) (q : Fin 128) :
    accStep S A B (ix2 p q) = S (ix2 p q) + ∑ k : Fin 512, A (ix2 p k) * B (ix2 k q) := by
  unfold accStep
  rw [shapeCast_self, addf_apply, mm_apply]

/-- A value read through a cast to the same shape. -/
theorem cast_val {α : Type} {X : S512x128.Idx → α} {h : S512x128.ShapeCasts S512x128} {i : S512x128.Idx} {r : α} (e : X i = r) :
    shapeCast S512x128 X h i = r := by
  rw [shapeCast_self, e]

section Acc
variable {a v : ℕ → ℝ} {S0 : ℝ} {lo mid hi : ℕ} {p : Fin 512} {S : FVec Ideal S512x128 .f32} {A : Vec Ideal S512x512 .f32}
  {B : Vec Ideal S512x128 .bf16}

theorem acc0 {X : EReal} (h : X = ((S0 : ℝ) : EReal)) : X = ((S0 + rs a v lo lo : ℝ) : EReal) := by
  rw [h, rs_empty a v lo lo le_rfl, add_zero]

/-- A step over the columns `mid ≤ k < mid + w` of the row `a` (the left block is zero past its first `w` columns) extends the range sum to `mid + w`. -/
theorem acc_gen (w : ℕ) {A' : FVec Ideal S512x512 .bf16}
    (hA' : ∀ k : Fin 512, A' (ix2 p k) = if k.val < w then A (ix2 p k) else 0)
    (hS : S (ix2 p (0 : Fin 128)) = ((S0 + rs a v lo mid : ℝ) : EReal))
    (hA : ∀ k : Fin 512, k.val < w → A (ix2 p k) = ((a (mid + k.val) : ℝ) : EReal))
    (hB : ∀ k : Fin 512, k.val < w → B (ix2 k (0 : Fin 128)) = ((v (mid + k.val) : ℝ) : EReal))
    (hlo : lo ≤ mid) (hhi : hi = mid + w) (hle : hi ≤ 10000) (hw : w ≤ 512) :
    accStep S A' B (ix2 p (0 : Fin 128)) = ((S0 + rs a v lo hi : ℝ) : EReal) := by
  subst hhi
  rw [accStep_apply, hS, ← rs_add a v lo mid (mid + w) hlo (Nat.le_add_right _ _), ← add_assoc,
    EReal.coe_add _ (rs a v mid (mid + w)), rs_eq_Ico a v mid (mid + w) hle, ← slice_sum A B p a v mid w hw hA hB]
  exact congrArg _ (Finset.sum_congr rfl fun k _ => by rw [hA' k])

theorem acc (hS : S (ix2 p (0 : Fin 128)) = ((S0 + rs a v lo mid : ℝ) : EReal))
    (hA : ∀ k : Fin 512, A (ix2 p k) = ((a (mid + k.val) : ℝ) : EReal))
    (hB : ∀ k : Fin 512, B (ix2 k (0 : Fin 128)) = ((v (mid + k.val) : ℝ) : EReal))
    (hlo : lo ≤ mid := by omega) (hhi : hi = mid + 512 := by omega) (hle : hi ≤ 10000 := by omega) :
    accStep S (truncf .bf16 A Facts₀.bitsLt_bf16_f32) B (ix2 p (0 : Fin 128)) = ((S0 + rs a v lo hi : ℝ) : EReal) :=
  acc_gen 512 (fun k => (if_pos k.isLt).symm) hS (fun k _ => hA k) (fun k _ => hB k) hlo hhi hle le_rfl

theorem accM (hS : S (ix2 p (0 : Fin 128)) = ((S0 + rs a v lo mid : ℝ) : EReal))
    (hA : ∀ k : Fin 512, k.val < 272 → A (ix2 p k) = ((a (mid + k.val) : ℝ) : EReal))
    (hB : ∀ k : Fin 512, k.val < 272 → B (ix2 k (0 : Fin 128)) = ((v (mid + k.val) : ℝ) : EReal))
    (hlo : lo ≤ mid := by omega) (hhi : hi = mid + 272 := by omega) (hle : hi ≤ 10000 := by omega) :
    accStep S (k2_pay7 (F := Ideal) A) B (ix2 p (0 : Fin 128)) = ((S0 + rs a v lo hi : ℝ) : EReal) :=
  acc_gen 272 (k2_pay7_apply A p) hS hA hB hlo hhi hle (by omega)

/-- Against a zero column of `B` a step adds nothing. -/
theorem accZ {A' : FVec Ideal S512x512 .bf16} {q : Fin 128} (hS : S (ix2 p q) = 0) (hB : ∀ k : Fin 512, B (ix2 k q) = 0) :
    accStep S A' B (ix2 p q) = 0 := by
  rw [accStep_apply, hS, zero_add]
  exact Finset.sum_eq_zero fun k _ => by rw [hB k, mul_zero]

end Acc

section Steps
variable (a v : ℕ → ℝ) (base : ℕ) (hb : base + 2560 ≤ 10000) (S0 : ℝ) (p : Fin 512)
  (v50 : Vec Ideal S512x128 .f32) (v51 : Vec Ideal S512x512 .f32) (v53 : Vec Ideal S512x128 .bf16) (v57 : Vec Ideal S512x512 .f32) (v58 v59 : Vec Ideal S512x128 .bf16) (v63 : Vec Ideal S512x512 .f32) (v64 v65 : Vec Ideal S512x128 .bf16) (v69 : Vec Ideal S512x512 .f32) (v70 v71 : Vec Ideal S512x128 .bf16) (v75 : Vec Ideal S512x512 .f32) (v76 v77 v82 : Vec Ideal S512x128 .bf16)
  (h0 : v50 (ix2 p (0 : Fin 128)) = ((S0 : ℝ) : EReal)) (h1 : v50 (ix2 p (1 : Fin 128)) = 0)

section
include h0

section
include hb

theorem k2_pay10_5_val (hA0 : ∀ k : Fin 512, v51 (ix2 p k) = ((a (base + k.val) : ℝ) : EReal))
    (hB0 : ∀ k : Fin 512, v53 (ix2 k (0 : Fin 128)) = ((v (base + k.val) : ℝ) : EReal))
    (hA1 : ∀ k : Fin 512, v57 (ix2 p k) = ((a (base + 512 + k.val) : ℝ) : EReal))
    (hB1 : ∀ k : Fin 512, v59 (ix2 k (0 : Fin 128)) = ((v (base + 512 + k.val) : ℝ) : EReal))
    (hA2 : ∀ k : Fin 512, v63 (ix2 p k) = ((a (base + 1024 + k.val) : ℝ) : EReal))
    (hB2 : ∀ k : Fin 512, v65 (ix2 k (0 : Fin 128)) = ((v (base + 1024 + k.val) : ℝ) : EReal))
    (hA3 : ∀ k : Fin 512, v69 (ix2 p k) = ((a (base + 1536 + k.val) : ℝ) : EReal))
    (hB3 : ∀ k : Fin 512, v71 (ix2 k (0 : Fin 128)) = ((v (base + 1536 + k.val) : ℝ) : EReal))
    (hA4 : ∀ k : Fin 512, v75 (ix2 p k) = ((a (base + 2048 + k.val) : ℝ) : EReal))
    (hB4 : ∀ k : Fin 512, v77 (ix2 k (0 : Fin 128)) = ((v (base + 2048 + k.val) : ℝ) : EReal)) :
    k2_pay10 (F := Ideal) (k2_pay5 (F := Ideal) v50 v51 v53 v57 v59 v63 v65 v69 v71 v75 v77) (ix2 p (0 : Fin 128)) = ((S0 + rs a v (base) (base + 2560) : ℝ) : EReal) :=
  cast_val (acc (acc (acc (acc (acc (acc0 h0) hA0 hB0) hA1 hB1) hA2 hB2) hA3 hB3) hA4 hB4)

theorem k2_pay11_val (hA1 : ∀ k : Fin 512, v51 (ix2 p k) = ((a (base + 512 + k.val) : ℝ) : EReal))
    (hB1 : ∀ k : Fin 512, v53 (ix2 k (0 : Fin 128)) = ((v (base + 512 + k.val) : ℝ) : EReal))
    (hA2 : ∀ k : Fin 512, v57 (ix2 p k) = ((a (base + 1024 + k.val) : ℝ) : EReal))
    (hB2 : ∀ k : Fin 512, v59 (ix2 k (0 : Fin 128)) = ((v (base + 1024 + k.val) : ℝ) : EReal))
    (hA3 : ∀ k : Fin 512, v63 (ix2 p k) = ((a (base + 1536 + k.val) : ℝ) : EReal))
    (hB3 : ∀ k : Fin 512, v65 (ix2 k (0 : Fin 128)) = ((v (base + 1536 + k.val) : ℝ) : EReal))
    (hA4 : ∀ k : Fin 512, v69 (ix2 p k) = ((a (base + 2048 + k.val) : ℝ) : EReal))
    (hB4 : ∀ k : Fin 512, v71 (ix2 k (0 : Fin 128)) = ((v (base + 2048 + k.val) : ℝ) : EReal)) :
    k2_pay11 (F := Ideal) v50 v51 v53 v57 v59 v63 v65 v69 v71 (ix2 p (0 : Fin 128)) = ((S0 + rs a v (base + 512) (base + 2560) : ℝ) : EReal) :=
  cast_val (acc (acc (acc (acc (acc0 h0) hA1 hB1) hA2 hB2) hA3 hB3) hA4 hB4)

theorem k2_pay12_val (hA2 : ∀ k : Fin 512, v51 (ix2 p k) = ((a (base + 1024 + k.val) : ℝ) : EReal))
    (hB2 : ∀ k : Fin 512, v53 (ix2 k (0 : Fin 128)) = ((v (base + 1024 + k.val) : ℝ) : EReal))
    (hA3 : ∀ k : Fin 512, v57 (ix2 p k) = ((a (base + 1536 + k.val) : ℝ) : EReal))
    (hB3 : ∀ k : Fin 512, v59 (ix2 k (0 : Fin 128)) = ((v (base + 1536 + k.val) : ℝ) : EReal))
    (hA4 : ∀ k : Fin 512, v63 (ix2 p k) = ((a (base + 2048 + k.val) : ℝ) : EReal))
    (hB4 : ∀ k : Fin 512, v65 (ix2 k (0 : Fin 128)) = ((v (base + 2048 + k.val) : ℝ) : EReal)) :
    k2_pay12 (F := Ideal) v50 v51 v53 v57 v59 v63 v65 (ix2 p (0 : Fin 128)) = ((S0 + rs a v (base + 1024) (base + 2560) : ℝ) : EReal) :=
  cast_val (acc (acc (acc (acc0 h0) hA2 hB2) hA3 hB3) hA4 hB4)

theorem k2_pay13_val (hA3 : ∀ k : Fin 512, v51 (ix2 p k) = ((a (base + 1536 + k.val) : ℝ) : EReal))
    (hB3 : ∀ k : Fin 512, v53 (ix2 k (0 : Fin 128)) = ((v (base + 1536 + k.val) : ℝ) : EReal))
    (hA4 : ∀ k : Fin 512, v57 (ix2 p k) = ((a (base + 2048 + k.val) : ℝ) : EReal))
    (hB4 : ∀ k : Fin 512, v59 (ix2 k (0 : Fin 128)) = ((v (base + 2048 + k.val) : ℝ) : EReal)) :
    k2_pay13 (F := Ideal) v50 v51 v53 v57 v59 (ix2 p (0 : Fin 128)) = ((S0 + rs a v (base + 1536) (base + 2560) : ℝ) : EReal) :=
  cast_val (acc (acc (acc0 h0) hA3 hB3) hA4 hB4)

theorem k2_pay14_val (hA4 : ∀ k : Fin 512, v51 (ix2 p k) = ((a (base + 2048 + k.val) : ℝ) : EReal))
    (hB4 : ∀ k : Fin 512, v53 (ix2 k (0 : Fin 128)) = ((v (base + 2048 + k.val) : ℝ) : EReal)) :
    k2_pay14 (F := Ideal) v50 v51 v53 (ix2 p (0 : Fin 128)) = ((S0 + rs a v (base + 2048) (base + 2560) : ℝ) : EReal) :=
  cast_val (acc (acc0 h0) hA4 hB4)

end

theorem k2_pay15_6_val (hA0 : ∀ k : Fin 512, v51 (ix2 p k) = ((a (7680 + k.val) : ℝ) : EReal))
    (hB0 : ∀ k : Fin 512, v53 (ix2 k (0 : Fin 128)) = ((v (7680 + k.val) : ℝ) : EReal))
    (hA1 : ∀ k : Fin 512, v57 (ix2 p k) = ((a (8192 + k.val) : ℝ) : EReal))
    (hB1 : ∀ k : Fin 512, v59 (ix2 k (0 : Fin 128)) = ((v (8192 + k.val) : ℝ) : EReal))
    (hA2 : ∀ k : Fin 512, v63 (ix2 p k) = ((a (8704 + k.val) : ℝ) : EReal))
    (hB2 : ∀ k : Fin 512, v65 (ix2 k (0 : Fin 128)) = ((v (8704 + k.val) : ℝ) : EReal))
    (hA3 : ∀ k : Fin 512, v69 (ix2 p k) = ((a (9216 + k.val) : ℝ) : EReal))
    (hB3 : ∀ k : Fin 512, v71 (ix2 k (0 : Fin 128)) = ((v (9216 + k.val) : ℝ) : EReal))
    (hA4 : ∀ k : Fin 512, k.val < 272 → v75 (ix2 p k) = ((a (9728 + k.val) : ℝ) : EReal))
    (hB4 : ∀ k : Fin 512, k.val < 272 → v82 (ix2 k (0 : Fin 128)) = ((v (9728 + k.val) : ℝ) : EReal)) :
    k2_pay15 (F := Ideal) (k2_pay6 (F := Ideal) v50 v51 v53 v57 v59 v63 v65 v69 v71) (k2_pay7 (F := Ideal) v75) v82 (ix2 p (0 : Fin 128)) = ((S0 + rs a v (7680) (10000) : ℝ) : EReal) :=
  cast_val (accM (acc (acc (acc (acc (acc0 h0) hA0 hB0) hA1 hB1) hA2 hB2) hA3 hB3) hA4 hB4)

theorem k2_pay8_val (hA1 : ∀ k : Fin 512, v51 (ix2 p k) = ((a (8192 + k.val) : ℝ) : EReal))
    (hB1 : ∀ k : Fin 512, v53 (ix2 k (0 : Fin 128)) = ((v (8192 + k.val) : ℝ) : EReal))
    (hA2 : ∀ k : Fin 512, v57 (ix2 p k) = ((a (8704 + k.val) : ℝ) : EReal))
    (hB2 : ∀ k : Fin 512, v59 (ix2 k (0 : Fin 128)) = ((v (8704 + k.val) : ℝ) : EReal))
    (hA3 : ∀ k : Fin 512, v63 (ix2 p k) = ((a (9216 + k.val) : ℝ) : EReal))
    (hB3 : ∀ k : Fin 512, v65 (ix2 k (0 : Fin 128)) = ((v (9216 + k.val) : ℝ) : EReal))
    (hA4 : ∀ k : Fin 512, k.val < 272 → v69 (ix2 p k) = ((a (9728 + k.val) : ℝ) : EReal))
    (hB4 : ∀ k : Fin 512, k.val < 272 → v76 (ix2 k (0 : Fin 128)) = ((v (9728 + k.val) : ℝ) : EReal)) :
    k2_pay8 (F := Ideal) v50 v51 v53 v57 v59 v63 v65 v69 v76 (ix2 p (0 : Fin 128)) = ((S0 + rs a v (8192) (10000) : ℝ) : EReal) :=
  cast_val (accM (acc (acc (acc (acc0 h0) hA1 hB1) hA2 hB2) hA3 hB3) hA4 hB4)

theorem k2_pay1_val (hA2 : ∀ k : Fin 512, v51 (ix2 p k) = ((a (8704 + k.val) : ℝ) : EReal))
    (hB2 : ∀ k : Fin 512, v53 (ix2 k (0 : Fin 128)) = ((v (8704 + k.val) : ℝ) : EReal))
    (hA3 : ∀ k : Fin 512, v57 (ix2 p k) = ((a (9216 + k.val) : ℝ) : EReal))
    (hB3 : ∀ k : Fin 512, v59 (ix2 k (0 : Fin 128)) = ((v (9216 + k.val) : ℝ) : EReal))
    (hA4 : ∀ k : Fin 512, k.val < 272 → v63 (ix2 p k) = ((a (9728 + k.val) : ℝ) : EReal))
    (hB4 : ∀ k : Fin 512, k.val < 272 → v70 (ix2 k (0 : Fin 128)) = ((v (9728 + k.val) : ℝ) : EReal)) :
    k2_pay1 (F := Ideal) v50 v51 v53 v57 v59 v63 v70 (ix2 p (0 : Fin 128)) = ((S0 + rs a v (8704) (10000) : ℝ) : EReal) :=
  cast_val (accM (acc (acc (acc0 h0) hA2 hB2) hA3 hB3) hA4 hB4)

theorem k2_pay2_val (hA3 : ∀ k : Fin 512, v51 (ix2 p k) = ((a (9216 + k.val) : ℝ) : EReal))
    (hB3 : ∀ k : Fin 512, v53 (ix2 k (0 : Fin 128)) = ((v (9216 + k.val) : ℝ) : EReal))
    (hA4 : ∀ k : Fin 512, k.val < 272 → v57 (ix2 p k) = ((a (9728 + k.val) : ℝ) : EReal))
    (hB4 : ∀ k : Fin 512, k.val < 272 → v64 (ix2 k (0 : Fin 128)) = ((v (9728 + k.val) : ℝ) : EReal)) :
    k2_pay2 (F := Ideal) v50 v51 v53 v57 v64 (ix2 p (0 : Fin 128)) = ((S0 + rs a v (9216) (10000) : ℝ) : EReal) :=
  cast_val (accM (acc (acc0 h0) hA3 hB3) hA4 hB4)

theorem k2_pay3_val (hA4 : ∀ k : Fin 512, k.val < 272 → v51 (ix2 p k) = ((a (9728 + k.val) : ℝ) : EReal))
    (hB4 : ∀ k : Fin 512, k.val < 272 → v58 (ix2 k (0 : Fin 128)) = ((v (9728 + k.val) : ℝ) : EReal)) :
    k2_pay3 (F := Ideal) v50 v51 v58 (ix2 p (0 : Fin 128)) = ((S0 + rs a v (9728) (10000) : ℝ) : EReal) :=
  cast_val (accM (acc0 h0) hA4 hB4)

end

include h1

theorem k2_pay10_5_col1 (hZ0 : ∀ k : Fin 512, v53 (ix2 k (1 : Fin 128)) = 0) (hZ1 : ∀ k : Fin 512, v59 (ix2 k (1 : Fin 128)) = 0) (hZ2 : ∀ k : Fin 512, v65 (ix2 k (1 : Fin 128)) = 0) (hZ3 : ∀ k : Fin 512, v71 (ix2 k (1 : Fin 128)) = 0) (hZ4 : ∀ k : Fin 512, v77 (ix2 k (1 : Fin 128)) = 0) :
    k2_pay10 (F := Ideal) (k2_pay5 (F := Ideal) v50 v51 v53 v57 v59 v63 v65 v69 v71 v75 v77) (ix2 p (1 : Fin 128)) = 0 :=
  cast_val (accZ (accZ (accZ (accZ (accZ h1 hZ0) hZ1) hZ2) hZ3) hZ4)

theorem k2_pay11_col1 (hZ1 : ∀ k : Fin 512, v53 (ix2 k (1 : Fin 128)) = 0) (hZ2 : ∀ k : Fin 512, v59 (ix2 k (1 : Fin 128)) = 0) (hZ3 : ∀ k : Fin 512, v65 (ix2 k (1 : Fin 128)) = 0) (hZ4 : ∀ k : Fin 512, v71 (ix2 k (1 : Fin 128)) = 0) :
    k2_pay11 (F := Ideal) v50 v51 v53 v57 v59 v63 v65 v69 v71 (ix2 p (1 : Fin 128)) = 0 :=
  cast_val (accZ (accZ (accZ (accZ h1 hZ1) hZ2) hZ3) hZ4)

theorem k2_pay12_col1 (hZ2 : ∀ k : Fin 512, v53 (ix2 k (1 : Fin 128)) = 0) (hZ3 : ∀ k : Fin 512, v59 (ix2 k (1 : Fin 128)) = 0) (hZ4 : ∀ k : Fin 512, v65 (ix2 k (1 : Fin 128)) = 0) :
    k2_pay12 (F := Ideal) v50 v51 v53 v57 v59 v63 v65 (ix2 p (1 : Fin 128)) = 0 :=
  cast_val (accZ (accZ (accZ h1 hZ2) hZ3) hZ4)

theorem k2_pay13_col1 (hZ3 : ∀ k : Fin 512, v53 (ix2 k (1 : Fin 128)) = 0) (hZ4 : ∀ k : Fin 512, v59 (ix2 k (1 : Fin 128)) = 0) :
    k2_pay13 (F := Ideal) v50 v51 v53 v57 v59 (ix2 p (1 : Fin 128)) = 0 :=
  cast_val (accZ (accZ h1 hZ3) hZ4)

theorem k2_pay14_col1 (hZ4 : ∀ k : Fin 512, v53 (ix2 k (1 : Fin 128)) = 0) :
    k2_pay14 (F := Ideal) v50 v51 v53 (ix2 p (1 : Fin 128)) = 0 :=
  cast_val (accZ h1 hZ4)

theorem k2_pay15_6_col1 (hZ0 : ∀ k : Fin 512, v53 (ix2 k (1 : Fin 128)) = 0) (hZ1 : ∀ k : Fin 512, v59 (ix2 k (1 : Fin 128)) = 0) (hZ2 : ∀ k : Fin 512, v65 (ix2 k (1 : Fin 128)) = 0) (hZ3 : ∀ k : Fin 512, v71 (ix2 k (1 : Fin 128)) = 0) (hZ4 : ∀ k : Fin 512, v82 (ix2 k (1 : Fin 128)) = 0) :
    k2_pay15 (F := Ideal) (k2_pay6 (F := Ideal) v50 v51 v53 v57 v59 v63 v65 v69 v71) (k2_pay7 (F := Ideal) v75) v82 (ix2 p (1 : Fin 128)) = 0 :=
  cast_val (accZ (accZ (accZ (accZ (accZ h1 hZ0) hZ1) hZ2) hZ3) hZ4)

theorem k2_pay8_col1 (hZ1 : ∀ k : Fin 512, v53 (ix2 k (1 : Fin 128)) = 0) (hZ2 : ∀ k : Fin 512, v59 (ix2 k (1 : Fin 128)) = 0) (hZ3 : ∀ k : Fin 512, v65 (ix2 k (1 : Fin 128)) = 0) (hZ4 : ∀ k : Fin 512, v76 (ix2 k (1 : Fin 128)) = 0) :
    k2_pay8 (F := Ideal) v50 v51 v53 v57 v59 v63 v65 v69 v76 (ix2 p (1 : Fin 128)) = 0 :=
  cast_val (accZ (accZ (accZ (accZ h1 hZ1) hZ2) hZ3) hZ4)

theorem k2_pay1_col1 (hZ2 : ∀ k : Fin 512, v53 (ix2 k (1 : Fin 128)) = 0) (hZ3 : ∀ k : Fin 512, v59 (ix2 k (1 : Fin 128)) = 0) (hZ4 : ∀ k : Fin 512, v70 (ix2 k (1 : Fin 128)) = 0) :
    k2_pay1 (F := Ideal) v50 v51 v53 v57 v59 v63 v70 (ix2 p (1 : Fin 128)) = 0 :=
  cast_val (accZ (accZ (accZ h1 hZ2) hZ3) hZ4)

theorem k2_pay2_col1 (hZ3 : ∀ k : Fin 512, v53 (ix2 k (1 : Fin 128)) = 0) (hZ4 : ∀ k : Fin 512, v64 (ix2 k (1 : Fin 128)) = 0) :
    k2_pay2 (F := Ideal) v50 v51 v53 v57 v64 (ix2 p (1 : Fin 128)) = 0 :=
  cast_val (accZ (accZ h1 hZ3) hZ4)

theorem k2_pay3_col1 (hZ4 : ∀ k : Fin 512, v58 (ix2 k (1 : Fin 128)) = 0) :
    k2_pay3 (F := Ideal) v50 v51 v58 (ix2 p (1 : Fin 128)) = 0 :=
  cast_val (accZ h1 hZ4)

end Steps

section Closing
variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

theorem partRow_add_rs (n : ℕ) (r : Fin 10000) :
    Shared.partRow adj x W1 b1 W2 b2 Wlin blin n r
        + rs (extN (adj r)) (extN (Spec.v adj x W1 b1 W2 Wlin)) (512 * n) 10000
      = Spec.outK adj x W1 b1 W2 b2 Wlin blin r := by
  unfold Shared.partRow Spec.outK rs
  simp only [extN_val]
  rw [add_right_comm, ← Finset.sum_add_distrib]
  refine congrArg (· + _) (Finset.sum_congr rfl fun k _ => ?_)
  by_cases h : k.val < 512 * n
  · rw [if_pos h, if_neg (by omega), add_zero]
  · rw [if_neg h, if_pos ⟨by omega, k.isLt⟩, zero_add]

theorem k2_pay4_outK (n : ℕ) (r : Fin 10000) (p : Fin 512) (v50 : Vec Ideal S512x1 .f32) (v52 : Vec Ideal S512x128 .f32)
    (hP : v50 (ix2 p (0 : Fin 1)) = ((Shared.partRow adj x W1 b1 W2 b2 Wlin blin n r : ℝ) : EReal))
    (h0 : v52 (ix2 p (0 : Fin 128))
      = ((rs (extN (adj r)) (extN (Spec.v adj x W1 b1 W2 Wlin)) (512 * n) 10000 : ℝ) : EReal))
    (h1 : v52 (ix2 p (1 : Fin 128)) = 0) :
    k2_pay4 (F := Ideal) v50 v52 (ix2 p (0 : Fin 1)) = ((Spec.outK adj x W1 b1 W2 b2 Wlin blin r : ℝ) : EReal) := by
  rw [k2_pay4_apply, hP, h0, h1, add_zero, ← EReal.coe_add, partRow_add_rs]

theorem vwAt20_col0 (n : ℕ) (h : n < 10240) (hn : n < 10000) :
    Shared.vwAt adj x W1 b1 W2 Wlin 20 (ix2 (⟨n, h⟩ : Fin 10240) (0 : Fin 128))
      = ((extN (Spec.v adj x W1 b1 W2 Wlin) n : ℝ) : EReal) :=
  (dif_pos hn).trans ((if_pos ⟨h, rfl⟩).trans (congrArg _ (extN_of_lt _ n hn).symm))

theorem vwAt20_col0_ge (n : ℕ) (h : n < 10240) (hn : 10000 ≤ n) :
    Shared.vwAt adj x W1 b1 W2 Wlin 20 (ix2 (⟨n, h⟩ : Fin 10240) (0 : Fin 128)) = 0 :=
  dif_neg (Nat.not_lt.2 hn)

theorem vwAt20_col_pos (n : ℕ) (h : n < 10240) (c : Fin 128) (hc : c.val ≠ 0) :
    Shared.vwAt adj x W1 b1 W2 Wlin 20 (ix2 (⟨n, h⟩ : Fin 10240) c) = 0 := by
  by_cases hn : n < 10000
  · exact (dif_pos hn).trans (if_neg fun hh => hc hh.2)
  · exact dif_neg hn

end Closing

end Cert.KernelIdeal.R2Value

end
-- ==== Proof.R2DatFinds.lean ====
import proofs.«121951_g22909355557424_cont_8to1_1761_16_alg».proof.Proof.R2DatDefs
import proofs.«121951_g22909355557424_cont_8to1_1761_16_alg».proof.Proof.R2Value

set_option maxRecDepth 16384

noncomputable section

namespace Cert.KernelIdeal.R2Dat

open Cert.KernelIdeal Cert.KernelIdeal.Gen Cert.KernelIdeal.R2Value
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {U : Type} [URA U]

local notation "𝕄" => MT nD τ sig Unit (Elt Ideal) ℕ U ℕ

def cbOf (n : ℕ) : ℕ := min (max (n % 4) (n / 20)) 3

theorem cbOf_le (n : ℕ) : cbOf n ≤ 3 := Nat.min_le_right _ _

theorem coords2 : ∀ t : Fin grid2.N, (grid2.coords t 0).val = t.val / 4 ∧ (grid2.coords t 1).val = t.val % 4 := by decide +kernel

theorem tr2_0 : ∀ t : Fin grid2.N, cc2_transform_0 (grid2.coords t) 0 = t.val / 4 ∧ cc2_transform_0 (grid2.coords t) 1 = cbOf t.val := by
  decide +kernel
theorem tr2_1 : ∀ t : Fin grid2.N, cc2_transform_1 (grid2.coords t) 0 = cbOf t.val ∧ cc2_transform_1 (grid2.coords t) 1 = 0 := by
  decide +kernel
theorem tr2_2 : ∀ t : Fin grid2.N, cc2_transform_2 (grid2.coords t) 0 = t.val / 4 ∧ cc2_transform_2 (grid2.coords t) 1 = 0 := by
  decide +kernel
theorem Clip.lt_extent_iff {ix k d : ℕ} {c : Pipeline.Clip} (h : Pipeline.Clip.Ok ix k d c) {j : ℕ} (hj : j < k) :
    j < c.extent k ↔ ix * k + j < d := by
  cases c with
  | none =>
    have h' : (ix + 1) * k ≤ d := h
    have : (ix + 1) * k = ix * k + k := Nat.succ_mul ix k
    exact ⟨fun _ => by omega, fun _ => hj⟩
  | some n =>
    have h' : 0 < n ∧ n < k ∧ ix * k + n = d := h
    show j < n ↔ _
    omega

theorem fill_apply_of_lt {sig : RefSig} {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

variable (c : Dev nD) (V : (b : Ref sig .tc) → Buf (Elt Ideal) ((c : Thread nD τ).loc b))

theorem after2_in (w : Fin cfg2.W) (hw : w ≠ 3) (t : Fin cfg2.N) (Y X)
    (h : (rd2 (U := U) adj x W1 b1 W2 b2 Wlin blin c V).after w t Y X) : X = Y := by
  fin_cases w
  · exact h
  · exact h
  · exact h
  · exact absurd rfl hw

theorem hclip2_0 (t t' : Fin cfg2.N) (h : (cfg2.win 0).index t = (cfg2.win 0).index t') :
    (cfg2.win 0).clip (cfg2.grid.coords t) = (cfg2.win 0).clip (cfg2.grid.coords t') := by
  have h' : cc2_transform_0 (grid2.coords t) = cc2_transform_0 (grid2.coords t') := h
  show (fun a => Pipeline.Clip.of (cc2_transform_0 (grid2.coords t) a) _ _) = fun a => Pipeline.Clip.of (cc2_transform_0 (grid2.coords t') a) _ _
  rw [h']

theorem finds2_fetched (w : Fin cfg2.W) (hw : w ≠ 3) (t : Fin cfg2.N) (Y)
    (hY : (rd2 (U := U) adj x W1 b1 W2 b2 Wlin blin c V).Finds w t Y) :
    ∃ d, Y = (rd2 (U := U) adj x W1 b1 W2 b2 Wlin blin c V).fetched w t d := by
  have hin : (cfg2.win w).isOut = false := by
    fin_cases w
    · rfl
    · rfl
    · rfl
    · exact absurd rfl hw
  refine Pipeline.RDat.finds_in_eq_fetched _ w hin ?_ (fun t Y X h => after2_in adj x W1 b1 W2 b2 Wlin blin c V w hw t Y X h) t Y hY
  fin_cases w
  · exact hclip2_0
  · exact fun _ _ _ => rfl
  · exact fun _ _ _ => rfl
  · exact absurd rfl hw

theorem finds2_0 (hV : Good2 adj x W1 b1 W2 b2 Wlin blin V) (t : Fin cfg2.N) (Y : Vec Ideal S512x2560 .f32)
    (hY : (rd2 (U := U) adj x W1 b1 W2 b2 Wlin blin c V).Finds 0 t Y) (p : Fin 512) (k : Fin 2560)
    (hp : 512 * (t.val / 4) + p.val < 10000) (hk : 2560 * cbOf t.val + k.val < 10000) :
    Y (ix2 p k) = ((adj ⟨512 * (t.val / 4) + p.val, hp⟩ ⟨2560 * cbOf t.val + k.val, hk⟩ : ℝ) : EReal) := by
  obtain ⟨d, rfl⟩ := finds2_fetched adj x W1 b1 W2 b2 Wlin blin c V 0 (by decide) t Y hY
  have hlt : ∀ a : Fin 2, ((ix2 p k : S512x2560.Idx) a).val < (cfg2.win 0).xsize (cfg2.grid.coords t) a := by
    refine Fin.forall_fin_two.mpr ⟨?_, ?_⟩
    · refine (Clip.lt_extent_iff ((cfg2.win 0).hclip (cfg2.grid.coords t) 0) p.isLt).mpr ?_
      show cc2_transform_0 (grid2.coords t) 0 * 512 + p.val < 10000
      rw [(tr2_0 t).1]; omega
    · refine (Clip.lt_extent_iff ((cfg2.win 0).hclip (cfg2.grid.coords t) 1) k.isLt).mpr ?_
      show cc2_transform_0 (grid2.coords t) 1 * 2560 + k.val < 10000
      rw [(tr2_0 t).2]; omega
  unfold RDat.fetched
  rw [fill_apply_of_lt (cfg2.win 0) _ _ _ (ix2 p k) hlt]
  have e : ((cfg2.win 0).rect t).emb (fun a => ⟨((ix2 p k : S512x2560.Idx) a).val, hlt a⟩)
      = (ix2 (⟨512 * (t.val / 4) + p.val, hp⟩ : Fin 10000) (⟨2560 * cbOf t.val + k.val, hk⟩ : Fin 10000) : S10000x10000.Idx) := by
    funext a
    revert a
    refine Fin.forall_fin_two.mpr ⟨?_, ?_⟩
    · apply Fin.ext
      show cc2_transform_0 (grid2.coords t) 0 * 512 + 1 * p.val = 512 * (t.val / 4) + p.val
      rw [(tr2_0 t).1]; omega
    · apply Fin.ext
      show cc2_transform_0 (grid2.coords t) 1 * 2560 + 1 * k.val = 2560 * cbOf t.val + k.val
      rw [(tr2_0 t).2]; omega
  show (V main_arg0 : Vec Ideal S10000x10000 .f32) (((cfg2.win 0).rect t).emb _) = _
  rw [e]
  exact hV.hadj _ _

theorem finds2_1 (hV : Good2 adj x W1 b1 W2 b2 Wlin blin V) (t : Fin cfg2.N) (Y : Vec Ideal S2560x128 .bf16)
    (hY : (rd2 (U := U) adj x W1 b1 W2 b2 Wlin blin c V).Finds 1 t Y) (k : Fin 2560) (q : Fin 128)
    (hk : 2560 * cbOf t.val + k.val < 10240) :
    Y (ix2 k q) = Shared.vwAt adj x W1 b1 W2 Wlin 20 (ix2 (⟨2560 * cbOf t.val + k.val, hk⟩ : Fin 10240) q) := by
  obtain ⟨d, rfl⟩ := finds2_fetched adj x W1 b1 W2 b2 Wlin blin c V 1 (by decide) t Y hY
  have hlt : ∀ a : Fin 2, ((ix2 k q : S2560x128.Idx) a).val < (cfg2.win 1).xsize (cfg2.grid.coords t) a :=
    Fin.forall_fin_two.mpr ⟨k.isLt, q.isLt⟩
  unfold RDat.fetched
  rw [fill_apply_of_lt (cfg2.win 1) _ _ _ (ix2 k q) hlt]
  have e : ((cfg2.win 1).rect t).emb (fun a => ⟨((ix2 k q : S2560x128.Idx) a).val, hlt a⟩)
      = (ix2 (⟨2560 * cbOf t.val + k.val, hk⟩ : Fin 10240) q : S10240x128.Idx) := by
    funext a
    revert a
    refine Fin.forall_fin_two.mpr ⟨?_, ?_⟩
    · apply Fin.ext
      show cc2_transform_1 (grid2.coords t) 0 * 2560 + 1 * k.val = 2560 * cbOf t.val + k.val
      rw [(tr2_1 t).1]; omega
    · apply Fin.ext
      show cc2_transform_1 (grid2.coords t) 1 * 128 + 1 * q.val = q.val
      rw [(tr2_1 t).2]; omega
  show (V main_v4_0 : Vec Ideal S10240x128 .bf16) (((cfg2.win 1).rect t).emb _) = _
  rw [e, hV.hvw]

theorem finds2_2 (hV : Good2 adj x W1 b1 W2 b2 Wlin blin V) (t : Fin cfg2.N) (Y : Vec Ideal S512x1 .f32)
    (hY : (rd2 (U := U) adj x W1 b1 W2 b2 Wlin blin c V).Finds 2 t Y) (p : Fin 512)
    (hp : 512 * (t.val / 4) + p.val < 10000) :
    Y (ix2 p (0 : Fin 1))
      = ((Shared.partRow adj x W1 b1 W2 b2 Wlin blin (t.val / 4) ⟨512 * (t.val / 4) + p.val, hp⟩ : ℝ) : EReal) := by
  obtain ⟨d, rfl⟩ := finds2_fetched adj x W1 b1 W2 b2 Wlin blin c V 2 (by decide) t Y hY
  have hlt : ∀ a : Fin 2, ((ix2 p (0 : Fin 1) : S512x1.Idx) a).val < (cfg2.win 2).xsize (cfg2.grid.coords t) a :=
    Fin.forall_fin_two.mpr ⟨p.isLt, (0 : Fin 1).isLt⟩
  unfold RDat.fetched
  rw [fill_apply_of_lt (cfg2.win 2) _ _ _ (ix2 p (0 : Fin 1)) hlt]
  have e : ((cfg2.win 2).rect t).emb (fun a => ⟨((ix2 p (0 : Fin 1) : S512x1.Idx) a).val, hlt a⟩)
      = (ix2 (⟨512 * (t.val / 4) + p.val, by omega⟩ : Fin 10240) (0 : Fin 1) : S10240x1.Idx) := by
    funext a
    revert a
    refine Fin.forall_fin_two.mpr ⟨?_, ?_⟩
    · apply Fin.ext
      show cc2_transform_2 (grid2.coords t) 0 * 512 + 1 * p.val = 512 * (t.val / 4) + p.val
      rw [(tr2_2 t).1]; omega
    · apply Fin.ext
      show cc2_transform_2 (grid2.coords t) 1 * 1 + 1 * 0 = 0
      rw [(tr2_2 t).2]
  show (V main_v4_1 : Vec Ideal S10240x1 .f32) (((cfg2.win 2).rect t).emb _) = _
  rw [e]
  have hdiv : (512 * (t.val / 4) + p.val) / 512 = t.val / 4 := by omega
  exact (hV.hpart ⟨512 * (t.val / 4) + p.val, hp⟩).trans
    (congrArg (fun n => ((Shared.partRow adj x W1 b1 W2 b2 Wlin blin n ⟨512 * (t.val / 4) + p.val, hp⟩ : ℝ) : EReal)) hdiv)

theorem accRow_eq_rs (ib jc : ℕ) (r : Fin 10000) :
    accRow adj x W1 b1 W2 Wlin ib jc r
      = rs (extN (adj r)) (extN (Spec.v adj x W1 b1 W2 Wlin)) (512 * ib) (min (2560 * jc) 10000) := by
  unfold accRow rs
  refine Finset.sum_congr rfl fun k _ => ?_
  rw [extN_val, extN_val]

theorem ld_cols {α : Type} (Y : S512x2560.Idx → α) (off : ℕ) (inb : ∀ a, (![0, off] : Fin 2 → ℕ) a + S512x512.size a ≤ S512x2560.size a)
    (p k : Fin 512) (h : off + k.val < 2560) :
    Y ((Rect.unit (s := S512x2560) ![0, off] S512x512.size inb).idx (ix2 p k)) = Y (ix2 p (⟨off + k.val, h⟩ : Fin 2560)) := by
  congr 1
  funext a
  revert a
  refine Fin.forall_fin_two.mpr ⟨?_, ?_⟩
  · apply Fin.ext
    show 0 + 1 * p.val = p.val
    omega
  · apply Fin.ext
    show off + 1 * k.val = off + k.val
    omega

theorem ld_rows {α : Type} (Y : S2560x128.Idx → α) (off : ℕ) (inb : ∀ a, (![off, 0] : Fin 2 → ℕ) a + S512x128.size a ≤ S2560x128.size a)
    (k : Fin 512) (q : Fin 128) (h : off + k.val < 2560) :
    Y ((Rect.unit (s := S2560x128) ![off, 0] S512x128.size inb).idx (ix2 k q)) = Y (ix2 (⟨off + k.val, h⟩ : Fin 2560) q) := by
  congr 1
  funext a
  revert a
  refine Fin.forall_fin_two.mpr ⟨?_, ?_⟩
  · apply Fin.ext
    show off + 1 * k.val = off + k.val
    omega
  · apply Fin.ext
    show 0 + 1 * q.val = q.val
    omega

variable {adj x W1 b1 W2 b2 Wlin blin c V} (hV : Good2 adj x W1 b1 W2 b2 Wlin blin V) {t : Fin cfg2.N} {X2 : Vec Ideal S512x2560 .f32}
  {X3 : Vec Ideal S2560x128 .bf16} (h2 : (rd2 (U := U) adj x W1 b1 W2 b2 Wlin blin c V).Finds 0 t X2) (h3 : (rd2 (U := U) adj x W1 b1 W2 b2 Wlin blin c V).Finds 1 t X3)
include hV h2 h3

/-- Sub-slice `off` of the two operand blocks, from column `n = 2560·cb + off` on: the matrix row, the nodes' numbers, and a zero column. -/
theorem sub {p : Fin 512} (hp : 512 * (t.val / 4) + p.val < 10000) (off : ℕ) {n : ℕ} (hn : 2560 * cbOf t.val + off = n)
    (i2 : ∀ a, (![0, off] : Fin 2 → ℕ) a + S512x512.size a ≤ S512x2560.size a := by decide)
    (i3 : ∀ a, (![off, 0] : Fin 2 → ℕ) a + S512x128.size a ≤ S2560x128.size a := by decide) :
    (∀ k : Fin 512, n + k.val < 10000 → View.ld X2 (Rect.unit (s := S512x2560) ![0, off] S512x512.size i2) (ix2 p k)
        = ((extN (adj ⟨512 * (t.val / 4) + p.val, hp⟩) (n + k.val) : ℝ) : EReal))
      ∧ (∀ k : Fin 512, View.ld X3 (Rect.unit (s := S2560x128) ![off, 0] S512x128.size i3) (ix2 k (0 : Fin 128))
        = ((extN (Spec.v adj x W1 b1 W2 Wlin) (n + k.val) : ℝ) : EReal))
      ∧ ∀ k : Fin 512, View.ld X3 (Rect.unit (s := S2560x128) ![off, 0] S512x128.size i3) (ix2 k (1 : Fin 128)) = 0 := by
  subst hn
  have hoff : off + 512 ≤ 2560 := i2 1
  have hc := cbOf_le t.val
  refine ⟨fun k hk => ?_, fun k => ?_, fun k => ?_⟩
  · have hkl := k.isLt
    show X2 ((Rect.unit (s := S512x2560) ![0, off] S512x512.size i2).idx (ix2 p k)) = _
    rw [ld_cols X2 off i2 p k (by omega),
      finds2_0 adj x W1 b1 W2 b2 Wlin blin c V hV t X2 h2 p ⟨off + k.val, by omega⟩ hp (by show 2560 * cbOf t.val + (off + k.val) < 10000; omega),
      extN_of_lt _ _ hk]
    congr 3
    show 2560 * cbOf t.val + (off + k.val) = 2560 * cbOf t.val + off + k.val
    omega
  · have hkl := k.isLt
    show X3 ((Rect.unit (s := S2560x128) ![off, 0] S512x128.size i3).idx (ix2 k (0 : Fin 128))) = _
    rw [ld_rows X3 off i3 k 0 (by omega),
      finds2_1 adj x W1 b1 W2 b2 Wlin blin c V hV t X3 h3 ⟨off + k.val, by omega⟩ 0 (by show 2560 * cbOf t.val + (off + k.val) < 10240; omega)]
    have e : (2560 * cbOf t.val + (off + k.val)) = 2560 * cbOf t.val + off + k.val := by omega
    by_cases hn : 2560 * cbOf t.val + (off + k.val) < 10000
    · rw [vwAt20_col0 adj x W1 b1 W2 Wlin (2560 * cbOf t.val + (off + k.val)) _ hn, e]
    · rw [vwAt20_col0_ge adj x W1 b1 W2 Wlin (2560 * cbOf t.val + (off + k.val)) _ (by omega), ← e]
      unfold extN; rw [dif_neg hn]; rfl
  · have hkl := k.isLt
    show X3 ((Rect.unit (s := S2560x128) ![off, 0] S512x128.size i3).idx (ix2 k (1 : Fin 128))) = _
    rw [ld_rows X3 off i3 k 1 (by omega),
      finds2_1 adj x W1 b1 W2 b2 Wlin blin c V hV t X3 h3 ⟨off + k.val, by omega⟩ 1 (by show 2560 * cbOf t.val + (off + k.val) < 10240; omega)]
    exact vwAt20_col_pos adj x W1 b1 W2 Wlin _ _ 1 (by decide)

end Cert.KernelIdeal.R2Dat

end
-- ==== Proof.R2RunConds.lean ====
import proofs.«121951_g22909355557424_cont_8to1_1761_16_alg».proof.Proof.Gen.KernelIdeal.Skeleton
import Idealize.ShloMosaic.Lib.Tactic

namespace Cert.KernelIdeal.R2Run

open Idealize.ShloMosaic

abbrev tst (x : BitVec 1) : Prop := Scalar.cmpi .ne (Scalar.extui x : BitVec 32) 0#32 = 1#1
abbrev q0 (i : grid2.Coords) : BitVec 32 := Scalar.subi (BitVec.ofNat 32 (i 0).val) (Scalar.muli 5#32 (BitVec.ofNat 32 (i 1).val))
abbrev lt3 (i : grid2.Coords) : BitVec 1 := Scalar.cmpi .slt (BitVec.ofNat 32 (i 1).val) 3#32
abbrev eq3 (i : grid2.Coords) : BitVec 1 := Scalar.cmpi .eq (BitVec.ofNat 32 (i 1).val) 3#32

/-- The body's twelve branch conditions, in program order, as arithmetic on the row block `i 0 < 20` and the column block `i 1 < 4`: by enumeration of the grid. -/
theorem conds_iff : ∀ i : grid2.Coords,
    (tst (Scalar.cmpi .eq (BitVec.ofNat 32 (i 1).val) 0#32) ↔ (i 1).val = 0) ∧
    (tst (Scalar.andi (lt3 i) (Scalar.cmpi .sle (q0 i) 0#32)) ↔ (i 1).val < 3 ∧ (i 0).val ≤ 5 * (i 1).val) ∧
    (tst (Scalar.andi (lt3 i) (Scalar.cmpi .eq (q0 i) 1#32)) ↔ (i 1).val < 3 ∧ (i 0).val = 5 * (i 1).val + 1) ∧
    (tst (Scalar.andi (lt3 i) (Scalar.cmpi .eq (q0 i) 2#32)) ↔ (i 1).val < 3 ∧ (i 0).val = 5 * (i 1).val + 2) ∧
    (tst (Scalar.andi (lt3 i) (Scalar.cmpi .eq (q0 i) 3#32)) ↔ (i 1).val < 3 ∧ (i 0).val = 5 * (i 1).val + 3) ∧
    (tst (Scalar.andi (lt3 i) (Scalar.cmpi .eq (q0 i) 4#32)) ↔ (i 1).val < 3 ∧ (i 0).val = 5 * (i 1).val + 4) ∧
    (tst (Scalar.andi (eq3 i) (Scalar.cmpi .sle (q0 i) 0#32)) ↔ (i 1).val = 3 ∧ (i 0).val ≤ 15) ∧
    (tst (Scalar.andi (eq3 i) (Scalar.cmpi .eq (q0 i) 1#32)) ↔ (i 1).val = 3 ∧ (i 0).val = 16) ∧
    (tst (Scalar.andi (eq3 i) (Scalar.cmpi .eq (q0 i) 2#32)) ↔ (i 1).val = 3 ∧ (i 0).val = 17) ∧
    (tst (Scalar.andi (eq3 i) (Scalar.cmpi .eq (q0 i) 3#32)) ↔ (i 1).val = 3 ∧ (i 0).val = 18) ∧
    (tst (Scalar.andi (eq3 i) (Scalar.cmpi .eq (q0 i) 4#32)) ↔ (i 1).val = 3 ∧ (i 0).val = 19) ∧
    (k2_cond12 i = 1#1 ↔ (i 1).val = 3) := by decide +kernel

end Cert.KernelIdeal.R2Run
-- ==== Proof.R2RunDefs.lean ====
import proofs.«121951_g22909355557424_cont_8to1_1761_16_alg».proof.Proof.R2RunConds
import Idealize.ShloMosaic.Lib.Pipeline.FrameBody
import Idealize.ShloMosaic.Lib.Pipeline.Value
import Idealize.ShloMosaic.Lib.Tactic

noncomputable section

namespace Cert.KernelIdeal.R2Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] {U : Type} [URA U]

local notation "𝕄" => MT nD τ sig Unit (Elt F) ℕ U ℕ

theorem hz2 : (![0, 0] : Fin 2 → ℕ) = fun _ => 0 := by decide

/-- The whole-shape rectangle covers every index, so the piece stored last decides what is read. -/
theorem read_writes_cons_unit_zero {sig : RefSig} {κ : Kind} {sp : Space} {S : Shape} {e : EltTy} {Val : EltTy → Type}
    [∀ e, Nonempty (Val e)] (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨⟨Rect.unit off S.size inb, w⟩, List.mem_cons_self, View.mem_set_unit_zero h inb y⟩)).trans
    (View.canon_cons_unit_zero h inb w L)

abbrev A0 (X2 : Vec F S512x2560 .f32) : Vec F S512x512 .f32 := View.ld X2 (Rect.unit (s := S512x2560) ![0, 0] S512x512.size inb_S512x2560_S512x512_0_0)
abbrev A1 (X2 : Vec F S512x2560 .f32) : Vec F S512x512 .f32 := View.ld X2 (Rect.unit (s := S512x2560) ![0, 512] S512x512.size inb_S512x2560_S512x512_0_512)
abbrev A2 (X2 : Vec F S512x2560 .f32) : Vec F S512x512 .f32 := View.ld X2 (Rect.unit (s := S512x2560) ![0, 1024] S512x512.size inb_S512x2560_S512x512_0_1024)
abbrev A3 (X2 : Vec F S512x2560 .f32) : Vec F S512x512 .f32 := View.ld X2 (Rect.unit (s := S512x2560) ![0, 1536] S512x512.size inb_S512x2560_S512x512_0_1536)
abbrev A4 (X2 : Vec F S512x2560 .f32) : Vec F S512x512 .f32 := View.ld X2 (Rect.unit (s := S512x2560) ![0, 2048] S512x512.size inb_S512x2560_S512x512_0_2048)
abbrev V0 (X3 : Vec F S2560x128 .bf16) : Vec F S512x128 .bf16 := View.ld X3 (Rect.unit (s := S2560x128) ![0, 0] S512x128.size inb_S2560x128_S512x128_0_0)
abbrev V1 (X3 : Vec F S2560x128 .bf16) : Vec F S512x128 .bf16 := View.ld X3 (Rect.unit (s := S2560x128) ![512, 0] S512x128.size inb_S2560x128_S512x128_512_0)
abbrev V2 (X3 : Vec F S2560x128 .bf16) : Vec F S512x128 .bf16 := View.ld X3 (Rect.unit (s := S2560x128) ![1024, 0] S512x128.size inb_S2560x128_S512x128_1024_0)
abbrev V3 (X3 : Vec F S2560x128 .bf16) : Vec F S512x128 .bf16 := View.ld X3 (Rect.unit (s := S2560x128) ![1536, 0] S512x128.size inb_S2560x128_S512x128_1536_0)
abbrev V4 (X3 : Vec F S2560x128 .bf16) : Vec F S512x128 .bf16 := View.ld X3 (Rect.unit (s := S2560x128) ![2048, 0] S512x128.size inb_S2560x128_S512x128_2048_0)

abbrev accAll (acc : Vec F S512x128 .f32) (X2 : Vec F S512x2560 .f32) (X3 : Vec F S2560x128 .bf16) : Vec F S512x128 .f32 :=
  k2_pay10 (k2_pay5 acc (A0 X2) (V0 X3) (A1 X2) (V1 X3) (A2 X2) (V2 X3) (A3 X2) (V3 X3) (A4 X2) (V4 X3))

abbrev accFrom1 (acc : Vec F S512x128 .f32) (X2 : Vec F S512x2560 .f32) (X3 : Vec F S2560x128 .bf16) : Vec F S512x128 .f32 :=
  k2_pay11 acc (A1 X2) (V1 X3) (A2 X2) (V2 X3) (A3 X2) (V3 X3) (A4 X2) (V4 X3)

abbrev accFrom2 (acc : Vec F S512x128 .f32) (X2 : Vec F S512x2560 .f32) (X3 : Vec F S2560x128 .bf16) : Vec F S512x128 .f32 :=
  k2_pay12 acc (A2 X2) (V2 X3) (A3 X2) (V3 X3) (A4 X2) (V4 X3)

abbrev accFrom3 (acc : Vec F S512x128 .f32) (X2 : Vec F S512x2560 .f32) (X3 : Vec F S2560x128 .bf16) : Vec F S512x128 .f32 :=
  k2_pay13 acc (A3 X2) (V3 X3) (A4 X2) (V4 X3)

abbrev accFrom4 (acc : Vec F S512x128 .f32) (X2 : Vec F S512x2560 .f32) (X3 : Vec F S2560x128 .bf16) : Vec F S512x128 .f32 :=
  k2_pay14 acc (A4 X2) (V4 X3)

abbrev edgeAll (acc : Vec F S512x128 .f32) (X2 : Vec F S512x2560 .f32) (X3 : Vec F S2560x128 .bf16) : Vec F S512x128 .f32 :=
  k2_pay15 (k2_pay6 acc (A0 X2) (V0 X3) (A1 X2) (V1 X3) (A2 X2) (V2 X3) (A3 X2) (V3 X3)) (k2_pay7 (A4 X2)) (V4 X3)

abbrev edgeFrom1 (acc : Vec F S512x128 .f32) (X2 : Vec F S512x2560 .f32) (X3 : Vec F S2560x128 .bf16) : Vec F S512x128 .f32 :=
  k2_pay8 acc (A1 X2) (V1 X3) (A2 X2) (V2 X3) (A3 X2) (V3 X3) (A4 X2) (V4 X3)

abbrev edgeFrom2 (acc : Vec F S512x128 .f32) (X2 : Vec F S512x2560 .f32) (X3 : Vec F S2560x128 .bf16) : Vec F S512x128 .f32 :=
  k2_pay1 acc (A2 X2) (V2 X3) (A3 X2) (V3 X3) (A4 X2) (V4 X3)

abbrev edgeFrom3 (acc : Vec F S512x128 .f32) (X2 : Vec F S512x2560 .f32) (X3 : Vec F S2560x128 .bf16) : Vec F S512x128 .f32 :=
  k2_pay2 acc (A3 X2) (V3 X3) (A4 X2) (V4 X3)

abbrev edgeFrom4 (acc : Vec F S512x128 .f32) (X2 : Vec F S512x2560 .f32) (X3 : Vec F S2560x128 .bf16) : Vec F S512x128 .f32 :=
  k2_pay3 acc (A4 X2) (V4 X3)

abbrev outOf (X4 : Vec F S512x1 .f32) (acc : Vec F S512x128 .f32) : Vec F S512x1 .f32 := k2_pay4 X4 acc

abbrev acc0 : Vec F S512x128 .f32 := k2_pay9 (F := F)

def Held (c : Dev nD) (arg2 : Memref sig .tc .vmem S512x2560 .f32) (arg3 : Memref sig .tc .vmem S2560x128 .bf16) (arg4 : Memref sig .tc .vmem S512x1 .f32) (arg5 : Memref sig .tc .vmem S512x1 .f32) (arg6 : Memref sig .tc .vmem S512x128 .f32)
    (X2 : Vec F S512x2560 .f32) (X3 : Vec F S2560x128 .bf16) (X4 : Vec F S512x1 .f32) (X5 : Vec F S512x1 .f32) (X6 : Vec F S512x128 .f32) : sProp 𝕄 :=
  iprop(owns (c : Thread nD τ) arg2 fullShare X2 ∗ owns (c : Thread nD τ) arg3 fullShare X3 ∗ owns (c : Thread nD τ) arg4 fullShare X4
    ∗ owns (c : Thread nD τ) arg5 fullShare X5 ∗ owns (c : Thread nD τ) arg6 fullShare X6)

def Triple (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (X2 : Vec F S512x2560 .f32) (X3 : Vec F S2560x128 .bf16) (X4 : Vec F S512x1 .f32) (X5 : Vec F S512x1 .f32) (X6 : Vec F S512x128 .f32) (Y5 : Vec F S512x1 .f32) (Y6 : Vec F S512x128 .f32) : Prop :=
  ∀ (E : Set ℕ) (K : PUnit → sProp 𝕄),
    iprop(Held (U := U) c arg2 arg3 arg4 arg5 arg6 X2 X3 X4 X5 X6 ∗ (Held (U := U) c arg2 arg3 arg4 arg5 arg6 X2 X3 X4 Y5 Y6 -∗ K ⟨⟩))
      ⊢ wp frame (wpE (defs₀ (F := F)) Variants.none c none) E (cc2_body i arg2 harg2 arg3 harg3 arg4 harg4 arg5 harg5 arg6 harg6) K

/-- A buffer is handed back at what it reads: its contents as found if nothing was stored into it, else the last store's payload over those contents. -/
macro "r2_held " h:ident H:ident : tactic => `(tactic| (
  iexists _; isplitr; swap; (· iexact $H); ipureintro
  first
    | exact Memref.IsWhole.read_unread $h _
    | (refine (read_writes_cons_unit_zero _ _ hz2 _ _ _).trans ?_
       sl_unfold_words
       first
         | rfl
         | (simp only [View.readAt_eq_ld, Memref.IsWhole.read_unread, View.readCov_unit_zero (S := S512x128) _ hz2,
             View.ld_unit_zero (S := S512x128) hz2, View.ld_unit_zero (S := S512x1) hz2]
            try rfl))))

set_option hygiene false in
/-- Runs the body along the control path the grid point's coordinates fix, each branch condition decided through its closed form. -/
macro "r2_run" : tactic => `(tactic| (
  intro E K
  have ha : (i 0).val < 20 := (i 0).isLt
  have hb : (i 1).val < 4 := (i 1).isLt
  obtain ⟨e1, e2, e3, e4, e5, e6, e7, e8, e9, e10, e11, e12⟩ := conds_iff i
  simp only [cc2_body_eq_skeleton]; unfold cc2_body_skel
  unfold Held owns
  iintro ⟨⟨⟨%f2, %hf2, H2⟩, ⟨%f3, %hf3, H3⟩, ⟨%f4, %hf4, H4⟩, ⟨%f5, %hf5, H5⟩, ⟨%f6, %hf6, H6⟩⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact Iff.mpr ‹_› (by omega) | exact mt (Iff.mp ‹_›) (by omega))
  sl_step
  iapply Hk
  isplitl [H2]; (· r2_held harg2 H2)
  isplitl [H3]; (· r2_held harg3 H3)
  isplitl [H4]; (· r2_held harg4 H4)
  isplitl [H5]; (· r2_held harg5 H5)
  r2_held harg6 H6))

end Cert.KernelIdeal.R2Run

end
-- ==== Proof.R2DatStep.lean ====
import proofs.«121951_g22909355557424_cont_8to1_1761_16_alg».proof.Proof.R2DatFinds
import proofs.«121951_g22909355557424_cont_8to1_1761_16_alg».proof.Proof.R2RunDefs

set_option maxRecDepth 16384

noncomputable section

namespace Cert.KernelIdeal.R2Dat

open Cert.KernelIdeal Cert.KernelIdeal.Gen Cert.KernelIdeal.R2Value
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {U : Type} [URA U]

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

/-- In each row of row block `ib` inside the array: column 0 holds the row's sum over the columns from the block's first up to `hi`, column 1 zero. -/
def Acc (ib hi : ℕ) (S : Vec Ideal S512x128 .f32) : Prop :=
  ∀ (p : Fin 512) (hp : 512 * ib + p.val < 10000),
    S (ix2 p (0 : Fin 128))
        = ((rs (extN (adj ⟨512 * ib + p.val, hp⟩)) (extN (Spec.v adj x W1 b1 W2 Wlin)) (512 * ib) hi : ℝ) : EReal)
      ∧ S (ix2 p (1 : Fin 128)) = 0

variable {adj x W1 b1 W2 b2 Wlin blin}

theorem acc_of_inv {n : ℕ} {S : Vec Ideal S512x128 .f32} (h : Inv adj x W1 b1 W2 Wlin n S) (hn : n % 4 ≠ 0) :
    Acc adj x W1 b1 W2 Wlin (n / 4) (min (2560 * (n % 4)) 10000) S := fun p hp => by
  have := (h.resolve_left hn) p hp
  rwa [accRow_eq_rs] at this

theorem acc_zero (ib hi : ℕ) (h : hi ≤ 512 * ib) : Acc adj x W1 b1 W2 Wlin ib hi (R2Run.acc0 (F := Ideal)) := fun p hp =>
  ⟨by rw [rs_empty _ _ _ _ h]; exact k2_pay9_apply p 0, k2_pay9_apply p 1⟩

/-- The same accumulator at an equal bound, or at another bound when both sums are empty. -/
theorem acc_to {ib hi n : ℕ} {S : Vec Ideal S512x128 .f32} (hS : Acc adj x W1 b1 W2 Wlin ib hi S)
    (h : hi = n ∨ (hi ≤ 512 * ib ∧ n ≤ 512 * ib)) : Acc adj x W1 b1 W2 Wlin ib n S := by
  rcases h with rfl | ⟨h, h'⟩
  · exact hS
  · intro p hp
    have := hS p hp
    rw [rs_empty _ _ _ _ h] at this
    rwa [rs_empty _ _ _ _ h']

variable {c : Dev nD} {V : (b : Ref sig .tc) → Buf (Elt Ideal) ((c : Thread nD τ).loc b)}

section Steps

variable (hV : Good2 adj x W1 b1 W2 b2 Wlin blin V) {t : Fin cfg2.N} {X2 : Vec Ideal S512x2560 .f32} {X3 : Vec Ideal S2560x128 .bf16}
  (h2 : (rd2 (U := U) adj x W1 b1 W2 b2 Wlin blin c V).Finds 0 t X2) (h3 : (rd2 (U := U) adj x W1 b1 W2 b2 Wlin blin c V).Finds 1 t X3)
include hV h2 h3

theorem step_all {S : Vec Ideal S512x128 .f32} (hS : Acc adj x W1 b1 W2 Wlin (t.val / 4) (2560 * cbOf t.val) S)
    (hlo : 512 * (t.val / 4) ≤ 2560 * cbOf t.val) (hb : 2560 * cbOf t.val + 2560 ≤ 10000) :
    Acc adj x W1 b1 W2 Wlin (t.val / 4) (2560 * cbOf t.val + 2560) (R2Run.accAll S X2 X3) := fun p hp => by
  have s0 := sub hV h2 h3 hp 0 (Nat.add_zero _)
  have s1 := sub hV h2 h3 hp 512 rfl
  have s2 := sub hV h2 h3 hp 1024 rfl
  have s3 := sub hV h2 h3 hp 1536 rfl
  have s4 := sub hV h2 h3 hp 2048 rfl
  exact ⟨(k2_pay10_5_val _ _ _ hb _ p S _ _ _ _ _ _ _ _ _ _ (hS p hp).1 (fun k => s0.1 k (by omega)) s0.2.1 (fun k => s1.1 k (by omega)) s1.2.1 (fun k => s2.1 k (by omega)) s2.2.1 (fun k => s3.1 k (by omega)) s3.2.1 (fun k => s4.1 k (by omega)) s4.2.1).trans
      (by rw [rs_add _ _ _ _ (2560 * cbOf t.val + 2560) hlo (by omega)]), k2_pay10_5_col1 p S _ _ _ _ _ _ _ _ _ _ (hS p hp).2 s0.2.2 s1.2.2 s2.2.2 s3.2.2 s4.2.2⟩

theorem step_from1 {S : Vec Ideal S512x128 .f32} (hS : Acc adj x W1 b1 W2 Wlin (t.val / 4) (2560 * cbOf t.val + 512) S)
    (hlo : 512 * (t.val / 4) ≤ 2560 * cbOf t.val + 512) (hb : 2560 * cbOf t.val + 2560 ≤ 10000) :
    Acc adj x W1 b1 W2 Wlin (t.val / 4) (2560 * cbOf t.val + 2560) (R2Run.accFrom1 S X2 X3) := fun p hp => by
  have s1 := sub hV h2 h3 hp 512 rfl
  have s2 := sub hV h2 h3 hp 1024 rfl
  have s3 := sub hV h2 h3 hp 1536 rfl
  have s4 := sub hV h2 h3 hp 2048 rfl
  exact ⟨(k2_pay11_val _ _ _ hb _ p S _ _ _ _ _ _ _ _ (hS p hp).1 (fun k => s1.1 k (by omega)) s1.2.1 (fun k => s2.1 k (by omega)) s2.2.1 (fun k => s3.1 k (by omega)) s3.2.1 (fun k => s4.1 k (by omega)) s4.2.1).trans
      (by rw [rs_add _ _ _ _ (2560 * cbOf t.val + 2560) hlo (by omega)]), k2_pay11_col1 p S _ _ _ _ _ _ _ _ (hS p hp).2 s1.2.2 s2.2.2 s3.2.2 s4.2.2⟩

theorem step_from2 {S : Vec Ideal S512x128 .f32} (hS : Acc adj x W1 b1 W2 Wlin (t.val / 4) (2560 * cbOf t.val + 1024) S)
    (hlo : 512 * (t.val / 4) ≤ 2560 * cbOf t.val + 1024) (hb : 2560 * cbOf t.val + 2560 ≤ 10000) :
    Acc adj x W1 b1 W2 Wlin (t.val / 4) (2560 * cbOf t.val + 2560) (R2Run.accFrom2 S X2 X3) := fun p hp => by
  have s2 := sub hV h2 h3 hp 1024 rfl
  have s3 := sub hV h2 h3 hp 1536 rfl
  have s4 := sub hV h2 h3 hp 2048 rfl
  exact ⟨(k2_pay12_val _ _ _ hb _ p S _ _ _ _ _ _ (hS p hp).1 (fun k => s2.1 k (by omega)) s2.2.1 (fun k => s3.1 k (by omega)) s3.2.1 (fun k => s4.1 k (by omega)) s4.2.1).trans
      (by rw [rs_add _ _ _ _ (2560 * cbOf t.val + 2560) hlo (by omega)]), k2_pay12_col1 p S _ _ _ _ _ _ (hS p hp).2 s2.2.2 s3.2.2 s4.2.2⟩

theorem step_from3 {S : Vec Ideal S512x128 .f32} (hS : Acc adj x W1 b1 W2 Wlin (t.val / 4) (2560 * cbOf t.val + 1536) S)
    (hlo : 512 * (t.val / 4) ≤ 2560 * cbOf t.val + 1536) (hb : 2560 * cbOf t.val + 2560 ≤ 10000) :
    Acc adj x W1 b1 W2 Wlin (t.val / 4) (2560 * cbOf t.val + 2560) (R2Run.accFrom3 S X2 X3) := fun p hp => by
  have s3 := sub hV h2 h3 hp 1536 rfl
  have s4 := sub hV h2 h3 hp 2048 rfl
  exact ⟨(k2_pay13_val _ _ _ hb _ p S _ _ _ _ (hS p hp).1 (fun k => s3.1 k (by omega)) s3.2.1 (fun k => s4.1 k (by omega)) s4.2.1).trans
      (by rw [rs_add _ _ _ _ (2560 * cbOf t.val + 2560) hlo (by omega)]), k2_pay13_col1 p S _ _ _ _ (hS p hp).2 s3.2.2 s4.2.2⟩

theorem step_from4 {S : Vec Ideal S512x128 .f32} (hS : Acc adj x W1 b1 W2 Wlin (t.val / 4) (2560 * cbOf t.val + 2048) S)
    (hlo : 512 * (t.val / 4) ≤ 2560 * cbOf t.val + 2048) (hb : 2560 * cbOf t.val + 2560 ≤ 10000) :
    Acc adj x W1 b1 W2 Wlin (t.val / 4) (2560 * cbOf t.val + 2560) (R2Run.accFrom4 S X2 X3) := fun p hp => by
  have s4 := sub hV h2 h3 hp 2048 rfl
  exact ⟨(k2_pay14_val _ _ _ hb _ p S _ _ (hS p hp).1 (fun k => s4.1 k (by omega)) s4.2.1).trans
      (by rw [rs_add _ _ _ _ (2560 * cbOf t.val + 2560) hlo (by omega)]), k2_pay14_col1 p S _ _ (hS p hp).2 s4.2.2⟩

theorem edge_all {S : Vec Ideal S512x128 .f32} (hS : Acc adj x W1 b1 W2 Wlin (t.val / 4) (7680) S)
    (hlo : 512 * (t.val / 4) ≤ 7680) (hcb : cbOf t.val = 3) :
    Acc adj x W1 b1 W2 Wlin (t.val / 4) (10000) (R2Run.edgeAll S X2 X3) := fun p hp => by
  have s0 := sub hV h2 h3 hp 0 (n := 7680) (by omega)
  have s1 := sub hV h2 h3 hp 512 (n := 8192) (by omega)
  have s2 := sub hV h2 h3 hp 1024 (n := 8704) (by omega)
  have s3 := sub hV h2 h3 hp 1536 (n := 9216) (by omega)
  have s4 := sub hV h2 h3 hp 2048 (n := 9728) (by omega)
  exact ⟨(k2_pay15_6_val _ _ _ p S _ _ _ _ _ _ _ _ _ _ (hS p hp).1 (fun k => s0.1 k (by omega)) s0.2.1 (fun k => s1.1 k (by omega)) s1.2.1 (fun k => s2.1 k (by omega)) s2.2.1 (fun k => s3.1 k (by omega)) s3.2.1 (fun k hk => s4.1 k (by omega)) (fun k _ => s4.2.1 k)).trans
      (by rw [rs_add _ _ _ _ (10000) hlo (by omega)]), k2_pay15_6_col1 p S _ _ _ _ _ _ _ _ _ _ (hS p hp).2 s0.2.2 s1.2.2 s2.2.2 s3.2.2 s4.2.2⟩

theorem edge_from1 {S : Vec Ideal S512x128 .f32} (hS : Acc adj x W1 b1 W2 Wlin (t.val / 4) (8192) S)
    (hlo : 512 * (t.val / 4) ≤ 8192) (hcb : cbOf t.val = 3) :
    Acc adj x W1 b1 W2 Wlin (t.val / 4) (10000) (R2Run.edgeFrom1 S X2 X3) := fun p hp => by
  have s1 := sub hV h2 h3 hp 512 (n := 8192) (by omega)
  have s2 := sub hV h2 h3 hp 1024 (n := 8704) (by omega)
  have s3 := sub hV h2 h3 hp 1536 (n := 9216) (by omega)
  have s4 := sub hV h2 h3 hp 2048 (n := 9728) (by omega)
  exact ⟨(k2_pay8_val _ _ _ p S _ _ _ _ _ _ _ _ (hS p hp).1 (fun k => s1.1 k (by omega)) s1.2.1 (fun k => s2.1 k (by omega)) s2.2.1 (fun k => s3.1 k (by omega)) s3.2.1 (fun k hk => s4.1 k (by omega)) (fun k _ => s4.2.1 k)).trans
      (by rw [rs_add _ _ _ _ (10000) hlo (by omega)]), k2_pay8_col1 p S _ _ _ _ _ _ _ _ (hS p hp).2 s1.2.2 s2.2.2 s3.2.2 s4.2.2⟩

theorem edge_from2 {S : Vec Ideal S512x128 .f32} (hS : Acc adj x W1 b1 W2 Wlin (t.val / 4) (8704) S)
    (hlo : 512 * (t.val / 4) ≤ 8704) (hcb : cbOf t.val = 3) :
    Acc adj x W1 b1 W2 Wlin (t.val / 4) (10000) (R2Run.edgeFrom2 S X2 X3) := fun p hp => by
  have s2 := sub hV h2 h3 hp 1024 (n := 8704) (by omega)
  have s3 := sub hV h2 h3 hp 1536 (n := 9216) (by omega)
  have s4 := sub hV h2 h3 hp 2048 (n := 9728) (by omega)
  exact ⟨(k2_pay1_val _ _ _ p S _ _ _ _ _ _ (hS p hp).1 (fun k => s2.1 k (by omega)) s2.2.1 (fun k => s3.1 k (by omega)) s3.2.1 (fun k hk => s4.1 k (by omega)) (fun k _ => s4.2.1 k)).trans
      (by rw [rs_add _ _ _ _ (10000) hlo (by omega)]), k2_pay1_col1 p S _ _ _ _ _ _ (hS p hp).2 s2.2.2 s3.2.2 s4.2.2⟩

theorem edge_from3 {S : Vec Ideal S512x128 .f32} (hS : Acc adj x W1 b1 W2 Wlin (t.val / 4) (9216) S)
    (hlo : 512 * (t.val / 4) ≤ 9216) (hcb : cbOf t.val = 3) :
    Acc adj x W1 b1 W2 Wlin (t.val / 4) (10000) (R2Run.edgeFrom3 S X2 X3) := fun p hp => by
  have s3 := sub hV h2 h3 hp 1536 (n := 9216) (by omega)
  have s4 := sub hV h2 h3 hp 2048 (n := 9728) (by omega)
  exact ⟨(k2_pay2_val _ _ _ p S _ _ _ _ (hS p hp).1 (fun k => s3.1 k (by omega)) s3.2.1 (fun k hk => s4.1 k (by omega)) (fun k _ => s4.2.1 k)).trans
      (by rw [rs_add _ _ _ _ (10000) hlo (by omega)]), k2_pay2_col1 p S _ _ _ _ (hS p hp).2 s3.2.2 s4.2.2⟩

theorem edge_from4 {S : Vec Ideal S512x128 .f32} (hS : Acc adj x W1 b1 W2 Wlin (t.val / 4) (9728) S)
    (hlo : 512 * (t.val / 4) ≤ 9728) (hcb : cbOf t.val = 3) :
    Acc adj x W1 b1 W2 Wlin (t.val / 4) (10000) (R2Run.edgeFrom4 S X2 X3) := fun p hp => by
  have s4 := sub hV h2 h3 hp 2048 (n := 9728) (by omega)
  exact ⟨(k2_pay3_val _ _ _ p S _ _ (hS p hp).1 (fun k hk => s4.1 k (by omega)) (fun k _ => s4.2.1 k)).trans
      (by rw [rs_add _ _ _ _ (10000) hlo (by omega)]), k2_pay3_col1 p S _ _ (hS p hp).2 s4.2.2⟩

end Steps

/-- Before the last column step: the next point's invariant from the sum up to this column block's end; the output block is left as found. -/
theorem next_keep (t : Fin cfg2.N) (h3 : t.val % 4 ≠ 3) {E : ℕ} {S' : Vec Ideal S512x128 .f32}
    (h : Acc adj x W1 b1 W2 Wlin (t.val / 4) E S') (hE : E = 2560 * (t.val % 4) + 2560) (Y : Vec Ideal S512x1 .f32) :
    Inv adj x W1 b1 W2 Wlin (t.val + 1) S' ∧ (rd2 (U := U) adj x W1 b1 W2 b2 Wlin blin c V).after 3 t Y Y := by
  subst hE
  have e : Acc adj x W1 b1 W2 Wlin ((t.val + 1) / 4) (min (2560 * ((t.val + 1) % 4)) 10000) S' := by
    rw [show (t.val + 1) / 4 = t.val / 4 by omega, show min (2560 * ((t.val + 1) % 4)) 10000 = 2560 * (t.val % 4) + 2560 by omega]
    exact h
  exact ⟨Or.inr fun r hr => by rw [accRow_eq_rs]; exact e r hr, by show (if t.val % 4 = 3 then _ else Y = Y); rw [if_neg h3]⟩

/-- At the last column step: the next point resets the accumulator, and the output block's rows inside the array hold the rows' results. -/
theorem next_last (hV : Good2 adj x W1 b1 W2 b2 Wlin blin V) {t : Fin cfg2.N} (h3 : t.val % 4 = 3) {X4 : Vec Ideal S512x1 .f32}
    (h4 : (rd2 (U := U) adj x W1 b1 W2 b2 Wlin blin c V).Finds 2 t X4) {S' : Vec Ideal S512x128 .f32} (h : Acc adj x W1 b1 W2 Wlin (t.val / 4) 10000 S') (Y : Vec Ideal S512x1 .f32) :
    Inv adj x W1 b1 W2 Wlin (t.val + 1) S' ∧ (rd2 (U := U) adj x W1 b1 W2 b2 Wlin blin c V).after 3 t Y (R2Run.outOf X4 S') := by
  refine ⟨Or.inl (by omega), ?_⟩
  show (if t.val % 4 = 3 then _ else R2Run.outOf X4 S' = Y)
  rw [if_pos h3]
  exact fun r hr => k2_pay4_outK adj x W1 b1 W2 b2 Wlin blin (t.val / 4) ⟨512 * (t.val / 4) + r.val, hr⟩ r X4 S'
    (finds2_2 adj x W1 b1 W2 b2 Wlin blin c V hV t X4 h4 r hr) (h r hr).1 (h r hr).2

end Cert.KernelIdeal.R2Dat

end
-- ==== Proof.R2RunInit.lean ====
import proofs.«121951_g22909355557424_cont_8to1_1761_16_alg».proof.Proof.R2RunDefs

set_option maxHeartbeats 1000000

namespace Cert.KernelIdeal.R2Run

open Idealize.ShloMosaic Idealize.SL.RA Cert.KernelIdeal.Gen

variable {F : FTy → Type} [FloatOps F] {U : Type} [URA U]

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

theorem at_init_all (hj : (i 1).val = 0) (hi : (i 0).val = 0) : Runs[X5, accAll acc0 X2 X3] := by r2_run
theorem at_init_q1 (hj : (i 1).val = 0) (hi : (i 0).val = 1) : Runs[X5, accFrom1 acc0 X2 X3] := by r2_run
theorem at_init_q2 (hj : (i 1).val = 0) (hi : (i 0).val = 2) : Runs[X5, accFrom2 acc0 X2 X3] := by r2_run
theorem at_init_q3 (hj : (i 1).val = 0) (hi : (i 0).val = 3) : Runs[X5, accFrom3 acc0 X2 X3] := by r2_run
theorem at_init_q4 (hj : (i 1).val = 0) (hi : (i 0).val = 4) : Runs[X5, accFrom4 acc0 X2 X3] := by r2_run
theorem at_init_none (hj : (i 1).val = 0) (hi : 5 ≤ (i 0).val) : Runs[X5, acc0] := by r2_run

end Cert.KernelIdeal.R2Run
-- ==== Proof.R2RunMid.lean ====
import proofs.«121951_g22909355557424_cont_8to1_1761_16_alg».proof.Proof.R2RunInit

set_option maxHeartbeats 1000000

namespace Cert.KernelIdeal.R2Run

open Idealize.ShloMosaic Idealize.SL.RA Cert.KernelIdeal.Gen

variable {F : FTy → Type} [FloatOps F] {U : Type} [URA U]

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

theorem at_mid_all (hj : 0 < (i 1).val) (hj' : (i 1).val < 3) (hi : (i 0).val ≤ 5 * (i 1).val) : Runs[X5, accAll X6 X2 X3] := by r2_run
theorem at_mid_q1 (hj : 0 < (i 1).val) (hj' : (i 1).val < 3) (hi : (i 0).val = 5 * (i 1).val + 1) : Runs[X5, accFrom1 X6 X2 X3] := by r2_run
theorem at_mid_q2 (hj : 0 < (i 1).val) (hj' : (i 1).val < 3) (hi : (i 0).val = 5 * (i 1).val + 2) : Runs[X5, accFrom2 X6 X2 X3] := by r2_run
theorem at_mid_q3 (hj : 0 < (i 1).val) (hj' : (i 1).val < 3) (hi : (i 0).val = 5 * (i 1).val + 3) : Runs[X5, accFrom3 X6 X2 X3] := by r2_run
theorem at_mid_q4 (hj : 0 < (i 1).val) (hj' : (i 1).val < 3) (hi : (i 0).val = 5 * (i 1).val + 4) : Runs[X5, accFrom4 X6 X2 X3] := by r2_run
theorem at_mid_none (hj : 0 < (i 1).val) (hj' : (i 1).val < 3) (hi : 5 * (i 1).val + 5 ≤ (i 0).val) : Runs[X5, X6] := by r2_run

end Cert.KernelIdeal.R2Run
-- ==== Proof.R2RunLast.lean ====
import proofs.«121951_g22909355557424_cont_8to1_1761_16_alg».proof.Proof.R2RunMid

set_option maxHeartbeats 1000000

namespace Cert.KernelIdeal.R2Run

open Idealize.ShloMosaic Idealize.SL.RA Cert.KernelIdeal.Gen

variable {F : FTy → Type} [FloatOps F] {U : Type} [URA U]

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

theorem at_last_all (hj : (i 1).val = 3) (hi : (i 0).val ≤ 15) : Runs[outOf X4 (edgeAll X6 X2 X3), edgeAll X6 X2 X3] := by r2_run
theorem at_last_q1 (hj : (i 1).val = 3) (hi : (i 0).val = 16) : Runs[outOf X4 (edgeFrom1 X6 X2 X3), edgeFrom1 X6 X2 X3] := by r2_run
theorem at_last_q2 (hj : (i 1).val = 3) (hi : (i 0).val = 17) : Runs[outOf X4 (edgeFrom2 X6 X2 X3), edgeFrom2 X6 X2 X3] := by r2_run
theorem at_last_q3 (hj : (i 1).val = 3) (hi : (i 0).val = 18) : Runs[outOf X4 (edgeFrom3 X6 X2 X3), edgeFrom3 X6 X2 X3] := by r2_run
theorem at_last_q4 (hj : (i 1).val = 3) (hi : (i 0).val = 19) : Runs[outOf X4 (edgeFrom4 X6 X2 X3), edgeFrom4 X6 X2 X3] := by r2_run

end Cert.KernelIdeal.R2Run
-- ==== Proof.R2Run.lean ====
import proofs.«121951_g22909355557424_cont_8to1_1761_16_alg».proof.Proof.R2RunLast

namespace Cert.KernelIdeal.R2Run

open Idealize.ShloMosaic Idealize.ShloMosaic.TcCoe Idealize.SL Idealize.SL.RA Idealize.SL.BI Idealize.SL.BI.BIBase Idealize.SL.Sem Cert.KernelIdeal.Gen

variable {F : FTy → Type} [FloatOps F] {U : Type} [URA U]

local notation "𝕄" => MT nD τ sig Unit (Elt F) ℕ U ℕ

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

/-- Every grid point is on one of the seventeen paths: from any contents of its five buffers the body runs, the operands and the partial sums left as they were. -/
theorem run2_any (E : Set ℕ) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ ((∃ (Y5 : Vec F S512x1 .f32) (Y6 : Vec F S512x128 .f32), owns (c : Thread nD τ) arg2 fullShare X2 ∗ owns (c : Thread nD τ) arg3 fullShare X3
              ∗ owns (c : Thread nD τ) arg4 fullShare X4 ∗ owns (c : Thread nD τ) arg5 fullShare Y5 ∗ owns (c : Thread nD τ) arg6 fullShare Y6) -∗ K ⟨⟩))
      ⊢ wp frame (wpE (defs₀ (F := F)) Variants.none c none) E (cc2_body i arg2 harg2 arg3 harg3 arg4 harg4 arg5 harg5 arg6 harg6) K := by
  obtain ⟨Y5, Y6, h⟩ : ∃ (Y5 : Vec F S512x1 .f32) (Y6 : Vec F S512x128 .f32), Runs[Y5, Y6] := by
    have ha : (i 0).val < 20 := (i 0).isLt
    have hb : (i 1).val < 4 := (i 1).isLt
    rcases (by omega : (i 1).val = 0 ∨ (0 < (i 1).val ∧ (i 1).val < 3) ∨ (i 1).val = 3) with hj | ⟨hj, hj'⟩ | hj
    · rcases (by omega : (i 0).val = 0 ∨ (i 0).val = 1 ∨ (i 0).val = 2 ∨ (i 0).val = 3 ∨ (i 0).val = 4 ∨ 5 ≤ (i 0).val)
        with hi | hi | hi | hi | hi | hi
      exacts [⟨_, _, at_init_all _ _ _ _ _ _ _ _ _ _ _ _ _ _ _ _ _ hj hi⟩, ⟨_, _, at_init_q1 _ _ _ _ _ _ _ _ _ _ _ _ _ _ _ _ _ hj hi⟩, ⟨_, _, at_init_q2 _ _ _ _ _ _ _ _ _ _ _ _ _ _ _ _ _ hj hi⟩,
        ⟨_, _, at_init_q3 _ _ _ _ _ _ _ _ _ _ _ _ _ _ _ _ _ hj hi⟩, ⟨_, _, at_init_q4 _ _ _ _ _ _ _ _ _ _ _ _ _ _ _ _ _ hj hi⟩, ⟨_, _, at_init_none _ _ _ _ _ _ _ _ _ _ _ _ _ _ _ _ _ hj hi⟩]
    · rcases (by omega : (i 0).val ≤ 5 * (i 1).val ∨ (i 0).val = 5 * (i 1).val + 1 ∨ (i 0).val = 5 * (i 1).val + 2
          ∨ (i 0).val = 5 * (i 1).val + 3 ∨ (i 0).val = 5 * (i 1).val + 4 ∨ 5 * (i 1).val + 5 ≤ (i 0).val)
        with hi | hi | hi | hi | hi | hi
      exacts [⟨_, _, at_mid_all _ _ _ _ _ _ _ _ _ _ _ _ _ _ _ _ _ hj hj' hi⟩, ⟨_, _, at_mid_q1 _ _ _ _ _ _ _ _ _ _ _ _ _ _ _ _ _ hj hj' hi⟩,
        ⟨_, _, at_mid_q2 _ _ _ _ _ _ _ _ _ _ _ _ _ _ _ _ _ hj hj' hi⟩, ⟨_, _, at_mid_q3 _ _ _ _ _ _ _ _ _ _ _ _ _ _ _ _ _ hj hj' hi⟩,
        ⟨_, _, at_mid_q4 _ _ _ _ _ _ _ _ _ _ _ _ _ _ _ _ _ hj hj' hi⟩, ⟨_, _, at_mid_none _ _ _ _ _ _ _ _ _ _ _ _ _ _ _ _ _ hj hj' hi⟩]
    · rcases (by omega : (i 0).val ≤ 15 ∨ (i 0).val = 16 ∨ (i 0).val = 17 ∨ (i 0).val = 18 ∨ (i 0).val = 19) with hi | hi | hi | hi | hi
      exacts [⟨_, _, at_last_all _ _ _ _ _ _ _ _ _ _ _ _ _ _ _ _ _ hj hi⟩, ⟨_, _, at_last_q1 _ _ _ _ _ _ _ _ _ _ _ _ _ _ _ _ _ hj hi⟩, ⟨_, _, at_last_q2 _ _ _ _ _ _ _ _ _ _ _ _ _ _ _ _ _ hj hi⟩,
        ⟨_, _, at_last_q3 _ _ _ _ _ _ _ _ _ _ _ _ _ _ _ _ _ hj hi⟩, ⟨_, _, at_last_q4 _ _ _ _ _ _ _ _ _ _ _ _ _ _ _ _ _ hj hi⟩]
  iintro ⟨H2, H3, H4, H5, H6, Hk⟩
  iapply (h E K)
  unfold Held
  iframe
  iintro H
  iapply Hk
  iexists Y5, Y6
  iexact H

end Cert.KernelIdeal.R2Run
-- ==== Proof.R2Dat.lean ====
import proofs.«121951_g22909355557424_cont_8to1_1761_16_alg».proof.Proof.R2DatStep
import proofs.«121951_g22909355557424_cont_8to1_1761_16_alg».proof.Proof.R2Run

set_option maxRecDepth 16384

noncomputable section

namespace Cert.KernelIdeal.R2Dat

open Cert.KernelIdeal Cert.KernelIdeal.Gen Cert.KernelIdeal.R2Value
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {U : Type} [URA U]

local notation "𝕄" => MT nD τ sig Unit (Elt Ideal) ℕ U ℕ

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

variable (c : Dev nD) (V : (b : Ref sig .tc) → Buf (Elt Ideal) ((c : Thread nD τ).loc b))

/-- At every point the body's run along the point's control path leaves an accumulator satisfying the next point's invariant and an output block in the relation. -/
theorem point_case (hV : Good2 adj x W1 b1 W2 b2 Wlin blin V) (t : Fin cfg2.N)
    (Y : (w : Fin cfg2.W) → (cfg2.win w).block.Idx → Elt Ideal (cfg2.win w).elt) (hY : ∀ w, (rd2 (U := U) adj x W1 b1 W2 b2 Wlin blin c V).Finds w t (Y w))
    (S : Vec Ideal S512x128 .f32) (hS : Inv adj x W1 b1 W2 Wlin t.val S) :
    ∃ (Y5 : Vec Ideal S512x1 .f32) (S' : Vec Ideal S512x128 .f32),
      R2Run.Triple (F := Ideal) (U := U) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (Memref.whole cc2_scratch0) (Memref.isWhole_whole _) (Y 0) (Y 1) (Y 2) (Y 3) S Y5 S'
        ∧ Inv adj x W1 b1 W2 Wlin (t.val + 1) S' ∧ (rd2 (U := U) adj x W1 b1 W2 b2 Wlin blin c V).after 3 t (Y 3) Y5 := by
  have hc0 : ((grid2.coords t) 0).val = t.val / 4 := (coords2 t).1
  have hc1 : ((grid2.coords t) 1).val = t.val % 4 := (coords2 t).2
  have ht : t.val < 80 := Nat.lt_of_lt_of_eq t.isLt N_2
  have hcb : cbOf t.val = min (max (t.val % 4) (t.val / 20)) 3 := rfl
  rcases (by omega : ((grid2.coords t) 1).val = 0 ∨ (0 < ((grid2.coords t) 1).val ∧ ((grid2.coords t) 1).val < 3) ∨ ((grid2.coords t) 1).val = 3) with hj | ⟨hj, hj'⟩ | hj
  · rcases (by omega : ((grid2.coords t) 0).val = 0 ∨ ((grid2.coords t) 0).val = 1 ∨ ((grid2.coords t) 0).val = 2 ∨ ((grid2.coords t) 0).val = 3 ∨ ((grid2.coords t) 0).val = 4 ∨ 5 ≤ ((grid2.coords t) 0).val)
      with hi | hi | hi | hi | hi | hi
    · exact ⟨_, _, R2Run.at_init_all _ _ _ _ _ _ _ _ _ _ _ _ _ _ _ _ _ hj hi,
        next_keep t (by omega) (step_all hV (hY 0) (hY 1) (acc_zero _ _ (by omega)) (by omega) (by omega)) (by omega) _⟩
    · exact ⟨_, _, R2Run.at_init_q1 _ _ _ _ _ _ _ _ _ _ _ _ _ _ _ _ _ hj hi,
        next_keep t (by omega) (step_from1 hV (hY 0) (hY 1) (acc_zero _ _ (by omega)) (by omega) (by omega)) (by omega) _⟩
    · exact ⟨_, _, R2Run.at_init_q2 _ _ _ _ _ _ _ _ _ _ _ _ _ _ _ _ _ hj hi,
        next_keep t (by omega) (step_from2 hV (hY 0) (hY 1) (acc_zero _ _ (by omega)) (by omega) (by omega)) (by omega) _⟩
    · exact ⟨_, _, R2Run.at_init_q3 _ _ _ _ _ _ _ _ _ _ _ _ _ _ _ _ _ hj hi,
        next_keep t (by omega) (step_from3 hV (hY 0) (hY 1) (acc_zero _ _ (by omega)) (by omega) (by omega)) (by omega) _⟩
    · exact ⟨_, _, R2Run.at_init_q4 _ _ _ _ _ _ _ _ _ _ _ _ _ _ _ _ _ hj hi,
        next_keep t (by omega) (step_from4 hV (hY 0) (hY 1) (acc_zero _ _ (by omega)) (by omega) (by omega)) (by omega) _⟩
    · exact ⟨_, _, R2Run.at_init_none _ _ _ _ _ _ _ _ _ _ _ _ _ _ _ _ _ hj hi, next_keep t (by omega) (acc_zero _ _ (by omega)) rfl _⟩
  · have hA := acc_of_inv hS (by omega)
    rcases (by omega : ((grid2.coords t) 0).val ≤ 5 * ((grid2.coords t) 1).val ∨ ((grid2.coords t) 0).val = 5 * ((grid2.coords t) 1).val + 1 ∨ ((grid2.coords t) 0).val = 5 * ((grid2.coords t) 1).val + 2 ∨ ((grid2.coords t) 0).val = 5 * ((grid2.coords t) 1).val + 3
        ∨ ((grid2.coords t) 0).val = 5 * ((grid2.coords t) 1).val + 4 ∨ 5 * ((grid2.coords t) 1).val + 5 ≤ ((grid2.coords t) 0).val) with hi | hi | hi | hi | hi | hi
    · exact ⟨_, _, R2Run.at_mid_all _ _ _ _ _ _ _ _ _ _ _ _ _ _ _ _ _ hj hj' hi,
        next_keep t (by omega) (step_all hV (hY 0) (hY 1) (acc_to hA (by omega)) (by omega) (by omega)) (by omega) _⟩
    · exact ⟨_, _, R2Run.at_mid_q1 _ _ _ _ _ _ _ _ _ _ _ _ _ _ _ _ _ hj hj' hi,
        next_keep t (by omega) (step_from1 hV (hY 0) (hY 1) (acc_to hA (by omega)) (by omega) (by omega)) (by omega) _⟩
    · exact ⟨_, _, R2Run.at_mid_q2 _ _ _ _ _ _ _ _ _ _ _ _ _ _ _ _ _ hj hj' hi,
        next_keep t (by omega) (step_from2 hV (hY 0) (hY 1) (acc_to hA (by omega)) (by omega) (by omega)) (by omega) _⟩
    · exact ⟨_, _, R2Run.at_mid_q3 _ _ _ _ _ _ _ _ _ _ _ _ _ _ _ _ _ hj hj' hi,
        next_keep t (by omega) (step_from3 hV (hY 0) (hY 1) (acc_to hA (by omega)) (by omega) (by omega)) (by omega) _⟩
    · exact ⟨_, _, R2Run.at_mid_q4 _ _ _ _ _ _ _ _ _ _ _ _ _ _ _ _ _ hj hj' hi,
        next_keep t (by omega) (step_from4 hV (hY 0) (hY 1) (acc_to hA (by omega)) (by omega) (by omega)) (by omega) _⟩
    · exact ⟨_, _, R2Run.at_mid_none _ _ _ _ _ _ _ _ _ _ _ _ _ _ _ _ _ hj hj' hi, next_keep t (by omega) (acc_to hA (by omega)) rfl _⟩
  · have hA := acc_of_inv hS (by omega)
    rcases (by omega : ((grid2.coords t) 0).val ≤ 15 ∨ ((grid2.coords t) 0).val = 16 ∨ ((grid2.coords t) 0).val = 17 ∨ ((grid2.coords t) 0).val = 18 ∨ ((grid2.coords t) 0).val = 19) with hi | hi | hi | hi | hi
    · exact ⟨_, _, R2Run.at_last_all _ _ _ _ _ _ _ _ _ _ _ _ _ _ _ _ _ hj hi,
        next_last hV (by omega) (hY 2) (edge_all hV (hY 0) (hY 1) (acc_to hA (by omega)) (by omega) (by omega)) _⟩
    · exact ⟨_, _, R2Run.at_last_q1 _ _ _ _ _ _ _ _ _ _ _ _ _ _ _ _ _ hj hi,
        next_last hV (by omega) (hY 2) (edge_from1 hV (hY 0) (hY 1) (acc_to hA (by omega)) (by omega) (by omega)) _⟩
    · exact ⟨_, _, R2Run.at_last_q2 _ _ _ _ _ _ _ _ _ _ _ _ _ _ _ _ _ hj hi,
        next_last hV (by omega) (hY 2) (edge_from2 hV (hY 0) (hY 1) (acc_to hA (by omega)) (by omega) (by omega)) _⟩
    · exact ⟨_, _, R2Run.at_last_q3 _ _ _ _ _ _ _ _ _ _ _ _ _ _ _ _ _ hj hi,
        next_last hV (by omega) (hY 2) (edge_from3 hV (hY 0) (hY 1) (acc_to hA (by omega)) (by omega) (by omega)) _⟩
    · exact ⟨_, _, R2Run.at_last_q4 _ _ _ _ _ _ _ _ _ _ _ _ _ _ _ _ _ hj hi,
        next_last hV (by omega) (hY 2) (edge_from4 hV (hY 0) (hY 1) (acc_to hA (by omega)) (by omega) (by omega)) _⟩

/-- The invariant, opened. -/
theorem Φ_eq (t : Fin (cfg2.N + 1)) : (rd2 (U := U) adj x W1 b1 W2 b2 Wlin blin c V).Φ t = iprop(∃ S : Vec Ideal S512x128 .f32, ⌜Inv adj x W1 b1 W2 Wlin t.val S⌝
        ∗ (((c : Thread nD τ).loc cc2_scratch0) ↦{fullShare} S)
        ∗ Pipeline.scopedRestBut (Ix := Unit) (Name := ℕ) (U := U) (Lvl := ℕ) (Val := Elt Ideal) spec2 c [cc2_scratch0]
        ∗ ∃ r, prngReg c r) := rfl

theorem body_obligation2 (hV : Good2 adj x W1 b1 W2 b2 Wlin blin V) :
    (rd2 (U := U) adj x W1 b1 W2 b2 Wlin blin c V).BodyObligation (defs₀ (F := Ideal)) Variants.none () Set.univ := fun t Y hY => by
  rw [bigSep_W2, bigSep_W2, Φ_eq, Φ_eq]
  iintro ⟨⟨%S, %hS, Hs, Hr, Hp⟩, Ho, H0, H1, H2, H3⟩
  obtain ⟨Y5, S', hT, hInv, hout⟩ := point_case adj x W1 b1 W2 b2 Wlin blin c V hV t Y hY S hS
  iapply (hT Set.univ _)
  unfold R2Run.Held
  isplitl [H0 H1 H2 H3 Hs]
  · isplitl [H0]; · iexact H0
    isplitl [H1]; · iexact H1
    isplitl [H2]; · iexact H2
    isplitl [H3]; · iexact H3
    ihave Hs' := (Entails.of_eq (owns_whole (c : Thread nD τ) cc2_scratch0 fullShare S).symm) $$ Hs
    iexact Hs'
  iintro ⟨H0, H1, H2, H3, Hs'⟩
  ihave Hs := (Entails.of_eq (owns_whole (c : Thread nD τ) cc2_scratch0 fullShare S')) $$ Hs'
  isplitl [Hs Hr Hp]
  · iexists S'
    isplitr; · ipureintro; rw [Fin.val_succ]; exact hInv
    isplitl [Hs]; · iexact Hs
    isplitl [Hr]; · iexact Hr
    iexact Hp
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists Y5; isplitr; · ipureintro; exact hout
  iexact H3

end Cert.KernelIdeal.R2Dat

end
-- ==== Proof.R0Value.lean ====
import proofs.«121951_g22909355557424_cont_8to1_1761_16_alg».proof.Proof.Gen.KernelIdeal.Skeleton
import proofs.«121951_g22909355557424_cont_8to1_1761_16_alg».proof.Proof.Spec
import Idealize.ShloMosaic.Lib.Pipeline.Value
import Idealize.ShloMosaic.Lib.ValueIdx
import Idealize.ShloMosaic.PureOps.Ideal.Laws
import Mathlib.Data.EReal.Operations

noncomputable section

namespace Cert.KernelIdeal.R0Value

open Cert.KernelIdeal Cert.KernelIdeal.Gen
open Idealize.ShloMosaic Idealize.ShloMosaic.ValueIdx

/-- A rows-by-columns product added to zero, of operands with real entries, is at each index the real sum of products over the shared axis. -/
theorem matmul_coe {M K N : ℕ} (L : FVec Ideal ⟨2, ![M, K]⟩ .f32) (R : FVec Ideal ⟨2, ![K, N]⟩ .f32)
    (x : Fin M → Fin K → ℝ) (w : Fin K → Fin N → ℝ) (hL : ∀ i j, L (ix2 i j) = ((x i j : ℝ) : EReal))
    (hR : ∀ i j, R (ix2 i j) = ((w i j : ℝ) : EReal)) (p : Fin M) (q : Fin N) :
    FloatOps.matmul (DotDims.plain M K N) none L R (constant _ .f32 0x00000000#32) (ix2 p q) = ((∑ f, x p f * w f q : ℝ) : EReal) := by
  rw [Ideal.matmul_constant_zero_apply, ← Equiv.sum_comp (contrEquiv1 (DotDims.plain M K N) K rfl rfl).symm, Cert.Spec.coe_sum]
  refine Finset.sum_congr rfl fun f _ => ?_
  rw [EReal.coe_mul, ← hL, ← hR]
  congr 2 <;> funext a <;> match a with | ⟨0, _⟩ => rfl | ⟨1, _⟩ => rfl

theorem pay1_apply (X : Vec Ideal S10000x128 .f32) (W1v : Vec Ideal S128x128 .f32)
    (x : Fin 10000 → Fin 128 → ℝ) (W1 : Fin 128 → Fin 128 → ℝ)
    (hX : ∀ i j, X (ix2 i j) = ((x i j : ℝ) : EReal)) (hW1 : ∀ i j, W1v (ix2 i j) = ((W1 i j : ℝ) : EReal))
    (k : Fin 10000) (l : Fin 128) :
    k0_pay1 (F := Ideal) X W1v (ix2 k l) = ((Cert.Spec.s1 x W1 k l : ℝ) : EReal) :=
  matmul_coe X W1v x W1 hX hW1 k l

theorem pay2_apply (W2v : Vec Ideal S128x128 .f32) (Wlinv : Vec Ideal S128x1 .f32)
    (W2 : Fin 128 → Fin 128 → ℝ) (Wlin : Fin 128 → ℝ)
    (hW2 : ∀ i j, W2v (ix2 i j) = ((W2 i j : ℝ) : EReal)) (hWlin : ∀ j, Wlinv (ix2 j 0) = ((Wlin j : ℝ) : EReal))
    (l : Fin 128) :
    k0_pay2 (F := Ideal) W2v Wlinv (ix2 l 0) = ((Cert.Spec.wv W2 Wlin l : ℝ) : EReal) :=
  matmul_coe W2v Wlinv W2 (fun j _ => Wlin j) hW2 (fun i j => by obtain rfl := Fin.fin_one_eq_zero j; exact hWlin i) l 0

theorem pay3_apply (B2row : Vec Ideal S1x128 .f32) (Wlinv : Vec Ideal S128x1 .f32) (Blin : Vec Ideal S1x1 .f32)
    (b2 : Fin 128 → ℝ) (Wlin : Fin 128 → ℝ) (blin : ℝ)
    (hB2 : ∀ j, B2row (ix2 0 j) = ((b2 j : ℝ) : EReal)) (hWlin : ∀ j, Wlinv (ix2 j 0) = ((Wlin j : ℝ) : EReal))
    (hBlin : Blin (ix2 0 0) = ((blin : ℝ) : EReal)) :
    k0_pay3 (F := Ideal) B2row Wlinv Blin (ix2 0 0) = ((Cert.Spec.c0 b2 Wlin blin : ℝ) : EReal) := by
  unfold k0_pay3 Cert.Spec.c0
  rw [shapeCast_self, shapeCast_self, addf_apply, EReal.coe_add, ← hBlin]
  exact congrArg (· + _) (matmul_coe B2row Wlinv (fun _ j => b2 j) (fun j _ => Wlin j)
    (fun i j => by obtain rfl := Fin.fin_one_eq_zero i; exact hB2 j) (fun i j => by obtain rfl := Fin.fin_one_eq_zero j; exact hWlin i) 0 0)

end Cert.KernelIdeal.R0Value

end
-- ==== Proof.R1DatArr.lean ====
import proofs.«121951_g22909355557424_cont_8to1_1761_16_alg».proof.Proof.R1DatDefs
import proofs.«121951_g22909355557424_cont_8to1_1761_16_alg».proof.Proof.R1DatFinds
import Idealize.ShloMosaic.Lib.Pipeline.Cells

set_option maxRecDepth 16384

noncomputable section

namespace Cert.KernelIdeal.R1Dat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)
open Idealize.ShloMosaic.ValueIdx
open scoped BigOperators

variable {U : Type} [URA U]

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

open Cert.KernelIdeal.Shared (vwAt partRow)

variable (V : (c : Dev nD) → (b : Ref sig .tc) → Buf (Elt Ideal) ((c : Thread nD τ).loc b))

theorem isOut_in : ∀ w : Fin cfg1.W, w.val < 5 → (cfg1.win w).isOut = false
  | ⟨0, _⟩, _ => rfl
  | ⟨1, _⟩, _ => rfl
  | ⟨2, _⟩, _ => rfl
  | ⟨3, _⟩, _ => rfl
  | ⟨4, _⟩, _ => rfl
  | ⟨n + 5, _⟩, h => absurd h (by show ¬ n + 5 < 5; omega)

theorem arrAt1_in (c : Dev nD) (w : Fin cfg1.W) (hw : w.val < 5) (t : ℕ)
    {G : Buf (Elt Ideal) ((cfg1.win w).arr.view.loc (c : Thread nD τ))}
    (h : (rd1 (U := U) adj x W1 b1 W2 b2 Wlin blin V c).ArrAt w t G) : G = V c (Pipeline.arrRef spec1 w) := by
  rw [RDat.ArrAt_in (rd1 (U := U) adj x W1 b1 W2 b2 Wlin blin V c) w (isOut_in w hw) t] at h
  exact h

theorem arrAt1_vw (hV : ∀ c, Good1 adj x W1 b1 W2 b2 Wlin blin c (V c)) (c : Dev nD)
    {G : Buf (Elt Ideal) ((cfg1.win 5).arr.view.loc (c : Thread nD τ))}
    (h : (rd1 (U := U) adj x W1 b1 W2 b2 Wlin blin V c).ArrAt 5 cfg1.N G) :
    (G : Vec Ideal S10240x128 .bf16) = vwAt adj x W1 b1 W2 Wlin 20 := by
  have h19 : (19 : ℕ) < cfg1.N := by show 19 < 20; omega
  obtain ⟨G₀, X, -, ⟨Y, hY, ha⟩, rfl⟩ := (congrFun (((rd1 (U := U) adj x W1 b1 W2 b2 Wlin blin V c).ArrAt_succ 5 ⟨19, h19⟩).trans
    (if_pos ((flush1_5 ⟨19, h19⟩).mpr rfl))) G).mp h
  rw [← (ha (finds5 adj x W1 b1 W2 b2 Wlin blin V c ⟨19, h19⟩ Y hY) : X = vwAt adj x W1 b1 W2 Wlin 20)]
  funext i
  have hw := View.write_emb_of_mem (Val := Elt Ideal) (v := ((cfg1.win 5).blk ⟨19, h19⟩).view) G₀
    ((cfg1.win 5).cut (cfg1.grid.coords ⟨19, h19⟩) X) (M := Finset.univ) (x := i) (Finset.mem_univ _)
  rwa [show ((cfg1.win 5).blk ⟨19, h19⟩).view.emb i = i from funext fun a => Fin.ext (by
    show (cfg1.win 5).index ⟨19, h19⟩ a * (cfg1.win 5).size a + 1 * (i a).val = (i a).val
    rw [index_zero 5 (by decide) (by decide)]; omega)] at hw

theorem idx6 : ∀ t : Fin cfg1.N, (cfg1.win 6).index t 0 = t.val ∧ (cfg1.win 6).index t 1 = 0 := by decide +kernel

theorem part_inv (c : Dev nD) : ∀ (n : ℕ) (hn : n ≤ cfg1.N) (G : Buf (Elt Ideal) ((cfg1.win 6).arr.view.loc (c : Thread nD τ))),
    (rd1 (U := U) adj x W1 b1 W2 b2 Wlin blin V c).ArrAt 6 n G → ∀ (r : Fin 10000), r.val < 512 * n →
      (G : Vec Ideal S10240x1 .f32) (ix2 (⟨r.val, by have := r.isLt; omega⟩ : Fin 10240) (0 : Fin 1))
        = ((partRow adj x W1 b1 W2 b2 Wlin blin (r.val / 512) r : ℝ) : EReal)
  | 0, _, _, _ => fun r hr => absurd hr (by omega)
  | n + 1, hn, G, hG => by
    have hn' : n < cfg1.N := hn
    have hn20 : n < 20 := hn'
    obtain ⟨G₀, X, hG₀, ⟨Y, -, ha⟩, rfl⟩ := (congrFun (((rd1 (U := U) adj x W1 b1 W2 b2 Wlin blin V c).ArrAt_succ 6 ⟨n, hn'⟩).trans
      (if_pos (flush1_6 ⟨n, hn'⟩))) G).mp hG
    have ha' : ∀ (r' : Fin 512) (hr' : 512 * n + r'.val < 10000), (X : Vec Ideal S512x1 .f32) (ix2 r' (0 : Fin 1))
        = ((partRow adj x W1 b1 W2 b2 Wlin blin n ⟨512 * n + r'.val, hr'⟩ : ℝ) : EReal) := ha
    intro r hr
    have hr10 := r.isLt
    by_cases hlo : r.val < 512 * n
    ·
      have hnm : (ix2 (⟨r.val, by omega⟩ : Fin 10240) (0 : Fin 1) : S10240x1.Idx)
          ∉ ((cfg1.win 6).blk ⟨n, hn'⟩).view.setOn Finset.univ := by
        rw [View.setOn_univ]
        show _ ∉ ((View.whole main_v4_1).slice ((cfg1.win 6).rect ⟨n, hn'⟩)).set
        rw [View.set_slice_whole, Rect.mem_set_unit]
        intro hm
        have h0 : (cfg1.win 6).index ⟨n, hn'⟩ 0 * 512 ≤ r.val := (hm 0).1
        rw [(idx6 ⟨n, hn'⟩).1] at h0
        have h0' : n * 512 ≤ r.val := h0
        omega
      rw [View.write_of_not_mem _ _ _ hnm]
      exact part_inv c n (Nat.le_of_lt hn') G₀ hG₀ r hlo
    ·
      have hr' : r.val - 512 * n < 512 := by omega
      have he : ((cfg1.win 6).blk ⟨n, hn'⟩).view.emb (ix2 (⟨r.val - 512 * n, hr'⟩ : Fin 512) (0 : Fin 1))
          = ix2 (⟨r.val, by omega⟩ : Fin 10240) (0 : Fin 1) := funext fun a => Fin.ext (by
        match a with
        | ⟨0, _⟩ =>
          show (cfg1.win 6).index ⟨n, hn'⟩ 0 * 512 + 1 * (r.val - 512 * n) = r.val
          rw [(idx6 ⟨n, hn'⟩).1]
          show n * 512 + 1 * (r.val - 512 * n) = r.val
          omega
        | ⟨1, _⟩ =>
          show (cfg1.win 6).index ⟨n, hn'⟩ 1 * 1 + 1 * 0 = 0
          rw [(idx6 ⟨n, hn'⟩).2])
      have hw := View.write_emb_of_mem (Val := Elt Ideal) (v := ((cfg1.win 6).blk ⟨n, hn'⟩).view) G₀
        ((cfg1.win 6).cut (cfg1.grid.coords ⟨n, hn'⟩) X) (M := Finset.univ)
        (x := ix2 (⟨r.val - 512 * n, hr'⟩ : Fin 512) (0 : Fin 1)) (Finset.mem_univ _)
      rw [he] at hw
      have hq : r.val / 512 = n := by omega
      have hx := ha' ⟨r.val - 512 * n, hr'⟩ (by show 512 * n + (r.val - 512 * n) < 10000; omega)
      rw [hq]
      refine hw.trans (Eq.trans ?_ (hx.trans ?_))
      · rfl
      · exact congrArg (fun k : Fin 10000 => ((partRow adj x W1 b1 W2 b2 Wlin blin n k : ℝ) : EReal))
          (Fin.ext (by show 512 * n + (r.val - 512 * n) = r.val; omega))

theorem arrAt1_part (hV : ∀ c, Good1 adj x W1 b1 W2 b2 Wlin blin c (V c)) (c : Dev nD)
    {G : Buf (Elt Ideal) ((cfg1.win 6).arr.view.loc (c : Thread nD τ))}
    (h : (rd1 (U := U) adj x W1 b1 W2 b2 Wlin blin V c).ArrAt 6 cfg1.N G) :
    ∀ r : Fin 10000, (G : Vec Ideal S10240x1 .f32) (ix2 (⟨r.val, by have := r.isLt; omega⟩ : Fin 10240) (0 : Fin 1))
      = ((partRow adj x W1 b1 W2 b2 Wlin blin (r.val / 512) r : ℝ) : EReal) :=
  fun r => part_inv adj x W1 b1 W2 b2 Wlin blin V c cfg1.N (Nat.le_refl _) G h r (by
    have := r.isLt
    show r.val < 512 * 20
    omega)

end Cert.KernelIdeal.R1Dat
-- ==== Proof.AsmGood.lean ====
import proofs.«121951_g22909355557424_cont_8to1_1761_16_alg».proof.Proof.Launch
import proofs.«121951_g22909355557424_cont_8to1_1761_16_alg».proof.Proof.R0
import proofs.«121951_g22909355557424_cont_8to1_1761_16_alg».proof.Proof.R0Value
import proofs.«121951_g22909355557424_cont_8to1_1761_16_alg».proof.Proof.R1DatDefs
import proofs.«121951_g22909355557424_cont_8to1_1761_16_alg».proof.Proof.R1DatArr
import proofs.«121951_g22909355557424_cont_8to1_1761_16_alg».proof.Proof.R2DatDefs
import Idealize.ShloMosaic.Lib.ValueLayout
import Idealize.ShloMosaic.Lib.StableHlo.Run

set_option maxRecDepth 16384

noncomputable section

namespace Cert.Proof.Parts

open Cert.KernelIdeal Cert.KernelIdeal.Gen
open Idealize.ShloMosaic Idealize.ShloMosaic.TcCoe Idealize.ShloMosaic.ValueIdx
open Idealize.SL.Sem
open Idealize.ShloMosaic.Pipeline (Dat RDat)

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

variable (m : (ℓ : Loc nD τ sig) → Buf (Elt Ideal) ℓ)

abbrev ArgsAre : Prop :=
  ∀ c : Dev nD,
    (∀ i j, m ((c.tc : Thread nD τ).loc main_arg0) (ix2 i j) = ((adj i j : ℝ) : EReal))
    ∧ (∀ i j, m ((c.tc : Thread nD τ).loc main_arg1) (ix2 i j) = ((x i j : ℝ) : EReal))
    ∧ (∀ i j, m ((c.tc : Thread nD τ).loc main_arg2) (ix2 i j) = ((W1 i j : ℝ) : EReal))
    ∧ (∀ i, m ((c.tc : Thread nD τ).loc main_arg3) (ix1 i) = ((b1 i : ℝ) : EReal))
    ∧ (∀ i j, m ((c.tc : Thread nD τ).loc main_arg4) (ix2 i j) = ((W2 i j : ℝ) : EReal))
    ∧ (∀ i, m ((c.tc : Thread nD τ).loc main_arg5) (ix1 i) = ((b2 i : ℝ) : EReal))
    ∧ (∀ i, m ((c.tc : Thread nD τ).loc main_arg6) (ix2 i 0) = ((Wlin i : ℝ) : EReal))
    ∧ m ((c.tc : Thread nD τ).loc main_arg7) (ix1 0) = ((blin : ℝ) : EReal)

abbrev asmDat0 : (c : Dev nD) → Dat τ (Elt Ideal) Unit ℕ Launch.UU ℕ cfg0 c :=
  fun c => Cert.KernelIdeal.R0.dat0 (U := Launch.UU) (Launch.V1 m) c

abbrev asmRd1 : (c : Dev nD) → RDat τ (Elt Ideal) Unit ℕ Launch.UU ℕ cfg1 c :=
  fun c => Cert.KernelIdeal.R1Dat.rd1 (U := Launch.UU) adj x W1 b1 W2 b2 Wlin blin (Launch.V3 m (asmDat0 m)) c

theorem V1_of (c : Dev nD) (r : Ref sig .tc) (h : r ∉ (hostOps0_W : List (Ref sig .tc))) :
    Launch.V1 m c r = m ((c : Thread nD τ).loc r) :=
  (StableHlo.after_of_writes_sub hostOps0 _ hostOps0_writes h).trans rfl

theorem V3_of (c : Dev nD) (r : Ref sig .tc) (h0 : r ∉ (hostOps0_W : List (Ref sig .tc))) (h1 : r ∉ (hostOps1_W : List (Ref sig .tc)))
    (hw : ∀ w, Pipeline.arrRef spec0 w ≠ r) :
    Launch.V3 m (asmDat0 m) c r = m ((c : Thread nD τ).loc r) :=
  (StableHlo.after_of_writes_sub hostOps1 _ hostOps1_writes h1).trans
    ((Launch.W2_of_ne m (asmDat0 m) c r hw).trans (V1_of m c r h0))

theorem V3_arr (c : Dev nD) (w : Fin cfg0.W) (h1 : Pipeline.arrRef spec0 w ∉ (hostOps1_W : List (Ref sig .tc))) :
    Launch.V3 m (asmDat0 m) c (Pipeline.arrRef spec0 w) = (asmDat0 m c).arrAt w cfg0.N :=
  (StableHlo.after_of_writes_sub hostOps1 _ hostOps1_writes h1).trans (Launch.W2_arr m (asmDat0 m) c w)

theorem V1_main_v0 (hall : ArgsAre adj x W1 b1 W2 b2 Wlin blin m) (c : Dev nD) (j : Fin 128) :
    (Launch.V1 m c main_v0 : Vec Ideal S1x128 .f32) (ix2 0 j) = ((b2 j : ℝ) : EReal) := by
  have e : (Launch.V1 m c main_v0 : S1x128.Idx → EReal)
      = shapeCast S1x128 (m ((c : Thread nD τ).loc main_arg5) : S128.Idx → EReal) shapeCasts_S128_S1x128 := by
    show StableHlo.after hostOps0 (fun b => m (c, b)) (Proc.devRef .tc main_v0) = _
    after_results; rfl
  rw [e, shapeCast_a_1a_apply]
  exact (hall c).2.2.2.2.2.1 j

theorem V1_main_v1 (hall : ArgsAre adj x W1 b1 W2 b2 Wlin blin m) (c : Dev nD) :
    (Launch.V1 m c main_v1 : Vec Ideal S1x1 .f32) (ix2 0 0) = ((blin : ℝ) : EReal) := by
  have e : (Launch.V1 m c main_v1 : S1x1.Idx → EReal)
      = shapeCast S1x1 (m ((c : Thread nD τ).loc main_arg7) : S1.Idx → EReal) shapeCasts_S1_S1x1 := by
    show StableHlo.after hostOps0 (fun b => m (c, b)) (Proc.devRef .tc main_v1) = _
    after_results; rfl
  rw [e, shapeCast_a_1a_apply]
  exact (hall c).2.2.2.2.2.2.2

theorem V3_main_v3 (hall : ArgsAre adj x W1 b1 W2 b2 Wlin blin m) (c : Dev nD) (l : Fin 128) :
    (Launch.V3 m (asmDat0 m) c main_v3 : Vec Ideal S1x128 .f32) (ix2 0 l) = ((b1 l : ℝ) : EReal) := by
  have e : (Launch.V3 m (asmDat0 m) c main_v3 : S1x128.Idx → EReal)
      = shapeCast S1x128 (Launch.W2 m (asmDat0 m) c (Proc.devRef .tc main_arg3) : S128.Idx → EReal) shapeCasts_S128_S1x128 := by
    show StableHlo.after hostOps1 (Launch.W2 m (asmDat0 m) c) (Proc.devRef .tc main_v3) = _
    after_results; rfl
  rw [e, shapeCast_a_1a_apply, Launch.W2_of_ne m (asmDat0 m) c main_arg3 (by decide)]
  exact ((congrFun (V1_of m c main_arg3 (by decide)) (ix1 l)).trans ((hall c).2.2.2.1 l))

theorem good1 (hall : ArgsAre adj x W1 b1 W2 b2 Wlin blin m) (c : Dev nD) :
    Cert.KernelIdeal.R1Dat.Good1 adj x W1 b1 W2 b2 Wlin blin c (Launch.V3 m (asmDat0 m) c) where
  adj i j := by
    rw [V3_of m c main_arg0 (by decide) (by decide) (by decide)]
    exact (hall c).1 i j
  s1 k l := by
    rw [V3_arr m c 6 (by decide), Cert.KernelIdeal.R0.arr0_6]
    exact Cert.KernelIdeal.R0Value.pay1_apply _ _ x W1
      (fun i j => (congrFun (V1_of m c main_arg1 (by decide)) (ix2 i j)).trans ((hall c).2.1 i j))
      (fun i j => (congrFun (V1_of m c main_arg2 (by decide)) (ix2 i j)).trans ((hall c).2.2.1 i j)) k l
  b1 l := V3_main_v3 adj x W1 b1 W2 b2 Wlin blin m hall c l
  wv l := by
    rw [V3_arr m c 7 (by decide), Cert.KernelIdeal.R0.arr0_7]
    exact Cert.KernelIdeal.R0Value.pay2_apply _ _ W2 Wlin
      (fun i j => (congrFun (V1_of m c main_arg4 (by decide)) (ix2 i j)).trans ((hall c).2.2.2.2.1 i j))
      (fun j => (congrFun (V1_of m c main_arg6 (by decide)) (ix2 j 0)).trans ((hall c).2.2.2.2.2.2.1 j)) l
  c0 := by
    rw [V3_arr m c 8 (by decide), Cert.KernelIdeal.R0.arr0_8]
    exact Cert.KernelIdeal.R0Value.pay3_apply _ _ _ b2 Wlin blin
      (V1_main_v0 adj x W1 b1 W2 b2 Wlin blin m hall c)
      (fun j => (congrFun (V1_of m c main_arg6 (by decide)) (ix2 j 0)).trans ((hall c).2.2.2.2.2.2.1 j))
      (V1_main_v1 adj x W1 b1 W2 b2 Wlin blin m hall c)

theorem good2 (hall : ArgsAre adj x W1 b1 W2 b2 Wlin blin m) (c : Dev nD)
    (V4 : (b : Ref sig .tc) → Buf (Elt Ideal) ((c : Thread nD τ).loc b))
    (hV4 : Launch.P4 m (asmDat0 m) (asmRd1 adj x W1 b1 W2 b2 Wlin blin m) c V4) :
    Cert.KernelIdeal.R2Dat.Good2 adj x W1 b1 W2 b2 Wlin blin V4 where
  hadj i j := by
    have e : V4 main_arg0 = Launch.V3 m (asmDat0 m) c main_arg0 :=
      Cert.KernelIdeal.R1Dat.arrAt1_in adj x W1 b1 W2 b2 Wlin blin (Launch.V3 m (asmDat0 m)) c 0 (by decide) cfg1.N (hV4.1 0)
    rw [e]
    exact (good1 adj x W1 b1 W2 b2 Wlin blin m hall c).adj i j
  hvw := Cert.KernelIdeal.R1Dat.arrAt1_vw adj x W1 b1 W2 b2 Wlin blin (Launch.V3 m (asmDat0 m))
    (fun c => good1 adj x W1 b1 W2 b2 Wlin blin m hall c) c (hV4.1 5)
  hpart := Cert.KernelIdeal.R1Dat.arrAt1_part adj x W1 b1 W2 b2 Wlin blin (Launch.V3 m (asmDat0 m))
    (fun c => good1 adj x W1 b1 W2 b2 Wlin blin m hall c) c (hV4.1 6)

end Cert.Proof.Parts

end
-- ==== Proof.R2DatArr.lean ====
import proofs.«121951_g22909355557424_cont_8to1_1761_16_alg».proof.Proof.R2DatDefs
import Idealize.ShloMosaic.Lib.Pipeline.Value

set_option maxRecDepth 16384

noncomputable section

namespace Cert.KernelIdeal.R2Dat

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {U : Type} [URA U]

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

variable (c : Dev nD) (V : (b : Ref sig .tc) → Buf (Elt Ideal) ((c : Thread nD τ).loc b))

theorem index2_3_0 : ∀ t : Fin cfg2.N, (cfg2.win 3).index t 0 = t.val / 4 :=
  (by decide +kernel : ∀ t : Fin grid2.N, win2_3.index t 0 = t.val / 4)

theorem index2_3_1 : ∀ t : Fin cfg2.N, (cfg2.win 3).index t 1 = 0 :=
  (by decide +kernel : ∀ t : Fin grid2.N, win2_3.index t 1 = 0)

theorem mem_blk2_3 (t : Fin cfg2.N) (i : S10240x1.Idx) (h : 512 * (t.val / 4) ≤ (i 0 : Nat) ∧ (i 0 : Nat) < 512 * (t.val / 4) + 512) :
    i ∈ ((cfg2.win 3).blk t).view.setOn Finset.univ := by
  rw [View.setOn_univ]
  show i ∈ ((View.whole main_v5).slice ((cfg2.win 3).rect t)).set
  rw [View.set_slice_whole, Rect.mem_set_unit]
  have h1 : (i 1 : Nat) < 1 := (i 1).isLt
  intro a
  match a with
  | ⟨0, _⟩ =>
    change (cfg2.win 3).index t 0 * 512 ≤ (i 0 : Nat) ∧ (i 0 : Nat) < (cfg2.win 3).index t 0 * 512 + 512
    rw [index2_3_0]; omega
  | ⟨1, _⟩ =>
    change (cfg2.win 3).index t 1 * 1 ≤ (i 1 : Nat) ∧ (i 1 : Nat) < (cfg2.win 3).index t 1 * 1 + 1
    rw [index2_3_1]; omega

theorem arrAt2_out_below : ∀ (n : ℕ), n ≤ cfg2.N →
    ∀ G : Buf (Elt Ideal) ((cfg2.win 3).arr.view.loc (c.tc : Thread nD τ)),
      (rd2 (U := U) adj x W1 b1 W2 b2 Wlin blin c V).ArrAt 3 n G →
      ∀ r : Fin 10000, r.val < 512 * (n / 4) →
        (G : Vec Ideal S10240x1 .f32) (ix2 (⟨r.val, by omega⟩ : Fin 10240) (0 : Fin 1))
          = ((Spec.outK adj x W1 b1 W2 b2 Wlin blin r : ℝ) : EReal)
  | 0, _, G, _, r, hr => absurd hr (by omega)
  | n + 1, hn, G, h, r, hr => by
    have hlt : n < cfg2.N := hn
    have hsucc := (rd2 (U := U) adj x W1 b1 W2 b2 Wlin blin c V).ArrAt_succ 3 ⟨n, hlt⟩
    change (rd2 (U := U) adj x W1 b1 W2 b2 Wlin blin c V).ArrAt 3 ((⟨n, hlt⟩ : Fin cfg2.N).val + 1) G at h
    rw [hsucc] at h
    by_cases hf : (cfg2.win 3).flush ⟨n, hlt⟩ = true
    · rw [if_pos hf] at h
      have hm : n % 4 = 3 := (flush2_3 ⟨n, hlt⟩).mp hf
      obtain ⟨G₀, X, hG₀, ⟨Y, _, hYX⟩, rfl⟩ := h
      have hX : ∀ (q : Fin 512) (hq : 512 * (n / 4) + q.val < 10000),
          X (ix2 q (0 : Fin 1)) = ((Spec.outK adj x W1 b1 W2 b2 Wlin blin ⟨512 * (n / 4) + q.val, hq⟩ : ℝ) : EReal) := by
        have h' := hYX
        change (if n % 4 = 3 then _ else _) at h'
        rw [if_pos hm] at h'
        exact h'
      by_cases hi : (ix2 (⟨r.val, by omega⟩ : Fin 10240) (0 : Fin 1) : S10240x1.Idx) ∈ ((cfg2.win 3).blk ⟨n, hlt⟩).view.setOn Finset.univ
      · obtain ⟨y, -, hy⟩ := Finset.mem_map.mp hi
        have hy0 : ((((cfg2.win 3).blk ⟨n, hlt⟩).view.emb y) 0 : Nat) = 512 * (n / 4) + (y 0).val := by
          have h0 := (cfg2.win 3).rect_emb_val ⟨n, hlt⟩ y 0
          rw [index2_3_0] at h0
          change ((((cfg2.win 3).blk ⟨n, hlt⟩).view.emb y) 0 : Nat) = n / 4 * 512 + (y 0).val at h0
          omega
        have hr0 : (y 0 : Nat) < 512 := (y 0).isLt
        have hy1 : (y 1 : Nat) = 0 := by
          have h1 : (y 1 : Nat) < 1 := (y 1).isLt
          omega
        have hrow : r.val = 512 * (n / 4) + (y 0).val := by rw [← hy0, hy]; rfl
        have hxy : (cfg2.win 3).xinj (cfg2.grid.coords ⟨n, hlt⟩) y = ix2 (⟨(y 0).val, hr0⟩ : Fin 512) (0 : Fin 1) :=
          funext fun a => Fin.ext (by
            match a with
            | ⟨0, _⟩ => rfl
            | ⟨1, _⟩ => exact hy1)
        have hq : 512 * (n / 4) + (y 0).val < 10000 := by have := r.isLt; omega
        rw [← hy, View.write_emb_of_mem _ _ (Finset.mem_univ y)]
        refine (cast_eq _ _).trans ?_
        show X ((cfg2.win 3).xinj (cfg2.grid.coords ⟨n, hlt⟩) y) = _
        rw [hxy, hX ⟨(y 0).val, hr0⟩ hq]
        have e : (⟨512 * (n / 4) + (y 0).val, hq⟩ : Fin 10000) = r := Fin.ext hrow.symm
        rw [e]
      · have hr' : r.val < 512 * (n / 4) := by
          by_contra hge
          exact hi (mem_blk2_3 ⟨n, hlt⟩ _ (by show 512 * (n / 4) ≤ r.val ∧ r.val < 512 * (n / 4) + 512; omega))
        rw [View.write_of_not_mem _ _ _ hi]
        exact arrAt2_out_below n (by omega) G₀ hG₀ r hr'
    · rw [if_neg hf] at h
      have hm : n % 4 ≠ 3 := fun e => hf ((flush2_3 ⟨n, hlt⟩).mpr e)
      exact arrAt2_out_below n (by omega) G h r (by omega)

theorem arrAt2_out (hV : Good2 adj x W1 b1 W2 b2 Wlin blin V)
    {G : Buf (Elt Ideal) ((cfg2.win 3).arr.view.loc (c.tc : Thread nD τ))}
    (h : (rd2 (U := U) adj x W1 b1 W2 b2 Wlin blin c V).ArrAt 3 cfg2.N G) :
    ∀ r : Fin 10000, (G : Vec Ideal S10240x1 .f32) (ix2 (⟨r.val, by omega⟩ : Fin 10240) (0 : Fin 1))
      = ((Spec.outK adj x W1 b1 W2 b2 Wlin blin r : ℝ) : EReal) := fun r =>
  arrAt2_out_below (U := U) adj x W1 b1 W2 b2 Wlin blin c V cfg2.N (le_refl _) G h r (by
    have hN : cfg2.N = 80 := N_2
    have := r.isLt
    rw [hN]; omega)

end Cert.KernelIdeal.R2Dat

end
-- ==== Proof.AsmFinal.lean ====
import proofs.«121951_g22909355557424_cont_8to1_1761_16_alg».proof.Proof.Launch
import proofs.«121951_g22909355557424_cont_8to1_1761_16_alg».proof.Proof.R2DatDefs
import proofs.«121951_g22909355557424_cont_8to1_1761_16_alg».proof.Proof.R2DatArr
import Idealize.ShloMosaic.Lib.ValueLayout

set_option maxRecDepth 16384

noncomputable section

namespace Cert.Proof.Parts

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat)

variable (m : (ℓ : Loc nD τ sig) → Buf (Elt Ideal) ℓ)
variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

abbrev rd2A : (c : Dev nD) → ((b : Ref sig .tc) → Buf (Elt Ideal) ((c : Thread nD τ).loc b)) → RDat τ (Elt Ideal) Unit ℕ Cert.KernelIdeal.Launch.UU ℕ cfg2 c :=
  fun c V4 => Cert.KernelIdeal.R2Dat.rd2 (U := Cert.KernelIdeal.Launch.UU) adj x W1 b1 W2 b2 Wlin blin c V4

variable (c : Dev nD) (V4 V5 : (b : Ref sig .tc) → Buf (Elt Ideal) ((c : Thread nD τ).loc b))

theorem final_result (hV5 : Cert.KernelIdeal.Launch.P5 (rd2A adj x W1 b1 W2 b2 Wlin blin) c V4 V5)
    (hG2 : Cert.KernelIdeal.R2Dat.Good2 adj x W1 b1 W2 b2 Wlin blin V4) :
    ∀ rr : Fin 10000, (StableHlo.after (hostOps3 (F := Ideal)) (Cert.KernelIdeal.Launch.liftV c (Cert.KernelIdeal.Launch.W0 m c) V5) (Proc.devRef .tc main_v6) : Vec Ideal S10000x1 .f32) (ix2 rr (0 : Fin 1))
      = ((Cert.Spec.outK adj x W1 b1 W2 b2 Wlin blin rr : ℝ) : EReal) := by
  intro rr
  have e : (StableHlo.after (hostOps3 (F := Ideal)) (Cert.KernelIdeal.Launch.liftV c (Cert.KernelIdeal.Launch.W0 m c) V5) (Proc.devRef .tc main_v6) : Vec Ideal S10000x1 .f32)
      = extractStridedSlice S10000x1 ![0, 0] (Cert.KernelIdeal.Launch.liftV c (Cert.KernelIdeal.Launch.W0 m c) V5 (Proc.devRef .tc main_v5) : Vec Ideal S10240x1 .f32)
          Facts₀.slices_S10240x1_S10000x1_0_0 := by
    dsimp only [hostOps3]; after_results
  rw [e, Cert.KernelIdeal.Launch.liftV_tc]
  rw [slice2_axis0_apply 0 (V5 main_v5 : Vec Ideal S10240x1 .f32) Facts₀.slices_S10240x1_S10000x1_0_0 rr (0 : Fin 1)
    (⟨rr.val, by omega⟩ : Fin 10240) (by simp)]
  exact Cert.KernelIdeal.R2Dat.arrAt2_out (U := Cert.KernelIdeal.Launch.UU) adj x W1 b1 W2 b2 Wlin blin c V4 hG2 (hV5.1 3) rr

end Cert.Proof.Parts

end
-- ==== Proof.AsmArgs.lean ====
import proofs.«121951_g22909355557424_cont_8to1_1761_16_alg».proof.Proof.Launch

noncomputable section

namespace Cert.KernelIdeal.AsmArgs

open Cert.KernelIdeal Cert.KernelIdeal.Gen
open Idealize.ShloMosaic Idealize.ShloMosaic.TcCoe
open Idealize.SL Idealize.SL.Sem
open Idealize.ShloMosaic.Pipeline (Dat RDat)

variable {F : FTy → Type} [FloatOps F]

variable (m : (ℓ : Loc nD τ sig) → Buf (Elt F) ℓ)
  (dat0 : (c : Dev nD) → Dat τ (Elt F) Unit ℕ Launch.UU ℕ cfg0 c)
  (rd1 : (c : Dev nD) → RDat τ (Elt F) Unit ℕ Launch.UU ℕ cfg1 c)
  (rd2 : (c : Dev nD) → ((b : Ref sig .tc) → Buf (Elt F) ((c : Thread nD τ).loc b)) → RDat τ (Elt F) Unit ℕ Launch.UU ℕ cfg2 c)

variable (c : Dev nD) (V4 V5 : (b : Ref sig .tc) → Buf (Elt F) ((c : Thread nD τ).loc b))

/-- The argument followed backwards from the end: through the last stretch, the two passes, the third reshape, the preparation kernel and the first reshapes. -/
theorem arg_end (b : Ref sig .tc) (h5 : V5 b = V4 b) (h4 : V4 b = Launch.V3 m dat0 c b)
    (h2 : Launch.W2 m dat0 c (Proc.devRef .tc b) = Launch.W1 m c (Proc.devRef .tc b))
    (hd : b ∉ hostOps3_W ∧ b ∉ hostOps1_W ∧ b ∉ hostOps0_W) :
    StableHlo.after (hostOps3 (F := F)) (Launch.liftV c (Launch.W0 m c) V5) (Proc.devRef .tc b) = m ((c : Thread nD τ).loc b) :=
  (StableHlo.after_of_writes_sub hostOps3 _ hostOps3_writes hd.1).trans <| (Launch.liftV_tc c _ V5 b).trans <| h5.trans <| h4.trans <|
    (StableHlo.after_of_writes_sub hostOps1 _ hostOps1_writes hd.2.1).trans <| h2.trans <|
    (StableHlo.after_of_writes_sub hostOps0 _ hostOps0_writes hd.2.2).trans rfl

theorem final_args (hA0 : ∀ c w, (dat0 c).A w = Launch.V1 m c (Pipeline.arrRef spec0 w))
    (hA1 : ∀ c w, (rd1 c).A w = Launch.V3 m dat0 c (Pipeline.arrRef spec1 w))
    (hA2 : ∀ c V4 w, (rd2 c V4).A w = V4 (Pipeline.arrRef spec2 w))
    (hV4 : Launch.P4 m dat0 rd1 c V4) (hV5 : Launch.P5 rd2 c V4 V5) :
    StableHlo.after (hostOps3 (F := F)) (Launch.liftV c (Launch.W0 m c) V5) (Proc.devRef .tc main_arg0) = m ((c : Thread nD τ).loc main_arg0)
    ∧ StableHlo.after (hostOps3 (F := F)) (Launch.liftV c (Launch.W0 m c) V5) (Proc.devRef .tc main_arg1) = m ((c : Thread nD τ).loc main_arg1)
    ∧ StableHlo.after (hostOps3 (F := F)) (Launch.liftV c (Launch.W0 m c) V5) (Proc.devRef .tc main_arg2) = m ((c : Thread nD τ).loc main_arg2)
    ∧ StableHlo.after (hostOps3 (F := F)) (Launch.liftV c (Launch.W0 m c) V5) (Proc.devRef .tc main_arg3) = m ((c : Thread nD τ).loc main_arg3)
    ∧ StableHlo.after (hostOps3 (F := F)) (Launch.liftV c (Launch.W0 m c) V5) (Proc.devRef .tc main_arg4) = m ((c : Thread nD τ).loc main_arg4)
    ∧ StableHlo.after (hostOps3 (F := F)) (Launch.liftV c (Launch.W0 m c) V5) (Proc.devRef .tc main_arg5) = m ((c : Thread nD τ).loc main_arg5)
    ∧ StableHlo.after (hostOps3 (F := F)) (Launch.liftV c (Launch.W0 m c) V5) (Proc.devRef .tc main_arg6) = m ((c : Thread nD τ).loc main_arg6)
    ∧ StableHlo.after (hostOps3 (F := F)) (Launch.liftV c (Launch.W0 m c) V5) (Proc.devRef .tc main_arg7) = m ((c : Thread nD τ).loc main_arg7) := by
  have o := fun b (h : b ∉ Finset.univ.image (Pipeline.arrRef spec2) ∧ b ∉ Finset.univ.image (Pipeline.arrRef spec1)) =>
    arg_end m dat0 c V4 V5 b (hV5.2 b h.1) (hV4.2 b h.2)
  have i := fun w hin => (Launch.W2_arr m dat0 c w).trans (((dat0 c).arrAt_in w hin cfg0.N).trans (hA0 c w))
  have n := Launch.W2_of_ne m dat0 c
  have h5 := hV5.1 0
  have h4 := hV4.1 0
  rw [Pipeline.RDat.ArrAt_in _ (0 : Fin cfg2.W) rfl cfg2.N] at h5
  rw [Pipeline.RDat.ArrAt_in _ (0 : Fin cfg1.W) rfl cfg1.N] at h4
  exact ⟨arg_end m dat0 c V4 V5 main_arg0 (h5.trans (hA2 c V4 0)) (h4.trans (hA1 c 0)) (n _ (by decide)) (by decide),
    o main_arg1 (by decide) (i 0 rfl) (by decide), o main_arg2 (by decide) (i 1 rfl) (by decide),
    o main_arg3 (by decide) (n _ (by decide)) (by decide), o main_arg4 (by decide) (i 2 rfl) (by decide),
    o main_arg5 (by decide) (n _ (by decide)) (by decide), o main_arg6 (by decide) (i 4 rfl) (by decide),
    o main_arg7 (by decide) (n _ (by decide)) (by decide)⟩

end Cert.KernelIdeal.AsmArgs

end
-- ==== Proof.RefFinite.lean ====
import proofs.«121951_g22909355557424_cont_8to1_1761_16_alg».proof.Pre_finite_inputs
import Idealize.ShloMosaic.Lib.ReduceAll
import Idealize.ShloMosaic.Lib.ValueIdx
import Idealize.ShloMosaic.PureOps.Ideal.Laws
import Mathlib.Data.EReal.Basic

noncomputable section

namespace Cert.RefSide

open Idealize.ShloMosaic Idealize.ShloMosaic.ValueIdx Cert.Pre_finite_inputs

theorem ofBits_inf_f32 : Ideal.ofBits .f32 0x7F800000#32 = (⊤ : EReal) := by
  simp [Ideal.ofBits, Ideal.ieee]

theorem real_of_abs_lt_top (a : EReal) (h : max a (-a) < ⊤) : ∃ r : ℝ, a = (r : EReal) := by
  induction a using EReal.rec with
  | bot => simp at h
  | coe r => exact ⟨r, rfl⟩
  | top => simp at h

-- One conjunction of the tests "|A i| < +∞" over an array of any shape: where it holds every entry is a real.
theorem real_of_all_finite {s : Shape} {axes : List (Fin s.rank)} (bc : S_.BroadcastsInDim s (![] : Fin 0 → Fin s.rank))
    (hr : s.ReducesTo axes S_) (hu : 0 < S_.numel) (A : FVec Ideal s .f32) (init : IVec S_ 1)
    (e : Host.reduce IntOp.andi (cmpf .olt (Host.absf A)
          (broadcastInDim s ![] bc (constant (F := Ideal) S_ .f32 0x7F800000#32))) init hr hu ix0 = 1#1)
    (i : s.Idx) : ∃ r : ℝ, A i = (r : EReal) := by
  have h : Ideal.cmp .olt (max (A i) (-(A i))) (Ideal.ofBits .f32 0x7F800000#32) = 1#1 :=
    Host.reduce_andi_eq_one _ _ hr hu ix0 e i (eq_ix0 _)
  rw [ofBits_inf_f32] at h
  exact real_of_abs_lt_top (A i) (by by_contra hn; simp [Ideal.cmp, hn] at h)

theorem reals_of_pre [Facts] {A0 A1 A2 A3 A4 A5 A6 A7} (h : fn (F := Ideal) A0 A1 A2 A3 A4 A5 A6 A7 = fun _ => 1#1) :
    ∃ (adj : Fin 10000 → Fin 10000 → ℝ) (x : Fin 10000 → Fin 128 → ℝ) (W1 : Fin 128 → Fin 128 → ℝ) (b1 : Fin 128 → ℝ)
      (W2 : Fin 128 → Fin 128 → ℝ) (b2 : Fin 128 → ℝ) (Wlin : Fin 128 → ℝ) (blin : ℝ),
      (∀ i j, A0 (ix2 i j) = ((adj i j : ℝ) : EReal)) ∧ (∀ i j, A1 (ix2 i j) = ((x i j : ℝ) : EReal))
      ∧ (∀ i j, A2 (ix2 i j) = ((W1 i j : ℝ) : EReal)) ∧ (∀ i, A3 (ix1 i) = ((b1 i : ℝ) : EReal))
      ∧ (∀ i j, A4 (ix2 i j) = ((W2 i j : ℝ) : EReal)) ∧ (∀ i, A5 (ix1 i) = ((b2 i : ℝ) : EReal))
      ∧ (∀ i, A6 (ix2 i 0) = ((Wlin i : ℝ) : EReal)) ∧ A7 (ix1 0) = ((blin : ℝ) : EReal) := by
  have h0 := congrFun h ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  choose g0 hg0 using real_of_all_finite _ _ _ A0 _ e0
  choose g1 hg1 using real_of_all_finite _ _ _ A1 _ e1
  choose g2 hg2 using real_of_all_finite _ _ _ A2 _ e2
  choose g3 hg3 using real_of_all_finite _ _ _ A3 _ e3
  choose g4 hg4 using real_of_all_finite _ _ _ A4 _ e4
  choose g5 hg5 using real_of_all_finite _ _ _ A5 _ e5
  choose g6 hg6 using real_of_all_finite _ _ _ A6 _ e6
  choose g7 hg7 using real_of_all_finite _ _ _ A7 _ e7
  exact ⟨fun i j => g0 (ix2 i j), fun i j => g1 (ix2 i j), fun i j => g2 (ix2 i j), fun i => g3 (ix1 i),
    fun i j => g4 (ix2 i j), fun i => g5 (ix1 i), fun i => g6 (ix2 i 0), g7 (ix1 0),
    fun _ _ => hg0 _, fun _ _ => hg1 _, fun _ _ => hg2 _, fun _ => hg3 _, fun _ _ => hg4 _, fun _ => hg5 _,
    fun _ => hg6 _, hg7 _⟩

end Cert.RefSide

end
-- ==== Proof.RefRead.lean ====
import proofs.«121951_g22909355557424_cont_8to1_1761_16_alg».proof.Proof.Gen.ReferenceIdeal.Run
import proofs.«121951_g22909355557424_cont_8to1_1761_16_alg».proof.Proof.Gen.ReferenceIdeal.Read
import proofs.«121951_g22909355557424_cont_8to1_1761_16_alg».proof.Proof.Spec

noncomputable section

namespace Cert.RefSide

open Idealize.ShloMosaic Idealize.ShloMosaic.ValueIdx Cert.ReferenceIdeal Cert.ReferenceIdeal.Read
open Cert.Spec (coe_max sum_mul_coe)

-- A real matrix and a real vector as arrays of extended reals, read at any index.
def arr2 {n0 n1 : ℕ} (f : Fin n0 → Fin n1 → ℝ) (j : (⟨2, ![n0, n1]⟩ : Shape).Idx) : EReal := (f (j 0) (j 1) : ℝ)
def arr1 {n : ℕ} (f : Fin n → ℝ) (j : (⟨1, ![n]⟩ : Shape).Idx) : EReal := (f (j 0) : ℝ)

-- An array known at every pair of coordinates is the array of that matrix; likewise a vector, one column, one entry.
theorem arr2_of {n0 n1 : ℕ} {A : (⟨2, ![n0, n1]⟩ : Shape).Idx → EReal} {f : Fin n0 → Fin n1 → ℝ}
    (h : ∀ i j, A (ix2 i j) = (f i j : ℝ)) : A = arr2 f := funext fun j => (congrArg A (eq_ix2 j)).trans (h _ _)
theorem arr1_of {n : ℕ} {A : (⟨1, ![n]⟩ : Shape).Idx → EReal} {f : Fin n → ℝ} (h : ∀ i, A (ix1 i) = (f i : ℝ)) :
    A = arr1 f := funext fun j => (congrArg A (eq_ix1 j)).trans (h _)
theorem col_of {n : ℕ} {A : (⟨2, ![n, 1]⟩ : Shape).Idx → EReal} {f : Fin n → ℝ} (h : ∀ i, A (ix2 i 0) = (f i : ℝ)) :
    A = arr2 fun i _ => f i := arr2_of fun i j => Fin.eq_zero j ▸ h i
theorem one_of {A : (⟨1, ![1]⟩ : Shape).Idx → EReal} {b : ℝ} (h : A (ix1 0) = (b : ℝ)) : A = arr1 fun _ => b :=
  arr1_of fun i => Fin.eq_zero i ▸ h

variable (adj : Fin 10000 → Fin 10000 → ℝ) (x : Fin 10000 → Fin 128 → ℝ) (W1 : Fin 128 → Fin 128 → ℝ) (b1 : Fin 128 → ℝ)
  (W2 : Fin 128 → Fin 128 → ℝ) (b2 : Fin 128 → ℝ) (Wlin : Fin 128 → ℝ) (blin : ℝ)

theorem v0_at (j : S10000x128.Idx) :
    val_main_v0 (F := Ideal) (arr2 x) (arr2 W1) j = (Spec.s1 x W1 (j 0) (j 1) : ℝ) := by
  rw [val_main_v0_apply]
  exact sum_mul_coe _ _ (fun f => x (j 0) f) (fun f => W1 f (j 1)) (fun _ => rfl) fun _ => rfl

theorem v1_at (j : S10000x128.Idx) :
    val_main_v1 (F := Ideal) (arr2 adj) (arr2 x) (arr2 W1) j = (∑ k, adj (j 0) k * Spec.s1 x W1 k (j 1) : ℝ) := by
  rw [val_main_v1_apply]
  exact sum_mul_coe _ _ (fun k => adj (j 0) k) (fun k => Spec.s1 x W1 k (j 1)) (fun _ => rfl) fun _ => v0_at x W1 _

theorem v5_at (j : S10000x128.Idx) :
    val_main_v5 (F := Ideal) (arr2 adj) (arr2 x) (arr2 W1) (arr1 b1) j = (max (Spec.h adj x W1 b1 (j 0) (j 1)) 0 : ℝ) := by
  rw [val_main_v5_apply, val_main_v4_apply, v1_at, val_main_v3_apply, val_main_v2_apply, val_main_call0_v0_apply,
    val_main_call0_cst_apply, coe_max, EReal.coe_zero]
  exact congrArg₂ max ((EReal.coe_add _ _).symm.trans (congrArg Real.toEReal (add_comm _ _))) Ideal.ofBits_zero_f32

theorem v6_at (j : S10000x128.Idx) :
    val_main_v6 (F := Ideal) (arr2 adj) (arr2 x) (arr2 W1) (arr1 b1) (arr2 W2) j
      = (∑ l, max (Spec.h adj x W1 b1 (j 0) l) 0 * W2 l (j 1) : ℝ) := by
  rw [val_main_v6_apply]
  exact sum_mul_coe _ _ (fun l => max (Spec.h adj x W1 b1 (j 0) l) 0) (fun l => W2 l (j 1))
    (fun _ => v5_at adj x W1 b1 _) fun _ => rfl

theorem v10_at (j : S10000x128.Idx) :
    val_main_v10 (F := Ideal) (arr2 adj) (arr2 x) (arr2 W1) (arr1 b1) (arr2 W2) (arr1 b2) j
      = ((∑ k, adj (j 0) k * ∑ l, max (Spec.h adj x W1 b1 k l) 0 * W2 l (j 1)) + b2 (j 1) : ℝ) := by
  rw [val_main_v10_apply, val_main_v7_apply, val_main_v9_apply, val_main_v8_apply, EReal.coe_add]
  refine congrArg (· + ((b2 (j 1) : ℝ) : EReal)) ?_
  exact sum_mul_coe _ _ (fun k => adj (j 0) k) (fun k => ∑ l, max (Spec.h adj x W1 b1 k l) 0 * W2 l (j 1))
    (fun _ => rfl) fun _ => v6_at adj x W1 b1 W2 _

theorem ref_value (i : S10000x1.Idx) :
    val_main_v14 (F := Ideal) (arr2 adj) (arr2 x) (arr2 W1) (arr1 b1) (arr2 W2) (arr1 b2) (arr2 fun j _ => Wlin j)
      (arr1 fun _ => blin) i = (Spec.outRef adj x W1 b1 W2 b2 Wlin blin (i 0) : ℝ) := by
  rw [val_main_v14_apply, val_main_v11_apply, val_main_v13_apply, val_main_v12_apply]
  unfold Spec.outRef
  rw [EReal.coe_add]
  refine congrArg (· + ((blin : ℝ) : EReal)) ?_
  exact sum_mul_coe _ _ (fun j => (∑ k, adj (i 0) k * ∑ l, max (Spec.h adj x W1 b1 k l) 0 * W2 l j) + b2 j) Wlin
    (fun _ => v10_at adj x W1 b1 W2 b2 _) fun _ => rfl

end Cert.RefSide

end
-- ==== Proof.RefSide.lean ====
import proofs.«121951_g22909355557424_cont_8to1_1761_16_alg».proof.Proof.RefFinite
import proofs.«121951_g22909355557424_cont_8to1_1761_16_alg».proof.Proof.RefRead
import proofs.«121951_g22909355557424_cont_8to1_1761_16_alg».proof.Defs

noncomputable section

namespace Cert.RefSide

open Idealize.ShloMosaic Idealize.SL.Sem

theorem frame_ref [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2)
    (Cert.ReferenceIdeal.Value.run (F := Ideal) m ρ)

end Cert.RefSide

end
-- ==== Proof.Algebraic.lean ====
import proofs.«121951_g22909355557424_cont_8to1_1761_16_alg».proof.Defs
import proofs.«121951_g22909355557424_cont_8to1_1761_16_alg».proof.Proof.RefSide

noncomputable section

namespace Cert.Proof.Parts

open Idealize.ShloMosaic Idealize.ShloMosaic.ValueIdx Idealize.SL.Sem Cert.KernelIdeal Cert.RefSide

abbrev KernelRun [hKernelIdeal : Cert.KernelIdeal.Facts] : Prop :=
    ∀ (m : (ℓ : Loc nD τ sig) → Buf (Elt Ideal) ℓ)
      (g : Dev nD → PrngReg)
      (adj : Fin 10000 → Fin 10000 → ℝ) (x : Fin 10000 → Fin 128 → ℝ) (W1 : Fin 128 → Fin 128 → ℝ) (b1 : Fin 128 → ℝ)
      (W2 : Fin 128 → Fin 128 → ℝ) (b2 : Fin 128 → ℝ) (Wlin : Fin 128 → ℝ) (blin : ℝ),
      (∀ c : Dev nD,
        (∀ i j, m ((c.tc : Thread nD τ).loc main_arg0) (ix2 i j) = ((adj i j : ℝ) : EReal))
        ∧ (∀ i j, m ((c.tc : Thread nD τ).loc main_arg1) (ix2 i j) = ((x i j : ℝ) : EReal))
        ∧ (∀ i j, m ((c.tc : Thread nD τ).loc main_arg2) (ix2 i j) = ((W1 i j : ℝ) : EReal))
        ∧ (∀ i, m ((c.tc : Thread nD τ).loc main_arg3) (ix1 i) = ((b1 i : ℝ) : EReal))
        ∧ (∀ i j, m ((c.tc : Thread nD τ).loc main_arg4) (ix2 i j) = ((W2 i j : ℝ) : EReal))
        ∧ (∀ i, m ((c.tc : Thread nD τ).loc main_arg5) (ix1 i) = ((b2 i : ℝ) : EReal))
        ∧ (∀ i, m ((c.tc : Thread nD τ).loc main_arg6) (ix2 i 0) = ((Wlin i : ℝ) : EReal))
        ∧ m ((c.tc : Thread nD τ).loc main_arg7) (ix1 0) = ((blin : ℝ) : EReal)) →
      θ_run (defs (F := Ideal)) (onTc (τ := τ) (main (F := Ideal))) ⟨m, fun _ => 0, g⟩
        (fun r => ∀ c : Dev nD,
          (∀ rr : Fin 10000, r.2.mem ((c.tc : Thread nD τ).loc main_v6) (ix2 rr (0 : Fin 1))
              = ((Cert.Spec.outK adj x W1 b1 W2 b2 Wlin blin rr : ℝ) : EReal))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))

-- There is one device: what holds on device 0 holds on every device.
theorem all_dev {P : Dev nD → Prop} (h : P (0 : Fin 1)) (c : Dev nD) : P c := Fin.eq_zero c ▸ h

theorem frame_of_run [hKernelIdeal : Cert.KernelIdeal.Facts] [hPre_finite_inputs : Cert.Pre_finite_inputs.Facts]
    (hrun : KernelRun) : Cert.frame_KernelIdeal := by
  intro m g hpre
  obtain ⟨adj, x, W1, b1, W2, b2, Wlin, blin, hA⟩ := reals_of_pre (hpre (0 : Fin 1))
  exact (θ_run defs _ _).mono (fun _ h c => (h c).2) (hrun m g adj x W1 b1 W2 b2 Wlin blin (all_dev hA))

theorem algebraic_of_run [hKernelIdeal : Cert.KernelIdeal.Facts] [hReferenceIdeal : Cert.ReferenceIdeal.Facts]
    [hPre_finite_inputs : Cert.Pre_finite_inputs.Facts] (hrun : KernelRun) : Cert.algebraic_KernelIdeal_ReferenceIdeal := by
  intro m g m' g' hpre hagree
  obtain ⟨adj, x, W1, b1, W2, b2, Wlin, blin, hA⟩ := reals_of_pre (hpre (0 : Fin 1))
  refine ⟨fun _ => arr2 fun i _ => Cert.Spec.outRef adj x W1 b1 W2 b2 Wlin blin i, ?_, ?_⟩
  · refine (θ_run defs _ _).mono (fun r h c => ⟨?_, (h c).2⟩) (hrun m g adj x W1 b1 W2 b2 Wlin blin (all_dev hA))
    rw [col_of (h c).1, funext (Cert.Spec.outK_eq_outRef adj x W1 b1 W2 b2 Wlin blin)]
  · refine (θ_run Cert.ReferenceIdeal.defs _ _).mono (fun r h c => ⟨(h c).1.trans ?_, (h c).2⟩)
      (Cert.ReferenceIdeal.Value.run (F := Ideal) m' g')
    obtain rfl := Fin.eq_zero c
    obtain ⟨e0, e1, e2, e3, e4, e5, e6, e7⟩ := hagree (0 : Fin 1)
    obtain ⟨f0, f1, f2, f3, f4, f5, f6, f7⟩ := hA
    rw [e0, e1, e2, e3, e4, e5, e6, e7, Cert.ReferenceIdeal.Read.val_main_v14_eq, arr2_of f0, arr2_of f1, arr2_of f2,
      arr1_of f3, arr2_of f4, arr1_of f5, col_of f6, one_of f7]
    exact funext (ref_value adj x W1 b1 W2 b2 Wlin blin)

end Cert.Proof.Parts

end
-- ==== Proof.KernelRun.lean ====
import proofs.«121951_g22909355557424_cont_8to1_1761_16_alg».proof.Proof.Launch
import proofs.«121951_g22909355557424_cont_8to1_1761_16_alg».proof.Proof.R0
import proofs.«121951_g22909355557424_cont_8to1_1761_16_alg».proof.Proof.R1Dat
import proofs.«121951_g22909355557424_cont_8to1_1761_16_alg».proof.Proof.R2Dat
import proofs.«121951_g22909355557424_cont_8to1_1761_16_alg».proof.Proof.AsmGood
import proofs.«121951_g22909355557424_cont_8to1_1761_16_alg».proof.Proof.AsmFinal
import proofs.«121951_g22909355557424_cont_8to1_1761_16_alg».proof.Proof.AsmArgs
import proofs.«121951_g22909355557424_cont_8to1_1761_16_alg».proof.Proof.Algebraic

noncomputable section

namespace Cert.Proof.Parts

open Cert.KernelIdeal Cert.KernelIdeal.Gen
open Idealize.ShloMosaic Idealize.ShloMosaic.TcCoe Idealize.SL Idealize.SL.Sem
open Idealize.ShloMosaic.Pipeline (Dat RDat)
open Idealize.ShloMosaic.ValueIdx

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem kernel_run [hKernelIdeal : Cert.KernelIdeal.Facts] : KernelRun := by
  intro m g adj x W1 b1 W2 b2 Wlin blin hall
  have hG1 := good1 adj x W1 b1 W2 b2 Wlin blin m hall
  have hrun := Launch.run_main (F := Ideal) m g
    (asmDat0 m)
    (fun c w => Cert.KernelIdeal.R0.A_eq0 (Launch.V1 m) c w) (fun _ _ => rfl) (fun _ _ => rfl) (fun _ _ => rfl) (fun _ _ => rfl)
    (fun c => Cert.KernelIdeal.R0.body_obligation0 (Launch.V1 m) c)
    (asmRd1 adj x W1 b1 W2 b2 Wlin blin m)
    (fun _ _ => rfl) (fun _ _ => rfl) (fun _ _ => rfl) (fun _ _ => rfl) (fun _ _ => rfl)
    (fun c => Cert.KernelIdeal.R1Dat.body_obligation1 adj x W1 b1 W2 b2 Wlin blin (Launch.V3 m (asmDat0 m)) hG1 c)
    (fun c V4 => Cert.KernelIdeal.R2Dat.rd2 (U := Launch.UU) adj x W1 b1 W2 b2 Wlin blin c V4)
    (fun _ _ _ => rfl) (fun _ _ _ => rfl) (fun _ _ _ => rfl) (fun _ _ _ => rfl)
    (fun c V4 => Cert.KernelIdeal.R2Dat.hin2 adj x W1 b1 W2 b2 Wlin blin c V4 _)
    (fun c V4 => Cert.KernelIdeal.R2Dat.hout2 adj x W1 b1 W2 b2 Wlin blin c V4)
    (fun c V4 hV4 => Cert.KernelIdeal.R2Dat.body_obligation2 adj x W1 b1 W2 b2 Wlin blin c V4 (good2 adj x W1 b1 W2 b2 Wlin blin m hall c V4 hV4))
  refine (θ_run _ _ _).mono (fun r h c => ?_) hrun
  obtain ⟨V4, V5, hV4, hV5, hmem⟩ := h c
  have hm := fun b hb => hmem (Proc.devRef .tc b) (mem_uc b hb)
  obtain ⟨h0, h1, h2, h3, h4, h5, h6, h7⟩ := Cert.KernelIdeal.AsmArgs.final_args m (asmDat0 m) (asmRd1 adj x W1 b1 W2 b2 Wlin blin m)
    (fun c V4 => Cert.KernelIdeal.R2Dat.rd2 (U := Launch.UU) adj x W1 b1 W2 b2 Wlin blin c V4) c V4 V5
    (fun c w => Cert.KernelIdeal.R0.A_eq0 (Launch.V1 m) c w) (fun _ _ => rfl) (fun _ _ _ => rfl) hV4 hV5
  refine ⟨fun rr => ?_, (hm _ (by decide)).trans h0, (hm _ (by decide)).trans h1, (hm _ (by decide)).trans h2,
    (hm _ (by decide)).trans h3, (hm _ (by decide)).trans h4, (hm _ (by decide)).trans h5, (hm _ (by decide)).trans h6,
    (hm _ (by decide)).trans h7⟩
  rw [hm main_v6 (by decide)]
  exact final_result m adj x W1 b1 W2 b2 Wlin blin c V4 V5 hV5 (good2 adj x W1 b1 W2 b2 Wlin blin m hall c V4 hV4) rr

end Cert.Proof.Parts

end
-- ==== Proof.Preserves.lean ====
import proofs.«121951_g22909355557424_cont_8to1_1761_16_alg».proof.Defs

noncomputable section

namespace Cert.Proof.Parts

open Idealize.ShloMosaic

theorem preserves : Cert.preserves_Kernel_KernelIdeal := IdealRules.truncf_extf.statement _ .f32 .bf16

end Cert.Proof.Parts

end
-- ==== Proof.WLLaunch.lean ====
import proofs.«121951_g22909355557424_cont_8to1_1761_16_alg».proof.Proof.Gen.Kernel.Launch
import proofs.«121951_g22909355557424_cont_8to1_1761_16_alg».proof.Proof.Gen.Kernel.Points
import proofs.«121951_g22909355557424_cont_8to1_1761_16_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

abbrev UU : Type := UR sig nD τ × UR sig nD τ

local notation "𝕄" => MT nD τ sig Unit (Elt F) ℕ UU ℕ

abbrev EP2 : Emb (UR sig nD τ) (MT nD τ sig Unit (Elt F) ℕ UU ℕ) := embR

abbrev 𝒱₀ : Variants := Variants.none
abbrev L : GSem nD τ sig → Finset Unit := fun _ => ∅
abbrev lv : GSem nD τ sig → Unit → ℕ := fun _ _ => 0
abbrev adm : (p : Fin 3) → (pcfgs (F := F) p).Adm := fun p => (cfgs p).toPCfg_adm

abbrev Rg (c : Dev nD) : sProp (MT nD τ sig Unit (Elt F) ℕ UU ℕ) := iprop(∃ r, prngReg c r)

abbrev Ow (c : Dev nD) : sProp (MT nD τ sig Unit (Elt F) ℕ UU ℕ) := iprop(∃ W, owes (c : Thread nD τ) (0 : CellTallies nD τ sig Unit) W)

def liftV (c : Dev nD) (W₀ : Valuation τ sig (Elt F)) (V : (b : Ref sig .tc) → Buf (Elt F) ((c : Thread nD τ).loc b)) :
    Valuation τ sig (Elt F) := fun d =>
  if h : ∃ b : Ref sig .tc, (Proc.devRef .tc b : DevRef τ sig) = d then
    cast (congrArg (fun d' : DevRef τ sig => d'.ty.Contents (Elt F)) h.choose_spec) (V h.choose)
  else W₀ d

theorem liftV_tc (c : Dev nD) (W₀ : Valuation τ sig (Elt F)) (V : (b : Ref sig .tc) → Buf (Elt F) ((c : Thread nD τ).loc b))
    (b : Ref sig .tc) : liftV c W₀ V (Proc.devRef .tc b) = V b := by
  unfold liftV
  have h : ∃ b' : Ref sig .tc, (Proc.devRef .tc b' : DevRef τ sig) = Proc.devRef .tc b := ⟨b, rfl⟩
  rw [dif_pos h]
  suffices ∀ (b' : Ref sig .tc) (e : (Proc.devRef .tc b' : DevRef τ sig) = Proc.devRef .tc b),
      cast (congrArg (fun d' : DevRef τ sig => d'.ty.Contents (Elt F)) e) (V b') = V b from this _ h.choose_spec
  intro b' e
  obtain rfl : b' = b := Proc.devRef_injective _ e
  rfl

/-- What enters a region's invariant before its first point, and what the invariant gives back after its last. -/
abbrev Gin (p : Fin 3) (c : Dev nD) : sProp (MT nD τ sig Unit (Elt F) ℕ UU ℕ) :=
  iprop(Rg c ∗ Pipeline.prefHeld (pcfgs (F := F) p).pre c (fun _ => fullShare) (adm (F := F) p).1
    ∗ Pipeline.scopedRest (Ix := Unit) (Name := ℕ) (U := UU) (Lvl := ℕ) (Val := Elt F) (cfgs p).spec c)
abbrev Gout (p : Fin 3) (c : Dev nD) : sProp (MT nD τ sig Unit (Elt F) ℕ UU ℕ) :=
  iprop(Rg c ∗ Pipeline.ownSems0 (fun k : PEmpty => k.elim) c
    ∗ Pipeline.scopedRest (Ix := Unit) (Name := ℕ) (U := UU) (Lvl := ℕ) (Val := Elt F) (cfgs p).spec c)

/-- `ΦA` is the scoped rest beside the generator register, and these kernels have neither tables nor semaphores of their own. -/
theorem hinA (p : Fin 3) (c : Dev nD) {Φ : sProp 𝕄} (h : Φ = Pipeline.ΦA (cfgs p).spec c) : Gin (F := F) p c ⊢ Φ := by
  subst h; unfold Pipeline.ΦA
  iintro ⟨Hp, -, Hr⟩
  iframe
theorem houtA (p : Fin 3) (c : Dev nD) {Φ : sProp 𝕄} (h : Φ = Pipeline.ΦA (cfgs p).spec c) : Φ ⊢ Gout (F := F) p c := by
  subst h; unfold Gout Pipeline.ΦA; rw [Pipeline.ownSems0_none]
  iintro ⟨Hr, Hp⟩
  iframe
  iempintro

section Region

variable (rds : (p : Fin 3) → (c : Dev nD) → RDat τ (Elt F) Unit ℕ UU ℕ (Pipeline.pin (pcfgs (F := F)) adm p) c)
  (p : Fin 3) (kit : Pipeline.LaunchFacts (nD := nD) (τ := τ) cfgs p)

/-- What is known of the unscoped buffers after region `p`, entered at `V`: the shape of `P4` and `P5`, for any region. -/
def Exits (c : Dev nD) (V V' : (b : Ref sig .tc) → Buf (Elt F) ((c : Thread nD τ).loc b)) : Prop :=
  (∀ w, (rds p c).ArrAt w (cfgs p).N (V' (Pipeline.arrRef (cfgs p).spec w)))
    ∧ ∀ b, b ∉ Finset.univ.image (Pipeline.arrRef (cfgs p).spec) → V' b = V b

include kit in
/-- True because the arrays are distinct whole unscoped buffers: `V'` is `V` updated at them. -/
theorem unscopedBufs_of_arraysAt (c : Dev nD) (hq : ∀ w, (rds p c).q w = fullShare) (W₀ : Valuation τ sig (Elt F))
    (V : (b : Ref sig .tc) → Buf (Elt F) ((c : Thread nD τ).loc b)) :
    iprop((rds p c).arraysAt (cfgs p).N ∗ Pipeline.unscopedRest (cfgs p).spec c V)
      ⊢ (iprop(∃ V', ⌜Exits rds p c V V'⌝ ∗ unscopedBufs c V') : sProp 𝕄) := by
  classical
  unfold RDat.arraysAt
  iintro ⟨Ha, Hrest⟩
  ihave ⟨%Fs, Ha⟩ := (BI.bigSep_exists_pi Finset.univ _) $$ Ha
  ihave ⟨%hFs, Ha⟩ := (BI.bigSep_pure_sep Finset.univ _ _) $$ Ha
  obtain ⟨V', hV', hne⟩ : ∃ V' : (b : Ref sig .tc) → Buf (Elt F) ((c : Thread nD τ).loc b),
      (∀ w, V' (Pipeline.arrRef (cfgs p).spec w) = Fs w) ∧ ∀ b, b ∉ Finset.univ.image (Pipeline.arrRef (cfgs p).spec) → V' b = V b :=
    ⟨fun b => Pipeline.withArrays (cfgs p).spec c (liftV c W₀ V) Fs (Proc.devRef .tc b),
      Pipeline.withArrays_arr (cfgs p).spec kit.win.arr_inj c _ Fs, fun b hb =>
      (Pipeline.withArrays_of_ne (cfgs p).spec c _ Fs b fun w e => hb (Finset.mem_image.mpr ⟨w, Finset.mem_univ _, e⟩)).trans (liftV_tc c W₀ V b)⟩
  have close : iprop((rds p c).arrays Fs ∗ Pipeline.unscopedRest (cfgs p).spec c V) ⊢ (unscopedBufs c V' : sProp 𝕄) := by
    rw [Pipeline.unscopedBufs_split (Pipeline.pin (pcfgs (F := F)) adm) p kit.win.arr_unscoped kit.win.arr_inj c,
      Pipeline.RDat.arrays_eq (pcfgs (F := F)) adm rds p c kit.arr_whole ((rds p c).share_full hq) Fs]
    refine sep_mono (Entails.of_eq (bigSep_congr fun w _ => by rw [hV' w])) (Entails.of_eq ?_)
    unfold Pipeline.unscopedRest
    exact bigSep_congr fun b hb => by rw [hne b (Finset.mem_sdiff.mp hb).2]
  unfold RDat.arrays at close
  iexists V'
  isplitr
  · ipureintro; exact ⟨fun w => by rw [hV' w]; exact hFs w (Finset.mem_univ w), hne⟩
  iapply close
  iframe

variable (V : (c : Dev nD) → (b : Ref sig .tc) → Buf (Elt F) ((c : Thread nD τ).loc b)) (R : Dev nD → sProp (MT nD τ sig Unit (Elt F) ℕ UU ℕ))
  (W₀ : Dev nD → Valuation τ sig (Elt F))
  (hA : ∀ c w, (rds p c).A w = V c (Pipeline.arrRef (cfgs p).spec w))
  (hq : ∀ c w, (rds p c).q w = fullShare) (howed : ∀ c t, (rds p c).owed t = 0)
  (hrec : ∀ c t, (rds p c).recorded t = Set.univ)
  (hin : ∀ c, Gin p c ⊢ (rds p c).Φ 0) (hout : ∀ c, (rds p c).Φ (Fin.last (cfgs p).N) ⊢ Gout p c)
  (hbody : ∀ c, (rds p c).BodyObligation (defs₀ (F := F)) 𝒱₀ () Set.univ)

set_option backward.isDefEq.respectTransparency.types false in
/-- One record for the three kernels: they differ only in the index, the entry contents `V` and what rides beside (`R`). -/
def reg : Pipeline.RDat.RegionSeg (pcfgs (F := F)) adm rds () defs₀ 𝒱₀ L lv p where
  win := kit.win.to₀
  block_pos := kit.block_pos
  stage_whole := kit.stage_whole
  K := PEmpty
  osem k := k.elim
  ho := Pipeline.OwnSemFacts.none _
  hbody := hbody
  hwaits := Pipeline.RDat.hwaits_of_owed_zero _ _ _ _ L lv p howed
  pre c := iprop(unscopedBufs c (V c) ∗ Rg c ∗ Ow c ∗ R c)
  post c := iprop(∃ V', ⌜Exits rds p c (V c) V'⌝ ∗ unscopedBufs c V' ∗ Rg c ∗ Ow c ∗ R c)
  X := Rg
  Y := Rg
  Z c := iprop(Pipeline.unscopedRest (Ix := Unit) (Name := ℕ) (U := UU) (Lvl := ℕ) (cfgs p).spec c (V c) ∗ R c)
  hentry c := by
    have hsplit := Pipeline.RDat.arrays_of_unscopedBufs (p := p) (pcfgs (F := F)) adm rds kit.win kit.arr_whole c
      ((rds p c).share_full (hq c)) (V c) (hA c)
    iintro ⟨⟨Hub, Hp, ⟨%W, HO⟩, HR⟩, -, -⟩
    ihave ⟨Ha, Hrest⟩ := hsplit $$ Hub
    imodintro
    iframe Ha Hp Hrest HR
    isplitr; · unfold Pipeline.prefHeld; rw [show (Finset.univ : Finset (Fin 0)) = ∅ from rfl, BI.bigSep_empty]; iempintro
    unfold Pipeline.RDat.owesAt Pipeline.owesWithin
    iexists W; isplitr; · ipureintro; exact fun _ _ => Or.inl (by rw [hrec c 0]; trivial)
    rw [howed c 0]
    iexact HO
  hin := hin
  hout := hout
  hexit c := by
    have hjoin := unscopedBufs_of_arraysAt rds p kit c (hq c) (W₀ c) (V c)
    unfold Pipeline.RDat.owesAt Pipeline.owesWithin
    rw [howed c _]
    iintro ⟨Ha, ⟨%W, -, HO⟩, HY, Hrest, HR⟩
    ihave ⟨%V', %hV', Hub⟩ := hjoin $$ [Ha Hrest]
    · iframe
    imodintro
    iexists V'
    iframe Hub HY HR
    isplitr; · ipureintro; exact hV'
    iexists W; iexact HO

end Region

section Run

variable (m : (ℓ : Loc nD τ sig) → Buf (Elt F) ℓ) (ρ : Dev nD → PrngReg)

abbrev W0 (c : Dev nD) : Valuation τ sig (Elt F) := fun b => m (c, b)

abbrev W1 (c : Dev nD) : Valuation τ sig (Elt F) := StableHlo.after hostOps0 (W0 m c)
abbrev V1 (c : Dev nD) (b : Ref sig .tc) : Buf (Elt F) ((c : Thread nD τ).loc b) := W1 m c b

variable (dat0 : (c : Dev nD) → Dat τ (Elt F) Unit ℕ UU ℕ cfg0 c)
  (hA0 : ∀ c w, (dat0 c).A w = V1 m c (Pipeline.arrRef spec0 w))
  (hq0 : ∀ c w, (dat0 c).q w = fullShare) (howed0 : ∀ c t, (dat0 c).owed t = 0)
  (hΦ0 : ∀ c t, (dat0 c).Φ t = Pipeline.ΦA spec0 c) (hrec0 : ∀ c t, (dat0 c).recorded t = Set.univ)
  (hbody0 : ∀ c, Pipeline.BodyObligation (dat0 c) (defs₀ (F := F)) 𝒱₀ () Set.univ)

def W2 (c : Dev nD) : Valuation τ sig (Elt F) :=
  Pipeline.withArrays spec0 c (W1 m c) fun w => (dat0 c).arrAt w cfg0.N
abbrev V2 (c : Dev nD) (b : Ref sig .tc) : Buf (Elt F) ((c : Thread nD τ).loc b) := W2 m dat0 c b

abbrev W3 (c : Dev nD) : Valuation τ sig (Elt F) := StableHlo.after hostOps1 (W2 m dat0 c)
abbrev V3 (c : Dev nD) (b : Ref sig .tc) : Buf (Elt F) ((c : Thread nD τ).loc b) := W3 m dat0 c b

theorem W2_arr (c : Dev nD) (w : Fin cfg0.W) :
    W2 m dat0 c (Proc.devRef .tc (Pipeline.arrRef spec0 w)) = (dat0 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb

variable (rd1 : (c : Dev nD) → RDat τ (Elt F) Unit ℕ UU ℕ cfg1 c)
  (hA1 : ∀ c w, (rd1 c).A w = V3 m dat0 c (Pipeline.arrRef spec1 w))
  (hq1 : ∀ c w, (rd1 c).q w = fullShare) (howed1 : ∀ c t, (rd1 c).owed t = 0)
  (hΦ1 : ∀ c t, (rd1 c).Φ t = Pipeline.ΦA spec1 c) (hrec1 : ∀ c t, (rd1 c).recorded t = Set.univ)
  (hbody1 : ∀ c, (rd1 c).BodyObligation (defs₀ (F := F)) 𝒱₀ () Set.univ)

def P4 (c : Dev nD) (V4 : (b : Ref sig .tc) → Buf (Elt F) ((c : Thread nD τ).loc b)) : Prop :=
  (∀ w, (rd1 c).ArrAt w cfg1.N (V4 (Pipeline.arrRef spec1 w)))
    ∧ ∀ b, b ∉ Finset.univ.image (Pipeline.arrRef spec1) → V4 b = V3 m dat0 c b

variable (rd2 : (c : Dev nD) → ((b : Ref sig .tc) → Buf (Elt F) ((c : Thread nD τ).loc b)) → RDat τ (Elt F) Unit ℕ UU ℕ cfg2 c)

def rdatsOf (r2 : (c : Dev nD) → RDat τ (Elt F) Unit ℕ UU ℕ cfg2 c) :
    (p : Fin 3) → (c : Dev nD) → RDat τ (Elt F) Unit ℕ UU ℕ (Pipeline.pin (pcfgs (F := F)) adm p) c
  | ⟨0, _⟩ => fun c => (dat0 c).toR
  | ⟨1, _⟩ => fun c => rd1 c
  | ⟨2, _⟩ => fun c => r2 c

abbrev rdats : (p : Fin 3) → (c : Dev nD) → RDat τ (Elt F) Unit ℕ UU ℕ (Pipeline.pin (pcfgs (F := F)) adm p) c :=
  rdatsOf dat0 rd1 (fun c => rd2 c (V3 m dat0 c))

abbrev Gh2 (c : Dev nD) : sProp (MT nD τ sig Unit (Elt F) ℕ UU ℕ) :=
  iprop(Pipeline.cellsGhost (Pipeline.pin (pcfgs (F := F)) adm) EP2 2 c ∗ Pipeline.toksInit (Pipeline.pin (pcfgs (F := F)) adm) EP2 2 c)

abbrev Rr (c : Dev nD) : sProp (MT nD τ sig Unit (Elt F) ℕ UU ℕ) := iprop(Rg c ∗ Ow c ∗ Gh2 c)

abbrev hseg (R : Dev nD → sProp (MT nD τ sig Unit (Elt F) ℕ UU ℕ)) (ops : List (HloOp τ sig (Elt F)))
    (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

variable (hA2 : ∀ c V4 w, (rd2 c V4).A w = V4 (Pipeline.arrRef spec2 w))
  (hq2 : ∀ c V4 w, (rd2 c V4).q w = fullShare) (howed2 : ∀ c V4 t, (rd2 c V4).owed t = 0)
  (hrec2 : ∀ c V4 t, (rd2 c V4).recorded t = Set.univ)
  (hin2 : ∀ c V4, (iprop(Rg c ∗ Pipeline.prefHeld (pcfgs (F := F) 2).pre c (fun _ => fullShare) (adm (F := F) 2).1
      ∗ Pipeline.scopedRest (Ix := Unit) (Name := ℕ) (U := UU) (Lvl := ℕ) (Val := Elt F) spec2 c) : sProp (MT nD τ sig Unit (Elt F) ℕ UU ℕ)) ⊢ (rd2 c V4).Φ 0)
  (hout2 : ∀ c V4, (rd2 c V4).Φ (Fin.last cfg2.N) ⊢ (iprop(Rg c ∗ Pipeline.ownSems0 (fun k : PEmpty => k.elim) c
      ∗ Pipeline.scopedRest (Ix := Unit) (Name := ℕ) (U := UU) (Lvl := ℕ) (Val := Elt F) spec2 c) : sProp (MT nD τ sig Unit (Elt F) ℕ UU ℕ)))
  (hbody2 : ∀ c V4, P4 m dat0 rd1 c V4 → (rd2 c V4).BodyObligation (defs₀ (F := F)) 𝒱₀ () Set.univ)

def P5 (c : Dev nD) (V4 V5 : (b : Ref sig .tc) → Buf (Elt F) ((c : Thread nD τ).loc b)) : Prop :=
  (∀ w, (rd2 c V4).ArrAt w cfg2.N (V5 (Pipeline.arrRef spec2 w)))
    ∧ ∀ b, b ∉ Finset.univ.image (Pipeline.arrRef spec2) → V5 b = V4 b

def Tn (c : Dev nD) : sProp (MT nD τ sig Unit (Elt F) ℕ UU ℕ) :=
  iprop(∃ V4 V5, ⌜P4 m dat0 rd1 c V4 ∧ P5 rd2 c V4 V5⌝
    ∗ StableHlo.held (c : Thread nD τ) (Pipeline.ucRefs τ sig) (StableHlo.after hostOps3 (liftV c (W0 m c) V5)) ∗ Rg c)

/-- Well typed because the mesh has one device. -/
def spread (c : Dev nD) (V : (b : Ref sig .tc) → Buf (Elt F) ((c : Thread nD τ).loc b)) :
    (c' : Dev nD) → (b : Ref sig .tc) → Buf (Elt F) ((c' : Thread nD τ).loc b) :=
  fun c' => (Subsingleton.elim c c' : c = c') ▸ V

set_option backward.isDefEq.respectTransparency.types false in
/-- The second pass's data depends on contents only the run fixes, so they are opened before its region rule is applied. -/
def seg2 : Pipeline.HostSeg (Name := ℕ) (U := UU) (pcfgs (F := F)) defs₀ 𝒱₀ L lv where
  prog := Prog.lift (.customCall (Pipeline.entry 2) ()) >>= fun _ => StableHlo.seq hostOps3
  pre c := iprop(∃ V4, ⌜P4 m dat0 rd1 c V4⌝ ∗ unscopedBufs c V4 ∗ Rr c)
  post c := iprop(Tn m dat0 rd1 rd2 c ∗ Ow c)
  run c {β} k K := by
    simp only [Prog.lift, Prog.bind_op, Prog.bind_ret, Prog.bind_assoc]
    iintro ⟨Hk, Hbd, ⟨%V4, %hV4, Hub, Hg, HO, Hgc, Hgt⟩, #Hla⟩
    have hP : ∀ c', P4 m dat0 rd1 c' (spread c V4 c') := fun c' => by cases Subsingleton.elim c c'; exact hV4
    have hwp := Pipeline.RDat.RegionSeg.wp (pcfgs (F := F)) adm (rdatsOf dat0 rd1 (fun c' => rd2 c' (spread c V4 c'))) () cellOf_inj EP2 defs₀ 𝒱₀ L lv
      (reg _ 2 launch2 (spread c V4) (fun _ => iprop(emp)) (W0 m) (fun c' => hA2 c' _) (fun c' => hq2 c' _) (fun c' => howed2 c' _)
        (fun c' => hrec2 c' _) (fun c' => hin2 c' _) (fun c' => hout2 c' _) fun c' => hbody2 c' _ (hP c')) c none (fun u hu => by cases hu)
      (fun _ => StableHlo.seq hostOps3 >>= k) K
    dsimp only [reg] at hwp
    rw [show spread c V4 c = V4 from rfl] at hwp
    iapply hwp
    iframe Hbd Hub Hg HO Hla Hgc Hgt
    iintro ⟨Hbd, %V5, %hV5, Hub, Hg, HO, -⟩
    have hH := (hseg (fun c => iprop(Rg c ∗ Ow c)) hostOps3 hostOps3_sub hostOps3_fresh (fun _ => liftV c (W0 m c) V5)).run c k K
    dsimp only [hseg, Pipeline.HostSeg.ofOps] at hH
    rw [← Pipeline.unscopedBufs_held c (liftV c (W0 m c) V5), funext (liftV_tc c (W0 m c) V5)] at hH
    iapply hH
    iframe Hbd Hub Hg HO Hla
    iintro ⟨Hbd, Hh, Hg, HO⟩
    iapply Hk
    unfold Tn
    iframe Hbd HO
    iexists V4; iexists V5
    iframe Hh Hg
    ipureintro; exact ⟨hV4, hV5⟩

abbrev u0 : UR sig nD τ :=
  initOf (Pipeline.cells (Pipeline.pin (pcfgs (F := F)) adm) cellOf_inj) (Pipeline.launchToks (Pipeline.pin (pcfgs (F := F)) adm) cellOf_inj)

theorem ghost2_of_own : (BI.own (EP2 (F := F) (u0 (F := F))) : sProp 𝕄) ⊢ iprop(|==> bigSep Finset.univ (Gh2 (F := F))) := by
  refine (Pipeline.fund_ghost (Pipeline.pin (pcfgs (F := F)) adm) EP2 cellOf_inj).trans (BI.bupd_mono ?_)
  rw [← bigSep_sep']
  exact bigSep_mono fun c _ => sep_mono (BI.bigSep_elim (Finset.mem_univ (2 : Fin 3))) (BI.bigSep_elim (Finset.mem_univ (2 : Fin 3)))

theorem ub (c : Dev nD) (W : Valuation τ sig (Elt F)) (R : sProp 𝕄) :
    iprop(StableHlo.held (c : Thread nD τ) (Pipeline.ucRefs τ sig) W ∗ R) ⊢ iprop(unscopedBufs c (fun b => W b) ∗ R) :=
  Entails.of_eq (by rw [Pipeline.unscopedBufs_held])

/-- Exact data names what its arrays hold, so what the preparation kernel leaves is `W2`. -/
theorem post0 (c : Dev nD) : (iprop(∃ V', ⌜Exits (rdats m dat0 rd1 rd2) 0 c (V1 m c) V'⌝ ∗ unscopedBufs c V' ∗ Rr c) : sProp 𝕄)
    ⊢ iprop(StableHlo.held (c : Thread nD τ) (Pipeline.ucRefs τ sig) (W2 m dat0 c) ∗ Rr c) := by
  rw [← Pipeline.unscopedBufs_held c (W2 m dat0 c)]
  iintro ⟨%V', %h, H⟩
  obtain rfl : V' = V2 m dat0 c := funext fun b => by
    by_cases hb : ∃ w, Pipeline.arrRef spec0 w = b
    · obtain ⟨w, rfl⟩ := hb
      exact ((dat0 c).toR_arrAt w _ _ (h.1 w)).trans (W2_arr m dat0 c w).symm
    · exact (h.2 b fun hm => hb (by obtain ⟨w, -, e⟩ := Finset.mem_image.mp hm; exact ⟨w, e⟩)).trans
        (W2_of_ne m dat0 c b fun w e => hb ⟨w, e⟩).symm
  iexact H

include hA0 hq0 howed0 hΦ0 hrec0 hbody0 hA1 hq1 howed1 hΦ1 hrec1 hbody1 hA2 hq2 howed2 hrec2 hin2 hout2 hbody2 in
set_option backward.isDefEq.respectTransparency.types false in
theorem run_main : θ_run defs (onTc (τ := τ) (main (F := F))) ⟨m, fun _ => 0, ρ⟩ (fun r => ∀ c : Dev nD,
      ∃ V4 V5, P4 m dat0 rd1 c V4 ∧ P5 rd2 c V4 V5
        ∧ ∀ b ∈ Pipeline.ucRefs τ sig, r.2.mem (((c : Thread nD τ)).1, b) = StableHlo.after hostOps3 (liftV c (W0 m c) V5) b) :=
  Pipeline.RDat.θ_run_regions_kit (pcfgs (F := F)) adm (rdats m dat0 rd1 rd2) () cellOf_inj embL defs₀ 𝒱₀ L lv m ρ main
    [ .host (hseg Rr hostOps0 hostOps0_sub hostOps0_fresh (W0 m)),
      .region (reg _ 0 launch0 (V1 m) Gh2 (W0 m) hA0 hq0 howed0 hrec0 (fun c => hinA 0 c (hΦ0 c 0)) (fun c => houtA 0 c (hΦ0 c _))
        fun c => ((hbody0 c).loose).toR),
      .host (hseg Rr hostOps1 hostOps1_sub hostOps1_fresh (W2 m dat0)),
      .region (reg _ 1 launch1 (V3 m dat0) Gh2 (W0 m) hA1 hq1 howed1 hrec1 (fun c => hinA 1 c (hΦ1 c 0)) (fun c => houtA 1 c (hΦ1 c _)) hbody1),
      .host (seg2 m dat0 rd1 rd2 hA2 hq2 howed2 hrec2 hin2 hout2 hbody2) ]
    (fun c Q => Entails.of_eq (by rw [main_chain c]; chain_rfl))
    (by simp only [Pipeline.RDat.Seg.pipes_host, Pipeline.RDat.Seg.pipes_region, Pipeline.RDat.Seg.pipes_nil]; decide)
    (O₀ := 0) (hL := fun _ _ => rfl) (G := Gh2) (u₀ := (u0 (F := F), u0 (F := F)))
    (hu₀ := by
      iintro Hu
      ihave ⟨H1, H2⟩ := (ownU_pair _ _) $$ Hu
      imod (ghost2_of_own (F := F)) $$ H2 with HG
      imodintro
      iframe)
    (T₀ := fun c => iprop(StableHlo.held (c : Thread nD τ) (Pipeline.ucRefs τ sig) (W0 m c) ∗ Rr c))
    (hch := ⟨fun _ => .rfl, fun c => ub c _ _, post0 m dat0 rd1 rd2, fun c => ub c _ _, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitl [Hp]; · iexists _; iexact Hp
      isplitl [HO]; · iexists ∅; iexact HO
      iexact HG)
    (hfin := fun c s' => by
      unfold Tn
      iintro ⟨⟨%V4, %V5, %hP, Hh, -⟩, HSI⟩
      unfold StableHlo.held
      ihave Hr := (pointsTo_read_all (Pipeline.ucRefs τ sig) (fun b => (((c : Thread nD τ)).1, b)) (StableHlo.after hostOps3 (liftV c (W0 m c) V5)) s') $$ [Hh HSI]
      · iframe
      icases Hr with ⟨%h, HSI⟩
      imodintro
      iframe
      ipureintro; exact ⟨V4, V5, hP.1, hP.2, h⟩)
    (hQ := fun s h c => h c)

end Run

end Cert.Kernel.Launch

end
-- ==== Proof.WLR0.lean ====
import proofs.«121951_g22909355557424_cont_8to1_1761_16_alg».proof.Proof.Gen.Kernel.Launch
import proofs.«121951_g22909355557424_cont_8to1_1761_16_alg».proof.Proof.Gen.Kernel.Skeleton
import proofs.«121951_g22909355557424_cont_8to1_1761_16_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] {U : Type} [URA U]

local notation "𝕄" => MT nD τ sig Unit (Elt F) ℕ U ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0

def outS1 (x : Vec F S10000x128 .f32) (w1 : Vec F S128x128 .f32) : Vec F S10000x128 .bf16 :=
  View.canon [⟨rX, k0_pay1 (View.ld x rX) (View.ld w1 rW)⟩]

def outWv (w2 : Vec F S128x128 .f32) (wl : Vec F S128x1 .f32) : Vec F S128x1 .f32 :=
  View.canon [⟨rCol, k0_pay2 (View.ld w2 rW) (View.ld wl rCol)⟩]

def outC (b2 : Vec F S1x128 .f32) (wl : Vec F S128x1 .f32) (bl : Vec F S1x1 .f32) : Vec F S1x1 .f32 :=
  View.canon [⟨rOne, k0_pay3 (View.ld b2 rRow) (View.ld wl rCol) (View.ld bl rOne)⟩]

theorem hz : (![0, 0] : Fin 2 → Nat) = fun _ => 0 := funext fun a => by fin_cases a <;> rfl

/-- The whole rectangle of a shape holds every index of it. -/
theorem cover {n : Fin 2 → ℕ} {e : EltTy} (inb) (p : Vec F ⟨2, n⟩ e) (y : (⟨2, n⟩ : Shape).Idx) :
    ∃ pc ∈ ([⟨Rect.unit ![0, 0] _ inb, p⟩] : List (View.Piece (Elt F) ⟨2, n⟩ e)), y ∈ pc.1.set :=
  ⟨_, List.mem_singleton_self _, View.mem_set_unit_zero hz inb y⟩

def dat0 (c : Dev nD) : Dat τ (Elt F) Unit ℕ U ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outS1 (iblk V c 0 t) (iblk V c 1 t)
    | ⟨7, _⟩ => outWv (iblk V c 2 t) (iblk V c 4 t)
    | ⟨8, _⟩ => outC (iblk V c 3 t) (iblk V c 4 t) (iblk V c 5 t)
  Φ _ := Pipeline.ΦA spec0 c
  q _ := fullShare
  owed _ := 0

theorem A_eq0 (c : Dev nD) (w : Fin cfg0.W) : (dat0 (U := U) V c).A w = V c (Pipeline.arrRef spec0 w) := by
  dsimp only [dat0]

/-- Cutting a filled block back to the filled part returns what filled it. -/
theorem before0 (c : Dev nD) (w : Fin cfg0.W) (t : Fin cfg0.N) (hf : (cfg0.win w).fetch t = true) (d) :
    (cfg0.win w).cut (cfg0.grid.coords t) ((dat0 (U := U) V c).before w t d) = iblk V c w t := by
  rw [(dat0 (U := U) V c).before_fetched w t hf d]
  exact (cfg0.win w).cut_fill _ _ _

theorem body_obligation0 (c : Dev nD) : BodyObligation (dat0 (F := F) (U := U) V c) (defs₀ (F := F)) Variants.none () Set.univ := fun t => by
  rw [bigSep_W0, bigSep_W0]
  show _ ⊢ wp _ _ _ (bodyAt0 t) _
  unfold bodyAt0
  dsimp only [dat0]
  simp only [cc0_body_eq_skeleton]; unfold cc0_body_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, -, H6⟩, ⟨%d7, %f7, -, H7⟩, ⟨%d8, %f8, -, H8⟩⟩
  have e0 := hf0.trans (before0 V c 0 t (fetch0_0 t) d0)
  have e1 := hf1.trans (before0 V c 1 t (fetch0_1 t) d1)
  have e2 := hf2.trans (before0 V c 2 t (fetch0_2 t) d2)
  have e3 := hf3.trans (before0 V c 3 t (fetch0_3 t) d3)
  have e4 := hf4.trans (before0 V c 4 t (fetch0_4 t) d4)
  have e5 := hf5.trans (before0 V c 5 t (fetch0_5 t) d5)
  sl_exec
  sl_step
  isplitl [HΦ]; · iexact HΦ
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists _; isplitr
    swap; · iexact H6
    ipureintro
    rw [← e0, ← e1]
    exact View.read_writes_eq_canon _ _ _ (cover _ _)
  isplitl [H7]
  · iexists _; isplitr
    swap; · iexact H7
    ipureintro
    rw [← e2, ← e4]
    exact View.read_writes_eq_canon _ _ _ (cover _ _)
  iexists _; isplitr
  swap; · iexact H8
  ipureintro
  rw [← e3, ← e4, ← e5]
  exact View.read_writes_eq_canon _ _ _ (cover _ _)

/-- At offset zero and unit stride on every axis, an index of the block is the same index of the array. -/
theorem emb0 (w : Fin cfg0.W) (t : Fin cfg0.N) (y : ((cfg0.win w).xblock (cfg0.grid.coords t)).Idx) (a : Fin (cfg0.win w).shape.rank) :
    (((cfg0.win w).rect t).emb y a : ℕ) = y a :=
  (cfg0.win w).rect_emb_val_of_index_zero t a (((cfg0.win w).whole_of_rank_zero rfl).2 _ a) y

theorem iblk_main_arg1 (c : Dev nD) (t : Fin cfg0.N) : iblk V c 0 t = V c main_arg1 :=
  funext fun y => congrArg (V c main_arg1) (funext fun a => Fin.ext (emb0 0 t y a))
theorem iblk_main_arg2 (c : Dev nD) (t : Fin cfg0.N) : iblk V c 1 t = V c main_arg2 :=
  funext fun y => congrArg (V c main_arg2) (funext fun a => Fin.ext (emb0 1 t y a))
theorem iblk_main_arg4 (c : Dev nD) (t : Fin cfg0.N) : iblk V c 2 t = V c main_arg4 :=
  funext fun y => congrArg (V c main_arg4) (funext fun a => Fin.ext (emb0 2 t y a))
theorem iblk_main_v0 (c : Dev nD) (t : Fin cfg0.N) : iblk V c 3 t = V c main_v0 :=
  funext fun y => congrArg (V c main_v0) (funext fun a => Fin.ext (emb0 3 t y a))
theorem iblk_main_arg6 (c : Dev nD) (t : Fin cfg0.N) : iblk V c 4 t = V c main_arg6 :=
  funext fun y => congrArg (V c main_arg6) (funext fun a => Fin.ext (emb0 4 t y a))
theorem iblk_main_v1 (c : Dev nD) (t : Fin cfg0.N) : iblk V c 5 t = V c main_v1 :=
  funext fun y => congrArg (V c main_v1) (funext fun a => Fin.ext (emb0 5 t y a))

/-- There is one point, so two distinct points are absurd. -/
theorem disj0 (w : Fin cfg0.W) (t t' : Fin cfg0.N) (_ : (cfg0.win w).flush t = true) (_ : (cfg0.win w).flush t' = true) (h : t ≠ t') :
    Disjoint ((cfg0.win w).blk t).view.set ((cfg0.win w).blk t').view.set :=
  absurd ((fin_N0 t).trans (fin_N0 t').symm) h

theorem arr0_6 (c : Dev nD) : (dat0 (U := U) V c).arrAt 6 cfg0.N = k0_pay1 (V c main_arg1) (V c main_arg2) := funext fun i => by
  have h := (dat0 (U := U) V c).arrAt_emb_eq_flushed 6 (disj0 6) t0_0 (flush0_6 _) i
  rw [show ((cfg0.win 6).blk t0_0).view.emb i = i from funext fun a => Fin.ext (emb0 6 t0_0 i a)] at h
  rw [h]
  show (dat0 (U := U) V c).after 6 t0_0 i = _
  dsimp only [dat0, outS1]
  rw [View.canon_unit_zero hz, View.ld_unit_zero hz, View.ld_unit_zero hz, iblk_main_arg1, iblk_main_arg2]

theorem arr0_7 (c : Dev nD) : (dat0 (U := U) V c).arrAt 7 cfg0.N = k0_pay2 (V c main_arg4) (V c main_arg6) := funext fun i => by
  have h := (dat0 (U := U) V c).arrAt_emb_eq_flushed 7 (disj0 7) t0_0 (flush0_7 _) i
  rw [show ((cfg0.win 7).blk t0_0).view.emb i = i from funext fun a => Fin.ext (emb0 7 t0_0 i a)] at h
  rw [h]
  show (dat0 (U := U) V c).after 7 t0_0 i = _
  dsimp only [dat0, outWv]
  rw [View.canon_unit_zero hz, View.ld_unit_zero hz, View.ld_unit_zero hz, iblk_main_arg4, iblk_main_arg6]

theorem arr0_8 (c : Dev nD) : (dat0 (U := U) V c).arrAt 8 cfg0.N = k0_pay3 (V c main_v0) (V c main_arg6) (V c main_v1) := funext fun i => by
  have h := (dat0 (U := U) V c).arrAt_emb_eq_flushed 8 (disj0 8) t0_0 (flush0_8 _) i
  rw [show ((cfg0.win 8).blk t0_0).view.emb i = i from funext fun a => Fin.ext (emb0 8 t0_0 i a)] at h
  rw [h]
  show (dat0 (U := U) V c).after 8 t0_0 i = _
  dsimp only [dat0, outC]
  rw [View.canon_unit_zero hz, View.ld_unit_zero hz, View.ld_unit_zero hz, View.ld_unit_zero hz, iblk_main_v0, iblk_main_arg6, iblk_main_v1]

end Cert.Kernel.R0

end
-- ==== Proof.WLR1RunA.lean ====
import proofs.«121951_g22909355557424_cont_8to1_1761_16_alg».proof.Proof.Gen.Kernel.Skeleton
import Idealize.ShloMosaic.Lib.Pipeline.Value

noncomputable section

namespace Cert.Kernel.R1Run

open Cert.Kernel Cert.Kernel.Gen Idealize.ShloMosaic

abbrev cond1 (i : grid1.Coords) : Prop :=
  (Scalar.cmpi .ne (Scalar.extui (Scalar.cmpi .eq (BitVec.ofNat 32 (i 0).val) 0#32)) 0#32) = 1#1

theorem cond1_iff : ∀ i : grid1.Coords, cond1 i ↔ (i 0).val = 0 := by decide +kernel

abbrev rA0 : Rect S512x10000 := Rect.unit ![0, 0] S512x2560.size inb_S512x10000_S512x2560_0_0
abbrev rA1 : Rect S512x10000 := Rect.unit ![0, 2560] S512x2560.size inb_S512x10000_S512x2560_0_2560
abbrev rA2 : Rect S512x10000 := Rect.unit ![0, 5120] S512x2560.size inb_S512x10000_S512x2560_0_5120
abbrev rA3 : Rect S512x10000 := Rect.unit ![0, 7680] S512x2320.size inb_S512x10000_S512x2320_0_7680
abbrev rS0 : Rect S10000x128 := Rect.unit ![0, 0] S2560x128.size inb_S10000x128_S2560x128_0_0
abbrev rS1 : Rect S10000x128 := Rect.unit ![2560, 0] S2560x128.size inb_S10000x128_S2560x128_2560_0
abbrev rS2 : Rect S10000x128 := Rect.unit ![5120, 0] S2560x128.size inb_S10000x128_S2560x128_5120_0
abbrev rS3 : Rect S10000x128 := Rect.unit ![7680, 0] S2320x128.size inb_S10000x128_S2320x128_7680_0
abbrev rV0 : Rect S10240x128 := Rect.unit ![0, 0] S2560x128.size inb_S10240x128_S2560x128_0_0
abbrev rV1 : Rect S10240x128 := Rect.unit ![2560, 0] S2560x128.size inb_S10240x128_S2560x128_2560_0
abbrev rV2 : Rect S10240x128 := Rect.unit ![5120, 0] S2560x128.size inb_S10240x128_S2560x128_5120_0
abbrev rV3 : Rect S10240x128 := Rect.unit ![7680, 0] S2320x128.size inb_S10240x128_S2320x128_7680_0
abbrev rVW : Rect S10240x128 := Rect.unit ![0, 0] S10240x128.size inb_S10240x128_S10240x128_0_0
abbrev rVS (i : grid1.Coords) : Rect S10240x128 := Rect.unit (k1_off1 i) S512x128.size (k1_off1_inb i)

variable {F : FTy → Type} [FloatOps F] (i : grid1.Coords)
  (X1 : Vec F S512x10000 .f32) (X2 : Vec F S10000x128 .bf16) (X3 : Vec F S1x128 .f32) (X4 : Vec F S128x1 .f32) (X5 : Vec F S1x1 .f32)
  (V : Vec F S10240x128 .bf16)

def hAcc : FVec F S512x128 .f32 :=
  k1_pay17 (View.ld X1 rA3)
    (k1_pay14 (View.ld X1 rA2)
      (k1_pay11 (View.ld X1 rA1)
        (k1_pay7 (View.ld X1 rA0) (k1_pay4 X3) (View.ld X2 rS0))
        (View.ld X2 rS1))
      (View.ld X2 rS2))
    (View.ld X2 rS3)

def oAcc : FVec F S512x128 .f32 :=
  k1_pay18 (View.ld X1 rA3)
    (k1_pay15 (k1_pay13 (View.ld X1 rA2))
      (k1_pay12 (View.ld X1 rA1)
        (k1_pay9 (k1_pay8 (View.ld X1 rA0) (k1_pay5 (F := F)) (View.ld V rV0)))
        (View.ld V rV1))
      (View.ld V rV2))
    (View.ld V rV3)

def vwSlice : FVec F S512x128 .bf16 :=
  k1_pay1 (BitVec.ofNat 32 (i 0).val) (k1_pay19 (hAcc X1 X2 X3)) X4

def partOf : FVec F S512x1 .f32 :=
  k1_pay2 (oAcc X1 V) X5

def vwFirst : Vec F S10240x128 .bf16 :=
  View.canon [(⟨rVS i, vwSlice i X1 X2 X3 X4⟩ : View.Piece (Elt F) S10240x128 .bf16), ⟨rVW, k1_pay3 (F := F)⟩]

def vwLater (X6 : Vec F S10240x128 .bf16) : Vec F S10240x128 .bf16 :=
  View.canon [(⟨rVS i, vwSlice i X1 X2 X3 X4⟩ : View.Piece (Elt F) S10240x128 .bf16), ⟨rVW, X6⟩]

end Cert.Kernel.R1Run

end
-- ==== Proof.WLR1Run.lean ====
import proofs.«121951_g22909355557424_cont_8to1_1761_16_alg».proof.Proof.WLR1RunA
import Idealize.ShloMosaic.Lib.Pipeline.TableIdle

noncomputable section

namespace Cert.Kernel.R1Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

theorem hz2 : (![0, 0] : Fin 2 → ℕ) = fun _ => 0 := by funext a; fin_cases a <;> rfl

section Pieces

variable {sig' : RefSig} {κ : Kind} {sp : Space} {S : Shape} {e : EltTy} {Val : EltTy → Type} [∀ e, Nonempty (Val e)]

/-- After one write over the whole shape, reading through a rectangle gives the payload through that rectangle. -/
theorem readCov_whole_piece (v : View sig' κ sp S e) {off : Fin S.rank → ℕ} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon', View.canon_unit_zero h]

/-- If the last write covers the whole shape, what is read back is its payload. -/
theorem read_writes_head_whole (v : View sig' κ sp S e) (f : v.ty.Contents Val) {off : Fin S.rank → ℕ} (h : off = fun _ => 0)
    (inb : ∀ a, off a + S.size a ≤ S.size a) (w : S.Idx → Val e) (T : List (View.Piece Val S e)) :
    v.read Val (v.writes Val f ((⟨Rect.unit off S.size inb, w⟩ : View.Piece Val S e) :: T)) = w := by
  rw [View.read_writes_eq_canon _ _ _ (fun y => ⟨_, List.mem_cons_self, View.mem_set_unit_zero h inb y⟩),
    View.canon_cons_unit_zero h]

/-- One write over contents `f` reads back as that piece laid over what `f` read. -/
theorem read_writes_one_over (v : View sig' κ sp S e) (f : v.ty.Contents Val) (p : View.Piece Val S e) {off : Fin S.rank → ℕ}
    (h : off = fun _ => 0) (inb : ∀ a, off a + S.size a ≤ S.size a) :
    v.read Val (v.writes Val f [p]) = View.canon [p, (⟨Rect.unit off S.size inb, v.read Val f⟩ : View.Piece Val S e)] := by
  funext y
  by_cases hy : y ∈ p.1.set
  · obtain ⟨r, w⟩ := p
    obtain ⟨x, rfl⟩ : ∃ x, r.emb x = y := r.exists_idx_of_mem hy
    rw [View.read_writes_cons_emb, View.canon_cons_emb]
  · have hy' : y ∉ Finset.univ.map p.1.emb := by rwa [Rect.map_emb_univ]
    rw [View.writes_cons, View.read_slice_write_of_not_mem p.1 _ _ _ hy', View.canon_cons_of_not_mem p _ hy,
      View.writes_nil, View.canon_unit_zero h]

end Pieces

variable (c : Dev nD) (i : grid1.Coords)
    (arg1 : Memref sig .tc .vmem S512x10000 .f32) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S10240x128 .bf16) (harg6 : arg6.IsWhole)
    (arg7 : Memref sig .tc .vmem S512x1 .f32) (harg7 : arg7.IsWhole) (arg8 : Memref sig .tc .vmem S512x128 .f32) (harg8 : arg8.IsWhole)
    (arg9 : Memref sig .tc .vmem S512x128 .f32) (harg9 : arg9.IsWhole)

/-- At the first grid point the zero write comes first, so every result is the general one taken at the zero contents. -/
theorem run_first (hc : (i 0).val = 0) (X1 : Vec F S512x10000 .f32) (X2 : Vec F S10000x128 .bf16) (X3 : Vec F S1x128 .f32) (X4 : Vec F S128x1 .f32) (X5 : Vec F S1x1 .f32) (E : Set ℕ) (K : PUnit → sProp 𝕄) :
    iprop(owns c.tc arg1 fullShare X1 ∗ owns c.tc arg2 fullShare X2 ∗ owns c.tc arg3 fullShare X3
            ∗ owns c.tc arg4 fullShare X4 ∗ owns c.tc arg5 fullShare X5
        ∗ (∃ d, owns c.tc arg6 fullShare d) ∗ (∃ d, owns c.tc arg7 fullShare d)
        ∗ (∃ d, owns c.tc arg8 fullShare d) ∗ (∃ d, owns c.tc arg9 fullShare d)
        ∗ (iprop(owns c.tc arg1 fullShare X1 ∗ owns c.tc arg2 fullShare X2 ∗ owns c.tc arg3 fullShare X3
            ∗ owns c.tc arg4 fullShare X4 ∗ owns c.tc arg5 fullShare X5
            ∗ owns c.tc arg6 fullShare (vwFirst i X1 X2 X3 X4)
            ∗ owns c.tc arg7 fullShare (partOf X1 X5 (k1_pay3 (F := F)))
            ∗ owns c.tc arg8 fullShare (hAcc X1 X2 X3)
            ∗ owns c.tc arg9 fullShare (oAcc X1 (k1_pay3 (F := F)))) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  rw [owns_eq_rep c.tc arg1, owns_eq_rep c.tc arg2, owns_eq_rep c.tc arg3, owns_eq_rep c.tc arg4, owns_eq_rep c.tc arg5]
  unfold owns
  iintro ⟨H1, H2, H3, H4, H5, ⟨%d6, %f6, -, H6⟩, ⟨%d7, %f7, -, H7⟩, ⟨%d8, %f8, -, H8⟩, ⟨%d9, %f9, -, H9⟩, Hk⟩
  sl_exec (disch := first | exact (cond1_iff i).mpr hc)
  sl_step
  iapply Hk
  iframe H1 H2 H3 H4 H5
  isplitl [H6]; iexists _; isplitr; swap; iexact H6; ipureintro
  refine (View.read_writes_eq_canon _ _ _ (fun y => ⟨_, List.mem_cons_of_mem _ List.mem_cons_self, View.mem_set_unit_zero hz2 inb_S10240x128_S10240x128_0_0 y⟩)).trans ?_; rotate_left
  isplitl [H7]; iexists _; isplitr; swap; iexact H7; ipureintro
  refine (read_writes_head_whole _ _ hz2 _ _ _).trans ?_; rotate_left
  isplitl [H8]; iexists _; isplitr; swap; iexact H8; ipureintro
  refine (read_writes_head_whole _ _ hz2 _ _ _).trans ?_; rotate_left
  iexists _; isplitr; swap; iexact H9; ipureintro
  refine (read_writes_head_whole _ _ hz2 _ _ _).trans ?_; rotate_left
  all_goals
    sl_unfold_run_names
    simp only [View.readCov_cons_toLoadRect, readCov_whole_piece (S := S10240x128) arg6.view hz2, View.readAt_eq_ld,
    View.read_rep, View.ld_unit_zero (S := S1x128) hz2, View.ld_unit_zero (S := S128x1) hz2, View.ld_unit_zero (S := S1x1) hz2]
    rfl

/-- At a later grid point the results are functions of the contents `X6` found, 512 of its rows replaced. -/
theorem run_later (hc : (i 0).val ≠ 0) (X1 : Vec F S512x10000 .f32) (X2 : Vec F S10000x128 .bf16) (X3 : Vec F S1x128 .f32) (X4 : Vec F S128x1 .f32) (X5 : Vec F S1x1 .f32) (X6 : Vec F S10240x128 .bf16) (E : Set ℕ) (K : PUnit → sProp 𝕄) :
    iprop(owns c.tc arg1 fullShare X1 ∗ owns c.tc arg2 fullShare X2 ∗ owns c.tc arg3 fullShare X3
            ∗ owns c.tc arg4 fullShare X4 ∗ owns c.tc arg5 fullShare X5
        ∗ owns c.tc arg6 fullShare X6 ∗ (∃ d, owns c.tc arg7 fullShare d)
        ∗ (∃ d, owns c.tc arg8 fullShare d) ∗ (∃ d, owns c.tc arg9 fullShare d)
        ∗ (iprop(owns c.tc arg1 fullShare X1 ∗ owns c.tc arg2 fullShare X2 ∗ owns c.tc arg3 fullShare X3
            ∗ owns c.tc arg4 fullShare X4 ∗ owns c.tc arg5 fullShare X5
            ∗ owns c.tc arg6 fullShare (vwLater i X1 X2 X3 X4 X6)
            ∗ owns c.tc arg7 fullShare (partOf X1 X5 X6)
            ∗ owns c.tc arg8 fullShare (hAcc X1 X2 X3)
            ∗ owns c.tc arg9 fullShare (oAcc X1 X6)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  rw [owns_eq_rep c.tc arg1, owns_eq_rep c.tc arg2, owns_eq_rep c.tc arg3, owns_eq_rep c.tc arg4, owns_eq_rep c.tc arg5, owns_eq_rep c.tc arg6 _ X6]
  unfold owns
  iintro ⟨H1, H2, H3, H4, H5, H6, ⟨%d7, %f7, -, H7⟩, ⟨%d8, %f8, -, H8⟩, ⟨%d9, %f9, -, H9⟩, Hk⟩
  sl_exec (disch := first | exact (cond1_iff i).not.mpr hc)
  sl_step
  iapply Hk
  iframe H1 H2 H3 H4 H5
  isplitl [H6]; iexists _; isplitr; swap; iexact H6; ipureintro
  refine (read_writes_one_over _ _ _ hz2 inb_S10240x128_S10240x128_0_0).trans ?_; rotate_left
  isplitl [H7]; iexists _; isplitr; swap; iexact H7; ipureintro
  refine (read_writes_head_whole _ _ hz2 _ _ _).trans ?_; rotate_left
  isplitl [H8]; iexists _; isplitr; swap; iexact H8; ipureintro
  refine (read_writes_head_whole _ _ hz2 _ _ _).trans ?_; rotate_left
  iexists _; isplitr; swap; iexact H9; ipureintro
  refine (read_writes_head_whole _ _ hz2 _ _ _).trans ?_; rotate_left
  all_goals
    sl_unfold_run_names
    simp only [View.readCov_cons_toLoadRect, View.readAt_eq_ld,
    View.read_rep, View.ld_unit_zero (S := S1x128) hz2, View.ld_unit_zero (S := S128x1) hz2, View.ld_unit_zero (S := S1x1) hz2]
    rfl

end Cert.Kernel.R1Run

end
-- ==== Proof.WLR1DatT.lean ====
import proofs.«121951_g22909355557424_cont_8to1_1761_16_alg».proof.Proof.Gen.Kernel.Launch
import proofs.«121951_g22909355557424_cont_8to1_1761_16_alg».proof.Proof.Gen.Kernel.Skeleton
import proofs.«121951_g22909355557424_cont_8to1_1761_16_alg».proof.Proof.Gen.Kernel.Points
import proofs.«121951_g22909355557424_cont_8to1_1761_16_alg».proof.Proof.WLR1Run
import Idealize.ShloMosaic.Lib.Pipeline.FrameBody
import Idealize.ShloMosaic.Lib.Pipeline.Kit
import Idealize.ShloMosaic.Lib.Tactic

set_option maxRecDepth 16384

noncomputable section

namespace Cert.Kernel.R1DatT

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F] {U : Type} [URA U]

local notation "𝕄" => MT nD τ sig Unit (Elt F) ℕ U ℕ

variable (V : (c : Dev nD) → (b : Ref sig .tc) → Buf (Elt F) ((c : Thread nD τ).loc b))

def rd1T (c : Dev nD) : Pipeline.RDat τ (Elt F) Unit ℕ U ℕ cfg1 c where
  A w := V c (Pipeline.arrRef spec1 w)
  after _ _ _ _ := True
  Φ _ := Pipeline.ΦA spec1 c
  q _ := fullShare
  owed _ := 0

theorem scopedRest1_split (c : Dev nD) :
    (Pipeline.scopedRest (Ix := Unit) (Name := ℕ) (U := U) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := U) (Lvl := ℕ) (Val := Elt F) spec1 c [cc1_scratch0, cc1_scratch1]) :=
  Pipeline.scopedRest_split_of_list (Ix := Unit) (Name := ℕ) (U := U) (Lvl := ℕ) (Val := Elt F) spec1 c [cc1_scratch0, cc1_scratch1]
    (by decide) (by decide)

theorem owns_whole_some (c : Dev nD) (b : Ref sig .tc) (f : Buf (Elt F) ((c : Thread nD τ).loc b)) :
    (owns (c : Thread nD τ) (Memref.whole b) fullShare f : sProp 𝕄)
      ⊢ iprop(∃ g : Buf (Elt F) ((c : Thread nD τ).loc b), ((c : Thread nD τ).loc b) ↦{fullShare} g) := by
  rw [owns_whole]
  iintro H
  iexists f
  iexact H

theorem body_obligation1T (c : Dev nD) :
    (rd1T (F := F) (U := U) V c).BodyObligation (defs₀ (F := F)) Variants.none () Set.univ := fun t Y hY => by
  rw [bigSep_W1, bigSep_W1]
  show iprop(Pipeline.ΦA (Val := Elt F) (U := U) spec1 c ∗ _) ⊢ wp _ _ _ (bodyAt1 (F := F) t) fun _ =>
    iprop(Pipeline.ΦA (Val := Elt F) (U := U) spec1 c ∗ (rd1T (F := F) (U := U) V c).owesAt () t.castSucc ∗ _)
  unfold Pipeline.ΦA
  rw [scopedRest1_split (F := F) (U := U) c]
  iintro ⟨⟨⟨⟨⟨%f8, Hs8⟩, ⟨%f9, Hs9⟩⟩, Hr⟩, Hp⟩, Ho, H0, H1, H2, H3, H4, H5, H6⟩
  by_cases hc : (grid1.coords t 0).val = 0
  on_goal 1 => iapply (R1Run.run_first (U := U) c _ _ _ _ _ _ _ _ _ _ _ _ _ _ _ _ _ _ _ hc (Y 0) (Y 1) (Y 2) (Y 3) (Y 4) Set.univ _)
  on_goal 2 => iapply (R1Run.run_later (U := U) c _ _ _ _ _ _ _ _ _ _ _ _ _ _ _ _ _ _ _ hc (Y 0) (Y 1) (Y 2) (Y 3) (Y 4) (Y 5) Set.univ _)
  all_goals
    iframe H0 H1 H2 H3 H4
    isplitl [H5]; · first | iexact H5 | (iexists (Y 5); iexact H5)
    isplitl [H6]; · iexists (Y 6); iexact H6
    isplitl [Hs8]; · iexists f8; rw [owns_whole]; iexact Hs8
    isplitl [Hs9]; · iexists f9; rw [owns_whole]; iexact Hs9
    iintro ⟨H0, H1, H2, H3, H4, H5, H6, Hs8, Hs9⟩
    iframe Hr Hp Ho
    isplitl [Hs8 Hs9]
    · isplitl [Hs8]
      · iapply (owns_whole_some (F := F) (U := U) c cc1_scratch0 _); iexact Hs8
      · iapply (owns_whole_some (F := F) (U := U) c cc1_scratch1 _); iexact Hs9
    isplitl [H0]; · iexists (Y 0); isplitr; · ipureintro; trivial
                    iexact H0
    isplitl [H1]; · iexists (Y 1); isplitr; · ipureintro; trivial
                    iexact H1
    isplitl [H2]; · iexists (Y 2); isplitr; · ipureintro; trivial
                    iexact H2
    isplitl [H3]; · iexists (Y 3); isplitr; · ipureintro; trivial
                    iexact H3
    isplitl [H4]; · iexists (Y 4); isplitr; · ipureintro; trivial
                    iexact H4
    isplitl [H5]
    · iexists _; isplitr
      swap; · iexact H5
      ipureintro; trivial
    · iexists _; isplitr
      swap; · iexact H6
      ipureintro; trivial

end Cert.Kernel.R1DatT

end
-- ==== Proof.WLR2RunConds.lean ====
import proofs.«121951_g22909355557424_cont_8to1_1761_16_alg».proof.Proof.Gen.Kernel.Skeleton
import Idealize.ShloMosaic.Lib.Tactic

namespace Cert.Kernel.R2Run

open Idealize.ShloMosaic

abbrev tst (x : BitVec 1) : Prop := Scalar.cmpi .ne (Scalar.extui x : BitVec 32) 0#32 = 1#1
abbrev q0 (i : grid2.Coords) : BitVec 32 := Scalar.subi (BitVec.ofNat 32 (i 0).val) (Scalar.muli 5#32 (BitVec.ofNat 32 (i 1).val))
abbrev lt3 (i : grid2.Coords) : BitVec 1 := Scalar.cmpi .slt (BitVec.ofNat 32 (i 1).val) 3#32
abbrev eq3 (i : grid2.Coords) : BitVec 1 := Scalar.cmpi .eq (BitVec.ofNat 32 (i 1).val) 3#32

/-- The body's twelve branch conditions, in program order, as arithmetic on the row block `i 0 < 20` and the column block `i 1 < 4`: by enumeration of the grid. -/
theorem conds_iff : ∀ i : grid2.Coords,
    (tst (Scalar.cmpi .eq (BitVec.ofNat 32 (i 1).val) 0#32) ↔ (i 1).val = 0) ∧
    (tst (Scalar.andi (lt3 i) (Scalar.cmpi .sle (q0 i) 0#32)) ↔ (i 1).val < 3 ∧ (i 0).val ≤ 5 * (i 1).val) ∧
    (tst (Scalar.andi (lt3 i) (Scalar.cmpi .eq (q0 i) 1#32)) ↔ (i 1).val < 3 ∧ (i 0).val = 5 * (i 1).val + 1) ∧
    (tst (Scalar.andi (lt3 i) (Scalar.cmpi .eq (q0 i) 2#32)) ↔ (i 1).val < 3 ∧ (i 0).val = 5 * (i 1).val + 2) ∧
    (tst (Scalar.andi (lt3 i) (Scalar.cmpi .eq (q0 i) 3#32)) ↔ (i 1).val < 3 ∧ (i 0).val = 5 * (i 1).val + 3) ∧
    (tst (Scalar.andi (lt3 i) (Scalar.cmpi .eq (q0 i) 4#32)) ↔ (i 1).val < 3 ∧ (i 0).val = 5 * (i 1).val + 4) ∧
    (tst (Scalar.andi (eq3 i) (Scalar.cmpi .sle (q0 i) 0#32)) ↔ (i 1).val = 3 ∧ (i 0).val ≤ 15) ∧
    (tst (Scalar.andi (eq3 i) (Scalar.cmpi .eq (q0 i) 1#32)) ↔ (i 1).val = 3 ∧ (i 0).val = 16) ∧
    (tst (Scalar.andi (eq3 i) (Scalar.cmpi .eq (q0 i) 2#32)) ↔ (i 1).val = 3 ∧ (i 0).val = 17) ∧
    (tst (Scalar.andi (eq3 i) (Scalar.cmpi .eq (q0 i) 3#32)) ↔ (i 1).val = 3 ∧ (i 0).val = 18) ∧
    (tst (Scalar.andi (eq3 i) (Scalar.cmpi .eq (q0 i) 4#32)) ↔ (i 1).val = 3 ∧ (i 0).val = 19) ∧
    (k2_cond12 i = 1#1 ↔ (i 1).val = 3) := by decide +kernel

end Cert.Kernel.R2Run
-- ==== Proof.WLR2RunDefs.lean ====
import proofs.«121951_g22909355557424_cont_8to1_1761_16_alg».proof.Proof.WLR2RunConds
import Idealize.ShloMosaic.Lib.Pipeline.FrameBody
import Idealize.ShloMosaic.Lib.Pipeline.Value
import Idealize.ShloMosaic.Lib.Tactic

noncomputable section

namespace Cert.Kernel.R2Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F] {U : Type} [URA U]

local notation "𝕄" => MT nD τ sig Unit (Elt F) ℕ U ℕ

theorem hz2 : (![0, 0] : Fin 2 → ℕ) = fun _ => 0 := by decide

/-- The whole-shape rectangle covers every index, so the piece stored last decides what is read. -/
theorem read_writes_cons_unit_zero {sig : RefSig} {κ : Kind} {sp : Space} {S : Shape} {e : EltTy} {Val : EltTy → Type}
    [∀ e, Nonempty (Val e)] (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨⟨Rect.unit off S.size inb, w⟩, List.mem_cons_self, View.mem_set_unit_zero h inb y⟩)).trans
    (View.canon_cons_unit_zero h inb w L)

abbrev A0 (X2 : Vec F S512x2560 .f32) : Vec F S512x512 .f32 := View.ld X2 (Rect.unit (s := S512x2560) ![0, 0] S512x512.size inb_S512x2560_S512x512_0_0)
abbrev A1 (X2 : Vec F S512x2560 .f32) : Vec F S512x512 .f32 := View.ld X2 (Rect.unit (s := S512x2560) ![0, 512] S512x512.size inb_S512x2560_S512x512_0_512)
abbrev A2 (X2 : Vec F S512x2560 .f32) : Vec F S512x512 .f32 := View.ld X2 (Rect.unit (s := S512x2560) ![0, 1024] S512x512.size inb_S512x2560_S512x512_0_1024)
abbrev A3 (X2 : Vec F S512x2560 .f32) : Vec F S512x512 .f32 := View.ld X2 (Rect.unit (s := S512x2560) ![0, 1536] S512x512.size inb_S512x2560_S512x512_0_1536)
abbrev A4 (X2 : Vec F S512x2560 .f32) : Vec F S512x512 .f32 := View.ld X2 (Rect.unit (s := S512x2560) ![0, 2048] S512x512.size inb_S512x2560_S512x512_0_2048)
abbrev V0 (X3 : Vec F S2560x128 .bf16) : Vec F S512x128 .bf16 := View.ld X3 (Rect.unit (s := S2560x128) ![0, 0] S512x128.size inb_S2560x128_S512x128_0_0)
abbrev V1 (X3 : Vec F S2560x128 .bf16) : Vec F S512x128 .bf16 := View.ld X3 (Rect.unit (s := S2560x128) ![512, 0] S512x128.size inb_S2560x128_S512x128_512_0)
abbrev V2 (X3 : Vec F S2560x128 .bf16) : Vec F S512x128 .bf16 := View.ld X3 (Rect.unit (s := S2560x128) ![1024, 0] S512x128.size inb_S2560x128_S512x128_1024_0)
abbrev V3 (X3 : Vec F S2560x128 .bf16) : Vec F S512x128 .bf16 := View.ld X3 (Rect.unit (s := S2560x128) ![1536, 0] S512x128.size inb_S2560x128_S512x128_1536_0)
abbrev V4 (X3 : Vec F S2560x128 .bf16) : Vec F S512x128 .bf16 := View.ld X3 (Rect.unit (s := S2560x128) ![2048, 0] S512x128.size inb_S2560x128_S512x128_2048_0)

abbrev accAll (acc : Vec F S512x128 .f32) (X2 : Vec F S512x2560 .f32) (X3 : Vec F S2560x128 .bf16) : Vec F S512x128 .f32 :=
  k2_pay10 (k2_pay5 acc (A0 X2) (V0 X3) (A1 X2) (V1 X3) (A2 X2) (V2 X3) (A3 X2) (V3 X3) (A4 X2) (V4 X3))

abbrev accFrom1 (acc : Vec F S512x128 .f32) (X2 : Vec F S512x2560 .f32) (X3 : Vec F S2560x128 .bf16) : Vec F S512x128 .f32 :=
  k2_pay11 acc (A1 X2) (V1 X3) (A2 X2) (V2 X3) (A3 X2) (V3 X3) (A4 X2) (V4 X3)

abbrev accFrom2 (acc : Vec F S512x128 .f32) (X2 : Vec F S512x2560 .f32) (X3 : Vec F S2560x128 .bf16) : Vec F S512x128 .f32 :=
  k2_pay12 acc (A2 X2) (V2 X3) (A3 X2) (V3 X3) (A4 X2) (V4 X3)

abbrev accFrom3 (acc : Vec F S512x128 .f32) (X2 : Vec F S512x2560 .f32) (X3 : Vec F S2560x128 .bf16) : Vec F S512x128 .f32 :=
  k2_pay13 acc (A3 X2) (V3 X3) (A4 X2) (V4 X3)

abbrev accFrom4 (acc : Vec F S512x128 .f32) (X2 : Vec F S512x2560 .f32) (X3 : Vec F S2560x128 .bf16) : Vec F S512x128 .f32 :=
  k2_pay14 acc (A4 X2) (V4 X3)

abbrev edgeAll (acc : Vec F S512x128 .f32) (X2 : Vec F S512x2560 .f32) (X3 : Vec F S2560x128 .bf16) : Vec F S512x128 .f32 :=
  k2_pay15 (k2_pay6 acc (A0 X2) (V0 X3) (A1 X2) (V1 X3) (A2 X2) (V2 X3) (A3 X2) (V3 X3)) (k2_pay7 (A4 X2)) (V4 X3)

abbrev edgeFrom1 (acc : Vec F S512x128 .f32) (X2 : Vec F S512x2560 .f32) (X3 : Vec F S2560x128 .bf16) : Vec F S512x128 .f32 :=
  k2_pay8 acc (A1 X2) (V1 X3) (A2 X2) (V2 X3) (A3 X2) (V3 X3) (A4 X2) (V4 X3)

abbrev edgeFrom2 (acc : Vec F S512x128 .f32) (X2 : Vec F S512x2560 .f32) (X3 : Vec F S2560x128 .bf16) : Vec F S512x128 .f32 :=
  k2_pay1 acc (A2 X2) (V2 X3) (A3 X2) (V3 X3) (A4 X2) (V4 X3)

abbrev edgeFrom3 (acc : Vec F S512x128 .f32) (X2 : Vec F S512x2560 .f32) (X3 : Vec F S2560x128 .bf16) : Vec F S512x128 .f32 :=
  k2_pay2 acc (A3 X2) (V3 X3) (A4 X2) (V4 X3)

abbrev edgeFrom4 (acc : Vec F S512x128 .f32) (X2 : Vec F S512x2560 .f32) (X3 : Vec F S2560x128 .bf16) : Vec F S512x128 .f32 :=
  k2_pay3 acc (A4 X2) (V4 X3)

abbrev outOf (X4 : Vec F S512x1 .f32) (acc : Vec F S512x128 .f32) : Vec F S512x1 .f32 := k2_pay4 X4 acc

abbrev acc0 : Vec F S512x128 .f32 := k2_pay9 (F := F)

def Held (c : Dev nD) (arg2 : Memref sig .tc .vmem S512x2560 .f32) (arg3 : Memref sig .tc .vmem S2560x128 .bf16) (arg4 : Memref sig .tc .vmem S512x1 .f32) (arg5 : Memref sig .tc .vmem S512x1 .f32) (arg6 : Memref sig .tc .vmem S512x128 .f32)
    (X2 : Vec F S512x2560 .f32) (X3 : Vec F S2560x128 .bf16) (X4 : Vec F S512x1 .f32) (X5 : Vec F S512x1 .f32) (X6 : Vec F S512x128 .f32) : sProp 𝕄 :=
  iprop(owns (c : Thread nD τ) arg2 fullShare X2 ∗ owns (c : Thread nD τ) arg3 fullShare X3 ∗ owns (c : Thread nD τ) arg4 fullShare X4
    ∗ owns (c : Thread nD τ) arg5 fullShare X5 ∗ owns (c : Thread nD τ) arg6 fullShare X6)

def Triple (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (X2 : Vec F S512x2560 .f32) (X3 : Vec F S2560x128 .bf16) (X4 : Vec F S512x1 .f32) (X5 : Vec F S512x1 .f32) (X6 : Vec F S512x128 .f32) (Y5 : Vec F S512x1 .f32) (Y6 : Vec F S512x128 .f32) : Prop :=
  ∀ (E : Set ℕ) (K : PUnit → sProp 𝕄),
    iprop(Held (U := U) c arg2 arg3 arg4 arg5 arg6 X2 X3 X4 X5 X6 ∗ (Held (U := U) c arg2 arg3 arg4 arg5 arg6 X2 X3 X4 Y5 Y6 -∗ K ⟨⟩))
      ⊢ wp frame (wpE (defs₀ (F := F)) Variants.none c none) E (cc2_body i arg2 harg2 arg3 harg3 arg4 harg4 arg5 harg5 arg6 harg6) K

/-- A buffer is handed back at what it reads: its contents as found if nothing was stored into it, else the last store's payload over those contents. -/
macro "r2_held " h:ident H:ident : tactic => `(tactic| (
  iexists _; isplitr; swap; (· iexact $H); ipureintro
  first
    | exact Memref.IsWhole.read_unread $h _
    | (refine (read_writes_cons_unit_zero _ _ hz2 _ _ _).trans ?_
       sl_unfold_words
       first
         | rfl
         | (simp only [View.readAt_eq_ld, Memref.IsWhole.read_unread, View.readCov_unit_zero (S := S512x128) _ hz2,
             View.ld_unit_zero (S := S512x128) hz2, View.ld_unit_zero (S := S512x1) hz2]
            try rfl))))

set_option hygiene false in
/-- Runs the body along the control path the grid point's coordinates fix, each branch condition decided through its closed form. -/
macro "r2_run" : tactic => `(tactic| (
  intro E K
  have ha : (i 0).val < 20 := (i 0).isLt
  have hb : (i 1).val < 4 := (i 1).isLt
  obtain ⟨e1, e2, e3, e4, e5, e6, e7, e8, e9, e10, e11, e12⟩ := conds_iff i
  simp only [cc2_body_eq_skeleton]; unfold cc2_body_skel
  unfold Held owns
  iintro ⟨⟨⟨%f2, %hf2, H2⟩, ⟨%f3, %hf3, H3⟩, ⟨%f4, %hf4, H4⟩, ⟨%f5, %hf5, H5⟩, ⟨%f6, %hf6, H6⟩⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact Iff.mpr ‹_› (by omega) | exact mt (Iff.mp ‹_›) (by omega))
  sl_step
  iapply Hk
  isplitl [H2]; (· r2_held harg2 H2)
  isplitl [H3]; (· r2_held harg3 H3)
  isplitl [H4]; (· r2_held harg4 H4)
  isplitl [H5]; (· r2_held harg5 H5)
  r2_held harg6 H6))

end Cert.Kernel.R2Run

end
-- ==== Proof.WLR2RunInit.lean ====
import proofs.«121951_g22909355557424_cont_8to1_1761_16_alg».proof.Proof.WLR2RunDefs

set_option maxHeartbeats 1000000

namespace Cert.Kernel.R2Run

open Idealize.ShloMosaic Idealize.SL.RA Cert.Kernel.Gen

variable {F : FTy → Type} [FloatOps F] {U : Type} [URA U]

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

theorem at_init_all (hj : (i 1).val = 0) (hi : (i 0).val = 0) : Runs[X5, accAll acc0 X2 X3] := by r2_run
theorem at_init_q1 (hj : (i 1).val = 0) (hi : (i 0).val = 1) : Runs[X5, accFrom1 acc0 X2 X3] := by r2_run
theorem at_init_q2 (hj : (i 1).val = 0) (hi : (i 0).val = 2) : Runs[X5, accFrom2 acc0 X2 X3] := by r2_run
theorem at_init_q3 (hj : (i 1).val = 0) (hi : (i 0).val = 3) : Runs[X5, accFrom3 acc0 X2 X3] := by r2_run
theorem at_init_q4 (hj : (i 1).val = 0) (hi : (i 0).val = 4) : Runs[X5, accFrom4 acc0 X2 X3] := by r2_run
theorem at_init_none (hj : (i 1).val = 0) (hi : 5 ≤ (i 0).val) : Runs[X5, acc0] := by r2_run

end Cert.Kernel.R2Run
-- ==== Proof.WLR2RunMid.lean ====
import proofs.«121951_g22909355557424_cont_8to1_1761_16_alg».proof.Proof.WLR2RunInit

set_option maxHeartbeats 1000000

namespace Cert.Kernel.R2Run

open Idealize.ShloMosaic Idealize.SL.RA Cert.Kernel.Gen

variable {F : FTy → Type} [FloatOps F] {U : Type} [URA U]

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

theorem at_mid_all (hj : 0 < (i 1).val) (hj' : (i 1).val < 3) (hi : (i 0).val ≤ 5 * (i 1).val) : Runs[X5, accAll X6 X2 X3] := by r2_run
theorem at_mid_q1 (hj : 0 < (i 1).val) (hj' : (i 1).val < 3) (hi : (i 0).val = 5 * (i 1).val + 1) : Runs[X5, accFrom1 X6 X2 X3] := by r2_run
theorem at_mid_q2 (hj : 0 < (i 1).val) (hj' : (i 1).val < 3) (hi : (i 0).val = 5 * (i 1).val + 2) : Runs[X5, accFrom2 X6 X2 X3] := by r2_run
theorem at_mid_q3 (hj : 0 < (i 1).val) (hj' : (i 1).val < 3) (hi : (i 0).val = 5 * (i 1).val + 3) : Runs[X5, accFrom3 X6 X2 X3] := by r2_run
theorem at_mid_q4 (hj : 0 < (i 1).val) (hj' : (i 1).val < 3) (hi : (i 0).val = 5 * (i 1).val + 4) : Runs[X5, accFrom4 X6 X2 X3] := by r2_run
theorem at_mid_none (hj : 0 < (i 1).val) (hj' : (i 1).val < 3) (hi : 5 * (i 1).val + 5 ≤ (i 0).val) : Runs[X5, X6] := by r2_run

end Cert.Kernel.R2Run
-- ==== Proof.WLR2RunLast.lean ====
import proofs.«121951_g22909355557424_cont_8to1_1761_16_alg».proof.Proof.WLR2RunMid

set_option maxHeartbeats 1000000

namespace Cert.Kernel.R2Run

open Idealize.ShloMosaic Idealize.SL.RA Cert.Kernel.Gen

variable {F : FTy → Type} [FloatOps F] {U : Type} [URA U]

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

theorem at_last_all (hj : (i 1).val = 3) (hi : (i 0).val ≤ 15) : Runs[outOf X4 (edgeAll X6 X2 X3), edgeAll X6 X2 X3] := by r2_run
theorem at_last_q1 (hj : (i 1).val = 3) (hi : (i 0).val = 16) : Runs[outOf X4 (edgeFrom1 X6 X2 X3), edgeFrom1 X6 X2 X3] := by r2_run
theorem at_last_q2 (hj : (i 1).val = 3) (hi : (i 0).val = 17) : Runs[outOf X4 (edgeFrom2 X6 X2 X3), edgeFrom2 X6 X2 X3] := by r2_run
theorem at_last_q3 (hj : (i 1).val = 3) (hi : (i 0).val = 18) : Runs[outOf X4 (edgeFrom3 X6 X2 X3), edgeFrom3 X6 X2 X3] := by r2_run
theorem at_last_q4 (hj : (i 1).val = 3) (hi : (i 0).val = 19) : Runs[outOf X4 (edgeFrom4 X6 X2 X3), edgeFrom4 X6 X2 X3] := by r2_run

end Cert.Kernel.R2Run
-- ==== Proof.WLR2Run.lean ====
import proofs.«121951_g22909355557424_cont_8to1_1761_16_alg».proof.Proof.WLR2RunLast

namespace Cert.Kernel.R2Run

open Idealize.ShloMosaic Idealize.ShloMosaic.TcCoe Idealize.SL Idealize.SL.RA Idealize.SL.BI Idealize.SL.BI.BIBase Idealize.SL.Sem Cert.Kernel.Gen

variable {F : FTy → Type} [FloatOps F] {U : Type} [URA U]

local notation "𝕄" => MT nD τ sig Unit (Elt F) ℕ U ℕ

variable (c : Dev nD) (i : grid2.Coords) (arg2 : Memref sig .tc .vmem S512x2560 .f32) (harg2 : arg2.IsWhole) (arg3 : Memref sig .tc .vmem S2560x128 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
  (X2 : Vec F S512x2560 .f32) (X3 : Vec F S2560x128 .bf16) (X4 : Vec F S512x1 .f32) (X5 : Vec F S512x1 .f32) (X6 : Vec F S512x128 .f32)

local notation "Runs[" Y5 ", " Y6 "]" => Triple (U := U) c i arg2 harg2 arg3 harg3 arg4 harg4 arg5 harg5 arg6 harg6 X2 X3 X4 X5 X6 Y5 Y6

/-- Every grid point is on one of the seventeen paths: from any contents of its five buffers the body runs, the operands and the partial sums left as they were. -/
theorem run2_any (E : Set ℕ) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6
        ∗ ((∃ (Y5 : Vec F S512x1 .f32) (Y6 : Vec F S512x128 .f32), owns (c : Thread nD τ) arg2 fullShare X2 ∗ owns (c : Thread nD τ) arg3 fullShare X3
              ∗ owns (c : Thread nD τ) arg4 fullShare X4 ∗ owns (c : Thread nD τ) arg5 fullShare Y5 ∗ owns (c : Thread nD τ) arg6 fullShare Y6) -∗ K ⟨⟩))
      ⊢ wp frame (wpE (defs₀ (F := F)) Variants.none c none) E (cc2_body i arg2 harg2 arg3 harg3 arg4 harg4 arg5 harg5 arg6 harg6) K := by
  obtain ⟨Y5, Y6, h⟩ : ∃ (Y5 : Vec F S512x1 .f32) (Y6 : Vec F S512x128 .f32), Runs[Y5, Y6] := by
    have ha : (i 0).val < 20 := (i 0).isLt
    have hb : (i 1).val < 4 := (i 1).isLt
    rcases (by omega : (i 1).val = 0 ∨ (0 < (i 1).val ∧ (i 1).val < 3) ∨ (i 1).val = 3) with hj | ⟨hj, hj'⟩ | hj
    · rcases (by omega : (i 0).val = 0 ∨ (i 0).val = 1 ∨ (i 0).val = 2 ∨ (i 0).val = 3 ∨ (i 0).val = 4 ∨ 5 ≤ (i 0).val)
        with hi | hi | hi | hi | hi | hi
      exacts [⟨_, _, at_init_all _ _ _ _ _ _ _ _ _ _ _ _ _ _ _ _ _ hj hi⟩, ⟨_, _, at_init_q1 _ _ _ _ _ _ _ _ _ _ _ _ _ _ _ _ _ hj hi⟩, ⟨_, _, at_init_q2 _ _ _ _ _ _ _ _ _ _ _ _ _ _ _ _ _ hj hi⟩,
        ⟨_, _, at_init_q3 _ _ _ _ _ _ _ _ _ _ _ _ _ _ _ _ _ hj hi⟩, ⟨_, _, at_init_q4 _ _ _ _ _ _ _ _ _ _ _ _ _ _ _ _ _ hj hi⟩, ⟨_, _, at_init_none _ _ _ _ _ _ _ _ _ _ _ _ _ _ _ _ _ hj hi⟩]
    · rcases (by omega : (i 0).val ≤ 5 * (i 1).val ∨ (i 0).val = 5 * (i 1).val + 1 ∨ (i 0).val = 5 * (i 1).val + 2
          ∨ (i 0).val = 5 * (i 1).val + 3 ∨ (i 0).val = 5 * (i 1).val + 4 ∨ 5 * (i 1).val + 5 ≤ (i 0).val)
        with hi | hi | hi | hi | hi | hi
      exacts [⟨_, _, at_mid_all _ _ _ _ _ _ _ _ _ _ _ _ _ _ _ _ _ hj hj' hi⟩, ⟨_, _, at_mid_q1 _ _ _ _ _ _ _ _ _ _ _ _ _ _ _ _ _ hj hj' hi⟩,
        ⟨_, _, at_mid_q2 _ _ _ _ _ _ _ _ _ _ _ _ _ _ _ _ _ hj hj' hi⟩, ⟨_, _, at_mid_q3 _ _ _ _ _ _ _ _ _ _ _ _ _ _ _ _ _ hj hj' hi⟩,
        ⟨_, _, at_mid_q4 _ _ _ _ _ _ _ _ _ _ _ _ _ _ _ _ _ hj hj' hi⟩, ⟨_, _, at_mid_none _ _ _ _ _ _ _ _ _ _ _ _ _ _ _ _ _ hj hj' hi⟩]
    · rcases (by omega : (i 0).val ≤ 15 ∨ (i 0).val = 16 ∨ (i 0).val = 17 ∨ (i 0).val = 18 ∨ (i 0).val = 19) with hi | hi | hi | hi | hi
      exacts [⟨_, _, at_last_all _ _ _ _ _ _ _ _ _ _ _ _ _ _ _ _ _ hj hi⟩, ⟨_, _, at_last_q1 _ _ _ _ _ _ _ _ _ _ _ _ _ _ _ _ _ hj hi⟩, ⟨_, _, at_last_q2 _ _ _ _ _ _ _ _ _ _ _ _ _ _ _ _ _ hj hi⟩,
        ⟨_, _, at_last_q3 _ _ _ _ _ _ _ _ _ _ _ _ _ _ _ _ _ hj hi⟩, ⟨_, _, at_last_q4 _ _ _ _ _ _ _ _ _ _ _ _ _ _ _ _ _ hj hi⟩]
  iintro ⟨H2, H3, H4, H5, H6, Hk⟩
  iapply (h E K)
  unfold Held
  iframe
  iintro H
  iapply Hk
  iexists Y5, Y6
  iexact H

end Cert.Kernel.R2Run
-- ==== Proof.WLR2DatT.lean ====
import proofs.«121951_g22909355557424_cont_8to1_1761_16_alg».proof.Proof.Gen.Kernel.Launch
import proofs.«121951_g22909355557424_cont_8to1_1761_16_alg».proof.Proof.Gen.Kernel.Skeleton
import proofs.«121951_g22909355557424_cont_8to1_1761_16_alg».proof.Proof.Gen.Kernel.Points
import proofs.«121951_g22909355557424_cont_8to1_1761_16_alg».proof.Proof.WLR2Run
import Idealize.ShloMosaic.Lib.Pipeline.FrameBody
import Idealize.ShloMosaic.Lib.Pipeline.Kit
import Idealize.ShloMosaic.Lib.Tactic

set_option maxRecDepth 16384

noncomputable section

namespace Cert.Kernel.R2DatT

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F] {U : Type} [URA U]

local notation "𝕄" => MT nD τ sig Unit (Elt F) ℕ U ℕ

variable (c : Dev nD) (V : (b : Ref sig .tc) → Buf (Elt F) ((c : Thread nD τ).loc b))

def rd2T : Pipeline.RDat τ (Elt F) Unit ℕ U ℕ cfg2 c where
  A w := V (Pipeline.arrRef spec2 w)
  after _ _ _ _ := True
  Φ _ := Pipeline.ΦA spec2 c
  q _ := fullShare
  owed _ := 0

theorem scopedRest2_split :
    (Pipeline.scopedRest (Ix := Unit) (Name := ℕ) (U := U) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := U) (Lvl := ℕ) (Val := Elt F) spec2 c [cc2_scratch0]) :=
  Pipeline.scopedRest_split_of_list (Ix := Unit) (Name := ℕ) (U := U) (Lvl := ℕ) (Val := Elt F) spec2 c [cc2_scratch0]
    (by decide) (by decide)

theorem body_obligation2T :
    (rd2T (F := F) (U := U) c V).BodyObligation (defs₀ (F := F)) Variants.none () Set.univ := fun t Y hY => by
  rw [bigSep_W2, bigSep_W2]
  show iprop(Pipeline.ΦA (Val := Elt F) (U := U) spec2 c ∗ _) ⊢ wp _ _ _ (bodyAt2 (F := F) t) fun _ =>
    iprop(Pipeline.ΦA (Val := Elt F) (U := U) spec2 c ∗ (rd2T (F := F) (U := U) c V).owesAt () t.castSucc ∗ _)
  unfold Pipeline.ΦA
  rw [scopedRest2_split (F := F) (U := U) c]
  iintro ⟨⟨⟨⟨%f, Hs⟩, Hr⟩, Hp⟩, Ho, H0, H1, H2, H3⟩
  iapply (R2Run.run2_any (U := U) c _ _ _ _ _ _ _ _ _ _ _ (Y 0) (Y 1) (Y 2) (Y 3) f Set.univ _)
  iframe H0 H1 H2 H3
  isplitl [Hs]
  · iapply (Entails.of_eq (owns_whole (c : Thread nD τ) cc2_scratch0 fullShare f).symm); iexact Hs
  iintro ⟨%Y5, %Y6, H0, H1, H2, H3, Hs⟩
  ihave Hs' := (Entails.of_eq (owns_whole (c : Thread nD τ) cc2_scratch0 fullShare Y6)) $$ Hs
  iframe Hr Hp Ho
  isplitl [Hs']; · iexists Y6; iexact Hs'
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  iexists Y5; isplitr; · ipureintro; trivial
  iexact H3

end Cert.Kernel.R2DatT

end
-- ==== Proof.WLAsmArgs.lean ====
import proofs.«121951_g22909355557424_cont_8to1_1761_16_alg».proof.Proof.WLLaunch

noncomputable section

namespace Cert.Kernel.AsmArgs

open Cert.Kernel Cert.Kernel.Gen
open Idealize.ShloMosaic Idealize.ShloMosaic.TcCoe
open Idealize.SL Idealize.SL.Sem
open Idealize.ShloMosaic.Pipeline (Dat RDat)

variable {F : FTy → Type} [FloatOps F]

variable (m : (ℓ : Loc nD τ sig) → Buf (Elt F) ℓ)
  (dat0 : (c : Dev nD) → Dat τ (Elt F) Unit ℕ Launch.UU ℕ cfg0 c)
  (rd1 : (c : Dev nD) → RDat τ (Elt F) Unit ℕ Launch.UU ℕ cfg1 c)
  (rd2 : (c : Dev nD) → ((b : Ref sig .tc) → Buf (Elt F) ((c : Thread nD τ).loc b)) → RDat τ (Elt F) Unit ℕ Launch.UU ℕ cfg2 c)

variable (c : Dev nD) (V4 V5 : (b : Ref sig .tc) → Buf (Elt F) ((c : Thread nD τ).loc b))

/-- The argument followed backwards from the end: through the last stretch, the two passes, the third reshape, the preparation kernel and the first reshapes. -/
theorem arg_end (b : Ref sig .tc) (h5 : V5 b = V4 b) (h4 : V4 b = Launch.V3 m dat0 c b)
    (h2 : Launch.W2 m dat0 c (Proc.devRef .tc b) = Launch.W1 m c (Proc.devRef .tc b))
    (hd : b ∉ hostOps3_W ∧ b ∉ hostOps1_W ∧ b ∉ hostOps0_W) :
    StableHlo.after (hostOps3 (F := F)) (Launch.liftV c (Launch.W0 m c) V5) (Proc.devRef .tc b) = m ((c : Thread nD τ).loc b) :=
  (StableHlo.after_of_writes_sub hostOps3 _ hostOps3_writes hd.1).trans <| (Launch.liftV_tc c _ V5 b).trans <| h5.trans <| h4.trans <|
    (StableHlo.after_of_writes_sub hostOps1 _ hostOps1_writes hd.2.1).trans <| h2.trans <|
    (StableHlo.after_of_writes_sub hostOps0 _ hostOps0_writes hd.2.2).trans rfl

theorem final_args (hA0 : ∀ c w, (dat0 c).A w = Launch.V1 m c (Pipeline.arrRef spec0 w))
    (hA1 : ∀ c w, (rd1 c).A w = Launch.V3 m dat0 c (Pipeline.arrRef spec1 w))
    (hA2 : ∀ c V4 w, (rd2 c V4).A w = V4 (Pipeline.arrRef spec2 w))
    (hV4 : Launch.P4 m dat0 rd1 c V4) (hV5 : Launch.P5 rd2 c V4 V5) :
    StableHlo.after (hostOps3 (F := F)) (Launch.liftV c (Launch.W0 m c) V5) (Proc.devRef .tc main_arg0) = m ((c : Thread nD τ).loc main_arg0)
    ∧ StableHlo.after (hostOps3 (F := F)) (Launch.liftV c (Launch.W0 m c) V5) (Proc.devRef .tc main_arg1) = m ((c : Thread nD τ).loc main_arg1)
    ∧ StableHlo.after (hostOps3 (F := F)) (Launch.liftV c (Launch.W0 m c) V5) (Proc.devRef .tc main_arg2) = m ((c : Thread nD τ).loc main_arg2)
    ∧ StableHlo.after (hostOps3 (F := F)) (Launch.liftV c (Launch.W0 m c) V5) (Proc.devRef .tc main_arg3) = m ((c : Thread nD τ).loc main_arg3)
    ∧ StableHlo.after (hostOps3 (F := F)) (Launch.liftV c (Launch.W0 m c) V5) (Proc.devRef .tc main_arg4) = m ((c : Thread nD τ).loc main_arg4)
    ∧ StableHlo.after (hostOps3 (F := F)) (Launch.liftV c (Launch.W0 m c) V5) (Proc.devRef .tc main_arg5) = m ((c : Thread nD τ).loc main_arg5)
    ∧ StableHlo.after (hostOps3 (F := F)) (Launch.liftV c (Launch.W0 m c) V5) (Proc.devRef .tc main_arg6) = m ((c : Thread nD τ).loc main_arg6)
    ∧ StableHlo.after (hostOps3 (F := F)) (Launch.liftV c (Launch.W0 m c) V5) (Proc.devRef .tc main_arg7) = m ((c : Thread nD τ).loc main_arg7) := by
  have o := fun b (h : b ∉ Finset.univ.image (Pipeline.arrRef spec2) ∧ b ∉ Finset.univ.image (Pipeline.arrRef spec1)) =>
    arg_end m dat0 c V4 V5 b (hV5.2 b h.1) (hV4.2 b h.2)
  have i := fun w hin => (Launch.W2_arr m dat0 c w).trans (((dat0 c).arrAt_in w hin cfg0.N).trans (hA0 c w))
  have n := Launch.W2_of_ne m dat0 c
  have h5 := hV5.1 0
  have h4 := hV4.1 0
  rw [Pipeline.RDat.ArrAt_in _ (0 : Fin cfg2.W) rfl cfg2.N] at h5
  rw [Pipeline.RDat.ArrAt_in _ (0 : Fin cfg1.W) rfl cfg1.N] at h4
  exact ⟨arg_end m dat0 c V4 V5 main_arg0 (h5.trans (hA2 c V4 0)) (h4.trans (hA1 c 0)) (n _ (by decide)) (by decide),
    o main_arg1 (by decide) (i 0 rfl) (by decide), o main_arg2 (by decide) (i 1 rfl) (by decide),
    o main_arg3 (by decide) (n _ (by decide)) (by decide), o main_arg4 (by decide) (i 2 rfl) (by decide),
    o main_arg5 (by decide) (n _ (by decide)) (by decide), o main_arg6 (by decide) (i 4 rfl) (by decide),
    o main_arg7 (by decide) (n _ (by decide)) (by decide)⟩

end Cert.Kernel.AsmArgs

end
-- ==== Proof.WLFrameT.lean ====
import proofs.«121951_g22909355557424_cont_8to1_1761_16_alg».proof.Proof.WLLaunch
import proofs.«121951_g22909355557424_cont_8to1_1761_16_alg».proof.Proof.WLR0
import proofs.«121951_g22909355557424_cont_8to1_1761_16_alg».proof.Proof.WLR1DatT
import proofs.«121951_g22909355557424_cont_8to1_1761_16_alg».proof.Proof.WLR2DatT
import proofs.«121951_g22909355557424_cont_8to1_1761_16_alg».proof.Proof.WLAsmArgs

noncomputable section

namespace Cert.Kernel.FrameT

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Launch (UU Rg)

variable {F : FTy → Type} [FloatOps F]

local notation "𝕄" => MT nD τ sig Unit (Elt F) ℕ UU ℕ

variable (m : (ℓ : Loc nD τ sig) → Buf (Elt F) ℓ) (ρ : Dev nD → PrngReg)

def dat0 (c : Dev nD) : Dat τ (Elt F) Unit ℕ UU ℕ cfg0 c := R0.dat0 (U := UU) (Launch.V1 m) c

def rd1 (c : Dev nD) : RDat τ (Elt F) Unit ℕ UU ℕ cfg1 c := R1DatT.rd1T (U := UU) (Launch.V3 m (dat0 m)) c

def rd2 (c : Dev nD) (V4 : (b : Ref sig .tc) → Buf (Elt F) ((c : Thread nD τ).loc b)) : RDat τ (Elt F) Unit ℕ UU ℕ cfg2 c :=
  R2DatT.rd2T (U := UU) c V4

theorem hin2 (c : Dev nD) (V4 : (b : Ref sig .tc) → Buf (Elt F) ((c : Thread nD τ).loc b)) :
    (iprop(Rg c ∗ Pipeline.prefHeld (pcfgs (F := F) 2).pre c (fun _ => fullShare) (Launch.adm (F := F) 2).1
      ∗ Pipeline.scopedRest (Ix := Unit) (Name := ℕ) (U := UU) (Lvl := ℕ) (Val := Elt F) spec2 c) : sProp 𝕄) ⊢ (rd2 c V4).Φ 0 := by
  show _ ⊢ Pipeline.ΦA spec2 c
  unfold Pipeline.ΦA
  iintro ⟨Hp, -, Hr⟩
  isplitl [Hr]; · iexact Hr
  iexact Hp

theorem hout2 (c : Dev nD) (V4 : (b : Ref sig .tc) → Buf (Elt F) ((c : Thread nD τ).loc b)) :
    (rd2 c V4).Φ (Fin.last cfg2.N) ⊢ (iprop(Rg c ∗ Pipeline.ownSems0 (fun k : PEmpty => k.elim) c
      ∗ Pipeline.scopedRest (Ix := Unit) (Name := ℕ) (U := UU) (Lvl := ℕ) (Val := Elt F) spec2 c) : sProp 𝕄) := by
  show Pipeline.ΦA spec2 c ⊢ _
  rw [Pipeline.ownSems0_none]; unfold Pipeline.ΦA
  iintro ⟨Hr, Hp⟩
  isplitl [Hp]; · iexact Hp
  isplitr; · iempintro
  iexact Hr

theorem run : θ_run defs (onTc (τ := τ) (main (F := F))) ⟨m, fun _ => 0, ρ⟩ (fun r => ∀ c : Dev nD,
      ∃ V4 V5, Launch.P4 m (dat0 m) (rd1 m) c V4 ∧ Launch.P5 (rd2 (F := F)) c V4 V5
        ∧ ∀ b ∈ Pipeline.ucRefs τ sig, r.2.mem (((c : Thread nD τ)).1, b) = StableHlo.after hostOps3 (Launch.liftV c (Launch.W0 m c) V5) b) :=
  Launch.run_main m ρ (dat0 m) (R0.A_eq0 (U := UU) (Launch.V1 m)) (fun _ _ => rfl) (fun _ _ => rfl) (fun _ _ => rfl) (fun _ _ => rfl)
    (R0.body_obligation0 (U := UU) (Launch.V1 m))
    (rd1 m) (fun _ _ => rfl) (fun _ _ => rfl) (fun _ _ => rfl) (fun _ _ => rfl) (fun _ _ => rfl)
    (R1DatT.body_obligation1T (U := UU) (Launch.V3 m (dat0 m)))
    rd2 (fun _ _ _ => rfl) (fun _ _ _ => rfl) (fun _ _ _ => rfl) (fun _ _ _ => rfl) hin2 hout2
    (fun c V4 _ => R2DatT.body_obligation2T (U := UU) c V4)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨V4, V5, hV4, hV5, hmem⟩ := h c
    obtain ⟨e0, e1, e2, e3, e4, e5, e6, e7⟩ := AsmArgs.final_args m (dat0 m) (rd1 m) rd2 c V4 V5
      (R0.A_eq0 (U := UU) (Launch.V1 m)) (fun _ _ => rfl) (fun _ _ _ => rfl) hV4 hV5
    refine ⟨(hmem (Proc.devRef .tc main_arg0) ?_).trans e0, (hmem (Proc.devRef .tc main_arg1) ?_).trans e1,
      (hmem (Proc.devRef .tc main_arg2) ?_).trans e2, (hmem (Proc.devRef .tc main_arg3) ?_).trans e3,
      (hmem (Proc.devRef .tc main_arg4) ?_).trans e4, (hmem (Proc.devRef .tc main_arg5) ?_).trans e5,
      (hmem (Proc.devRef .tc main_arg6) ?_).trans e6, (hmem (Proc.devRef .tc main_arg7) ?_).trans e7⟩ <;>
    exact Finset.mem_filter.mpr ⟨StableHlo.devRef_mem_tcRefs _, by decide⟩)
    (run m ρ)

end Cert.Kernel.FrameT

end
-- ==== Proof.lean ====
import proofs.«121951_g22909355557424_cont_8to1_1761_16_alg».proof.Defs
import proofs.«121951_g22909355557424_cont_8to1_1761_16_alg».proof.Proof.Gen.Kernel
import proofs.«121951_g22909355557424_cont_8to1_1761_16_alg».proof.Proof.Gen.KernelIdeal
import proofs.«121951_g22909355557424_cont_8to1_1761_16_alg».proof.Proof.Gen.ReferenceIdeal
import proofs.«121951_g22909355557424_cont_8to1_1761_16_alg».proof.Proof.Gen.Pre_finite_inputs
import proofs.«121951_g22909355557424_cont_8to1_1761_16_alg».proof.Proof.KernelRun
import proofs.«121951_g22909355557424_cont_8to1_1761_16_alg».proof.Proof.RefSide
import proofs.«121951_g22909355557424_cont_8to1_1761_16_alg».proof.Proof.Preserves
import proofs.«121951_g22909355557424_cont_8to1_1761_16_alg».proof.Proof.Algebraic
import proofs.«121951_g22909355557424_cont_8to1_1761_16_alg».proof.Proof.WLFrameT
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.FrameT.frame (F := Bits) m ρ,
    Cert.Proof.Parts.frame_of_run (hKernelIdeal := Cert.KernelIdeal.Gen.facts) (hPre_finite_inputs := Cert.Pre_finite_inputs.Gen.facts)
      (Cert.Proof.Parts.kernel_run (hKernelIdeal := Cert.KernelIdeal.Gen.facts)),
    Cert.RefSide.frame_ref (hReferenceIdeal := Cert.ReferenceIdeal.Gen.facts) (hPre_finite_inputs := Cert.Pre_finite_inputs.Gen.facts),
    Cert.Proof.Parts.preserves,
    Cert.Proof.Parts.algebraic_of_run (hKernelIdeal := Cert.KernelIdeal.Gen.facts) (hReferenceIdeal := Cert.ReferenceIdeal.Gen.facts)
      (hPre_finite_inputs := Cert.Pre_finite_inputs.Gen.facts) (Cert.Proof.Parts.kernel_run (hKernelIdeal := Cert.KernelIdeal.Gen.facts))⟩

end Cert.Proof

end
